-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256 : Shape := ⟨3, ![16, 512, 256]⟩
abbrev S16x512 : Shape := ⟨2, ![16, 512]⟩
abbrev S_ : Shape := ⟨0, ![]⟩

class Facts : Prop where
  bcast_S_S16x512x256 : S_.BroadcastsInDim S16x512x256 (![] : Fin 0 → Fin S16x512x256.rank)
  reducesTo_S16x512x256_S_d0_1_2 : S16x512x256.ReducesTo [0, 1, 2] S_
  h_S_ : 0 < S_.numel

variable [Facts]

def fn {F : FTy → Type} [FloatOps F] (main_arg0 : FVec F S16x512x256 .f32) (main_arg1 : IVec S16x512 32) : IVec S_ 1 :=
  let main_v0 : FVec F S16x512x256 .f32 := Host.absf main_arg0
  let main_cst : FVec F S_ .f32 := constant S_ .f32 0x7F800000#32
  let main_v1 : FVec F S16x512x256 .f32 := broadcastInDim S16x512x256 ![] bcast_S_S16x512x256 main_cst
  let main_v2 : IVec S16x512x256 1 := cmpf .olt main_v0 main_v1
  let main_c : IVec S_ 1 := constantI S_ 1 1#1
  let main_v3 : IVec S_ 1 := (fun x v => Host.reduce IntOp.andi x v reducesTo_S16x512x256_S_d0_1_2 h_S_) main_v2 main_c
  main_v3
-- ==== Kernel.lean ====
abbrev S16x512x256 : Shape := ⟨3, ![16, 512, 256]⟩
abbrev S16x512 : Shape := ⟨2, ![16, 512]⟩
abbrev S13x13 : Shape := ⟨2, ![13, 13]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x13 : Shape := ⟨2, ![1, 13]⟩
abbrev S8192x13 : Shape := ⟨2, ![8192, 13]⟩
abbrev S1x8192 : Shape := ⟨2, ![1, 8192]⟩
abbrev S1024x256 : Shape := ⟨2, ![1024, 256]⟩
abbrev S1024x13 : Shape := ⟨2, ![1024, 13]⟩
abbrev S1x1024 : Shape := ⟨2, ![1, 1024]⟩
abbrev S1024x1 : Shape := ⟨2, ![1024, 1]⟩
abbrev S256x1024 : Shape := ⟨2, ![256, 1024]⟩
abbrev S1024x1024 : Shape := ⟨2, ![1024, 1024]⟩
abbrev S13x1024 : Shape := ⟨2, ![13, 1024]⟩
abbrev S1024 : Shape := ⟨1, ![1024]⟩

abbrev nBuf : Space → Nat
  | .hbm => 85
  | .vmem => 22
  | .smem => 0
  | _ => 0

abbrev bufTy : (tb : Table) → Fin (tcTables nBuf tb) → BufTy
  | .hbm, ⟨0, _⟩ => ⟨S16x512x256, .f32⟩
  | .hbm, ⟨1, _⟩ => ⟨S16x512, .i32⟩
  | .hbm, ⟨2, _⟩ => ⟨S13x13, .f32⟩
  | .hbm, ⟨3, _⟩ => ⟨S8192x256, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S8192x256, .bf16⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S1x13, .i32⟩
  | .hbm, ⟨29, _⟩ => ⟨S8192x13, .i32⟩
  | .hbm, ⟨30, _⟩ => ⟨S8192x13, .i32⟩
  | .hbm, ⟨31, _⟩ => ⟨S8192x13, .i1⟩
  | .hbm, ⟨32, _⟩ => ⟨S8192x13, .f32⟩
  | .hbm, ⟨33, _⟩ => ⟨S8192x13, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S8192, .i1⟩
  | .hbm, ⟨40, _⟩ => ⟨S_, .f32⟩
  | .hbm, ⟨41, _⟩ => ⟨S8192x13, .f32⟩
  | .hbm, ⟨42, _⟩ => ⟨S8192x13, .f32⟩
  | .hbm, ⟨43, _⟩ => ⟨S8192x13, .f32⟩
  | .hbm, ⟨44, _⟩ => ⟨S8192x13, .bf16⟩
  | .hbm, ⟨45, _⟩ => ⟨S8192x13, .bf16⟩
  | .hbm, ⟨46, _⟩ => ⟨S8192, .f32⟩
  | .hbm, ⟨47, _⟩ => ⟨S1x8192, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .i1⟩
  | .hbm, ⟨55, _⟩ => ⟨S_, .f32⟩
  | .hbm, ⟨56, _⟩ => ⟨S8192x1, .f32⟩
  | .hbm, ⟨57, _⟩ => ⟨S8192x1, .i1⟩
  | .hbm, ⟨58, _⟩ => ⟨S8192x1, .i1⟩
  | .hbm, ⟨59, _⟩ => ⟨S8192x1, .i1⟩
  | .hbm, ⟨60, _⟩ => ⟨S8192x1, .i1⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .i1⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x13, .bf16⟩
  | .local _ .vmem, ⟨5, _⟩ => ⟨S1024x13, .bf16⟩
  | .local _ .vmem, ⟨6, _⟩ => ⟨S1024x13, .bf16⟩
  | .local _ .vmem, ⟨7, _⟩ => ⟨S1024x13, .bf16⟩
  | .local _ .vmem, ⟨8, _⟩ => ⟨S1x1024, .f32⟩
  | .local _ .vmem, ⟨9, _⟩ => ⟨S1x1024, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v24_2 : Ref sig .tc := ⟨.hbm, 50, rfl⟩
abbrev main_v24_3 : Ref sig .tc := ⟨.hbm, 51, rfl⟩
abbrev main_cst_6 : Ref sig .tc := ⟨.hbm, 52, rfl⟩
abbrev main_v25 : Ref sig .tc := ⟨.hbm, 53, rfl⟩
abbrev main_v26 : Ref sig .tc := ⟨.hbm, 54, rfl⟩
abbrev main_cst_7 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_8 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call3_cst : Ref sig .tc := ⟨.hbm, 65, rfl⟩
abbrev main_call3_v0 : Ref sig .tc := ⟨.hbm, 66, rfl⟩
abbrev main_v35 : Ref sig .tc := ⟨.hbm, 67, rfl⟩
abbrev main_cst_9 : Ref sig .tc := ⟨.hbm, 68, rfl⟩
abbrev main_call4_v0 : Ref sig .tc := ⟨.hbm, 69, rfl⟩
abbrev main_call4_v1 : Ref sig .tc := ⟨.hbm, 70, rfl⟩
abbrev main_v36 : Ref sig .tc := ⟨.hbm, 71, rfl⟩
abbrev main_v37 : Ref sig .tc := ⟨.hbm, 72, rfl⟩
abbrev main_cst_10 : Ref sig .tc := ⟨.hbm, 73, rfl⟩
abbrev main_v38 : Ref sig .tc := ⟨.hbm, 74, rfl⟩
abbrev main_cst_11 : Ref sig .tc := ⟨.hbm, 75, rfl⟩
abbrev main_v39 : Ref sig .tc := ⟨.hbm, 76, rfl⟩
abbrev main_cst_12 : Ref sig .tc := ⟨.hbm, 77, rfl⟩
abbrev main_v40 : Ref sig .tc := ⟨.hbm, 78, rfl⟩
abbrev main_cst_13 : Ref sig .tc := ⟨.hbm, 79, rfl⟩
abbrev main_v41 : Ref sig .tc := ⟨.hbm, 80, rfl⟩
abbrev main_v42 : Ref sig .tc := ⟨.hbm, 81, rfl⟩
abbrev main_cst_14 : Ref sig .tc := ⟨.hbm, 82, rfl⟩
abbrev main_call5_v0 : Ref sig .tc := ⟨.hbm, 83, rfl⟩
abbrev main_v43 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v87 : BitVec 1 := Scalar.cmpi .eq arg1 c7_i32
  let v88 : BitVec 32 := Scalar.extui v87
  let c0_i32_45 : BitVec 32 := 0#32
  let v89 : BitVec 1 := Scalar.cmpi .ne v88 c0_i32_45
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x13 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x13 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S16x512x256_S8192x256 : S16x512x256.ShapeCasts S8192x256
  shapeCasts_S16x512_S8192 : S16x512.ShapeCasts S8192
  bcast_S_S8192 : S_.BroadcastsInDim S8192 (![] : Fin 0 → Fin S8192.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  bcast_S8192x1_S8192x13_0_1 : S8192x1.BroadcastsInDim S8192x13 (![0, 1] : Fin 2 → Fin S8192x13.rank)
  bcast_S1x13_S8192x13_0_1 : S1x13.BroadcastsInDim S8192x13 (![0, 1] : Fin 2 → Fin S8192x13.rank)
  reducesTo_S8192x13_S8192_d1 : S8192x13.ReducesTo [1] S8192
  bcast_S_S8192x13 : S_.BroadcastsInDim S8192x13 (![] : Fin 0 → Fin S8192x13.rank)
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1024x13_S1024x13_0_0 : ∀ a, (![0, 0] : Fin 2 → Nat) a + S1024x13.size a ≤ S1024x13.size a
  h_S1024x13 : 0 < S1024x13.numel
  shapeCasts_S1024x13_S1024x13 : S1024x13.ShapeCasts S1024x13
  transposes_S1024x13_p1_0_S13x1024 : S1024x13.Transposes [1, 0] S13x1024
  iota_S1024x1024_d0_w32 : S1024x1024.Iotas .tc 32 [0]
  iota_S1024x1024_d1_w32 : S1024x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  natLt_1_32 : 1 < 32
  reducesTo_S8192x1_S_d0_1 : S8192x1.ReducesTo [0, 1] S_
  dot_S8192x13_S13x13_S8192x13_1_0_0_1_n_n_wf : DotDims.WF S8192x13 S13x13 S8192x13 [1] [0] [0] [1] [] []
  dot_S1024x256_S256x1024_S1024x1024_1_0_0_1_n_n_wf : DotDims.WF S1024x256 S256x1024 S1024x1024 [1] [0] [0] [1] [] []
  dot_S1024x13_S13x1024_S1024x1024_1_0_0_1_n_n_wf : DotDims.WF S1024x13 S13x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x13.size a ≤ S8192x13.size a
  hwx0_2 : ∀ i : grid0.Coords, EltTy.bits .bf16 = 32 ∨ (Rect.block (s := S8192x13) S1024x13.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x13.size a ≤ S8192x13.size a
  hwx0_3 : ∀ i : grid0.Coords, EltTy.bits .bf16 = 32 ∨ (Rect.block (s := S8192x13) S1024x13.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S8192x1.size a
  hwx0_8 : ∀ i : grid0.Coords, EltTy.bits .f32 = 32 ∨ (Rect.block (s := S8192x1) S1024x1.size (cc0_transform_8 i) (hinb0_8 i)).WholeWords (EltTy.packing .f32)

variable [Facts₀]

def dot_S8192x13_S13x13_S8192x13_1_0_0_1_n_n : DotDims S8192x13 S13x13 S8192x13 where
  lhsContracting := [1]
  rhsContracting := [0]
  lhsNonContracting := [0]
  rhsNonContracting := [1]
  lhsBatch := []
  rhsBatch := []
  wf := dot_S8192x13_S13x13_S8192x13_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x13_S13x1024_S1024x1024_1_0_0_1_n_n : DotDims S1024x13 S13x1024 S1024x1024 where
  lhsContracting := [1]
  rhsContracting := [0]
  lhsNonContracting := [0]
  rhsNonContracting := [1]
  lhsBatch := []
  rhsBatch := []
  wf := dot_S1024x13_S13x1024_S1024x1024_1_0_0_1_n_n_wf

abbrev win0_0 : Pipeline.Window sig grid0 :=
  Pipeline.Window.ofSpec (Memref.whole main_v9) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x13.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_2) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_3) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16x512x256 : Shape := ⟨3, ![16, 512, 256]⟩
abbrev S16x512 : Shape := ⟨2, ![16, 512]⟩
abbrev S13x13 : Shape := ⟨2, ![13, 13]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S8192x13 : Shape := ⟨2, ![8192, 13]⟩
abbrev S1x8192 : Shape := ⟨2, ![1, 8192]⟩
abbrev S8192x8192x1 : Shape := ⟨3, ![8192, 8192, 1]⟩
abbrev S8192x8192x2 : Shape := ⟨3, ![8192, 8192, 2]⟩

abbrev nBuf : Space → Nat
  | .hbm => 124
  | .vmem => 0
  | .smem => 0
  | _ => 0

abbrev bufTy : (tb : Table) → Fin (tcTables nBuf tb) → BufTy
  | .hbm, ⟨0, _⟩ => ⟨S16x512x256, .f32⟩
  | .hbm, ⟨1, _⟩ => ⟨S16x512, .i32⟩
  | .hbm, ⟨2, _⟩ => ⟨S13x13, .i1⟩
  | .hbm, ⟨3, _⟩ => ⟨S8192x256, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S256x8192, .f32⟩
  | .hbm, ⟨19, _⟩ => ⟨S8192x8192, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x13, .i1⟩
  | .hbm, ⟨37, _⟩ => ⟨S_, .i1⟩
  | .hbm, ⟨38, _⟩ => ⟨S8192, .i1⟩
  | .hbm, ⟨39, _⟩ => ⟨S8192, .i1⟩
  | .hbm, ⟨40, _⟩ => ⟨S8192x1, .i32⟩
  | .hbm, ⟨41, _⟩ => ⟨S1x8192, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i32⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S1x8192, .i1⟩
  | .hbm, ⟨52, _⟩ => ⟨S8192x8192, .i1⟩
  | .hbm, ⟨53, _⟩ => ⟨S8192x8192, .i1⟩
  | .hbm, ⟨54, _⟩ => ⟨S8192x8192, .i1⟩
  | .hbm, ⟨55, _⟩ => ⟨S8192x8192, .i1⟩
  | .hbm, ⟨56, _⟩ => ⟨S8192x1, .i32⟩
  | .hbm, ⟨57, _⟩ => ⟨S1x8192, .i32⟩
  | .hbm, ⟨58, _⟩ => ⟨S_, .i32⟩
  | .hbm, ⟨59, _⟩ => ⟨S8192x1, .i32⟩
  | .hbm, ⟨60, _⟩ => ⟨S8192x1, .i1⟩
  | .hbm, ⟨61, _⟩ => ⟨S_, .i32⟩
  | .hbm, ⟨62, _⟩ => ⟨S8192x1, .i32⟩
  | .hbm, ⟨63, _⟩ => ⟨S8192x1, .i32⟩
  | .hbm, ⟨64, _⟩ => ⟨S8192x1, .i32⟩
  | .hbm, ⟨65, _⟩ => ⟨S_, .i32⟩
  | .hbm, ⟨66, _⟩ => ⟨S1x8192, .i32⟩
  | .hbm, ⟨67, _⟩ => ⟨S1x8192, .i1⟩
  | .hbm, ⟨68, _⟩ => ⟨S_, .i32⟩
  | .hbm, ⟨69, _⟩ => ⟨S1x8192, .i32⟩
  | .hbm, ⟨70, _⟩ => ⟨S1x8192, .i32⟩
  | .hbm, ⟨71, _⟩ => ⟨S1x8192, .i32⟩
  | .hbm, ⟨72, _⟩ => ⟨S8192x8192, .i32⟩
  | .hbm, ⟨73, _⟩ => ⟨S8192x8192, .i32⟩
  | .hbm, ⟨74, _⟩ => ⟨S8192x8192x1, .i32⟩
  | .hbm, ⟨75, _⟩ => ⟨S8192x8192x1, .i32⟩
  | .hbm, ⟨76, _⟩ => ⟨S8192x8192x2, .i32⟩
  | .hbm, ⟨77, _⟩ => ⟨S8192x8192, .i1⟩
  | .hbm, ⟨78, _⟩ => ⟨S1x8192, .i1⟩
  | .hbm, ⟨79, _⟩ => ⟨S8192x8192, .i1⟩
  | .hbm, ⟨80, _⟩ => ⟨S8192x8192, .i1⟩
  | .hbm, ⟨81, _⟩ => ⟨S_, .i1⟩
  | .hbm, ⟨82, _⟩ => ⟨S8192, .i1⟩
  | .hbm, ⟨83, _⟩ => ⟨S_, .i1⟩
  | .hbm, ⟨84, _⟩ => ⟨S8192, .i1⟩
  | .hbm, ⟨85, _⟩ => ⟨S8192, .i1⟩
  | .hbm, ⟨86, _⟩ => ⟨S8192, .i1⟩
  | .hbm, ⟨87, _⟩ => ⟨S_, .f32⟩
  | .hbm, ⟨88, _⟩ => ⟨S_, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S_, .f32⟩
  | .hbm, ⟨94, _⟩ => ⟨S_, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S8192, .f32⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S8192, .f32⟩
  | .hbm, ⟨103, _⟩ => ⟨S_, .f32⟩
  | .hbm, ⟨104, _⟩ => ⟨S8192, .f32⟩
  | .hbm, ⟨105, _⟩ => ⟨S8192, .f32⟩
  | .hbm, ⟨106, _⟩ => ⟨S_, .f32⟩
  | .hbm, ⟨107, _⟩ => ⟨S_, .f32⟩
  | .hbm, ⟨108, _⟩ => ⟨S8192, .f32⟩
  | .hbm, ⟨109, _⟩ => ⟨S8192, .f32⟩
  | .hbm, ⟨110, _⟩ => ⟨S8192, .i32⟩
  | .hbm, ⟨111, _⟩ => ⟨S_, .i32⟩
  | .hbm, ⟨112, _⟩ => ⟨S_, .i32⟩
  | .hbm, ⟨113, _⟩ => ⟨S_, .f32⟩
  | .hbm, ⟨114, _⟩ => ⟨S_, .f32⟩
  | .hbm, ⟨115, _⟩ => ⟨S_, .i32⟩
  | .hbm, ⟨116, _⟩ => ⟨S_, .i32⟩
  | .hbm, ⟨117, _⟩ => ⟨S_, .f32⟩
  | .hbm, ⟨118, _⟩ => ⟨S_, .f32⟩
  | .hbm, ⟨119, _⟩ => ⟨S_, .i32⟩
  | .hbm, ⟨120, _⟩ => ⟨S_, .i1⟩
  | .hbm, ⟨121, _⟩ => ⟨S_, .f32⟩
  | .hbm, ⟨122, _⟩ => ⟨S_, .f32⟩
  | .hbm, ⟨123, _⟩ => ⟨S_, .f32⟩
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_cst_15 : Ref sig .tc := ⟨.hbm, 93, rfl⟩
abbrev main_call3_v0 : Ref sig .tc := ⟨.hbm, 94, rfl⟩
abbrev main_call3_v1 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_cst_17 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call4_cst : Ref sig .tc := ⟨.hbm, 103, rfl⟩
abbrev main_call4_v0 : Ref sig .tc := ⟨.hbm, 104, rfl⟩
abbrev main_v68 : Ref sig .tc := ⟨.hbm, 105, rfl⟩
abbrev main_cst_18 : Ref sig .tc := ⟨.hbm, 106, rfl⟩
abbrev main_call5_v0 : Ref sig .tc := ⟨.hbm, 107, rfl⟩
abbrev main_call5_v1 : Ref sig .tc := ⟨.hbm, 108, rfl⟩
abbrev main_v69 : Ref sig .tc := ⟨.hbm, 109, rfl⟩
abbrev main_v70 : Ref sig .tc := ⟨.hbm, 110, rfl⟩
abbrev main_c_19 : Ref sig .tc := ⟨.hbm, 111, rfl⟩
abbrev main_v71 : Ref sig .tc := ⟨.hbm, 112, rfl⟩
abbrev main_cst_20 : Ref sig .tc := ⟨.hbm, 113, rfl⟩
abbrev main_v72 : Ref sig .tc := ⟨.hbm, 114, rfl⟩
abbrev main_c_21 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_22 : Ref sig .tc := ⟨.hbm, 119, rfl⟩
abbrev main_v76 : Ref sig .tc := ⟨.hbm, 120, rfl⟩
abbrev main_cst_23 : Ref sig .tc := ⟨.hbm, 121, rfl⟩
abbrev main_call6_v0 : Ref sig .tc := ⟨.hbm, 122, rfl⟩
abbrev main_v77 : Ref sig .tc := ⟨.hbm, 123, rfl⟩

abbrev nD : Nat := 1
abbrev τ : Topo := Topo.v7x

variable {F : FTy → Type} [FloatOps F]

class Facts₀ : Prop where
  shapeCasts_S16x512x256_S8192x256 : S16x512x256.ShapeCasts S8192x256
  shapeCasts_S16x512_S8192 : S16x512.ShapeCasts S8192
  bcast_S_S8192 : S_.BroadcastsInDim S8192 (![] : Fin 0 → Fin S8192.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  reducesTo_S8192x13_S8192_d1 : S8192x13.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S1x8192 : S_.BroadcastsInDim S1x8192 (![] : Fin 0 → Fin S1x8192.rank)
  bcast_S8192x8192_S8192x8192x1_0_1 : S8192x8192.BroadcastsInDim S8192x8192x1 (![0, 1] : Fin 2 → Fin S8192x8192x1.rank)
  concatenates_S8192x8192x1_S8192x8192x1_S8192x8192x2_d2 : Shape.Concatenates [S8192x8192x1, S8192x8192x1] S8192x8192x2 2
  reducesTo_S8192x8192_S8192_d1 : S8192x8192.ReducesTo [1] S8192
  natLt_1_32 : 1 < 32
  reducesTo_S8192_S_d0 : S8192.ReducesTo [0] S_
  dot_S8192x256_S256x8192_S8192x8192_1_0_0_1_n_n_wf : DotDims.WF S8192x256 S256x8192 S8192x8192 [1] [0] [0] [1] [] []
  gather_S13x13_S8192x1_S8192x13_1_0_n_n_0_1_113_wf : GatherDims.WF S13x13 S8192x1 S8192x13 [1] [0] [] [0] [] 1 ![1, 13]
  gather_S13x13_S8192x8192x2_S8192x8192_n_01_n_n_01_2_11_wf : GatherDims.WF S13x13 S8192x8192x2 S8192x8192 [] [0, 1] [] [0, 1] [] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S13x13_S8192x1_S8192x13_1_0_n_n_0_1_113 : GatherDims S13x13 S8192x1 S8192x13 where
  offsetDims := [1]
  collapsedSliceDims := [0]
  operandBatchingDims := []
  startIndicesBatchingDims := []
  startIndexMap := [0]
  indexVectorDim := 1
  sliceSizes := ![1, 13]
  wf := gather_S13x13_S8192x1_S8192x13_1_0_n_n_0_1_113_wf
def gather_S13x13_S8192x8192x2_S8192x8192_n_01_n_n_01_2_11 : GatherDims S13x13 S8192x8192x2 S8192x8192 where
  offsetDims := []
  collapsedSliceDims := [0, 1]
  operandBatchingDims := []
  startIndicesBatchingDims := []
  startIndexMap := [0, 1]
  indexVectorDim := 2
  sliceSizes := ![1, 1]
  wf := gather_S13x13_S8192x8192x2_S8192x8192_n_01_n_n_01_2_11_wf

class Facts : Prop extends Facts₀ where

variable [Facts]
-- ==== Proof.KBRuns.lean ====
import proofs.«429954_j35948876268191_2_alg».proof.Proof.Gen.Kernel.Launch
import proofs.«429954_j35948876268191_2_alg».proof.Proof.Gen.Kernel.Skeleton
import proofs.«429954_j35948876268191_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4, hostOps0_5]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0, hostOps0_1, hostOps0_2, hostOps0_3, hostOps0_4, hostOps0_5] [hostOps1, hostOps1_1, hostOps1_2, hostOps1_3, hostOps1_4, hostOps1_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

theorem sfx_sub : ∀ ops ∈ ([hostOps1, hostOps1_1, hostOps1_2, hostOps1_3, hostOps1_4, hostOps1_5] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

theorem sfx_fresh : ∀ ops ∈ ([hostOps1, hostOps1_1, hostOps1_2, hostOps1_3, hostOps1_4, hostOps1_5] : List (List (HloOp τ sig (Elt F)))), ∀ op ∈ ops, op.fresh = ∅ := by
  intro ops hops
  simp only [List.mem_cons, List.mem_nil_iff, or_false] at hops
  rcases hops with rfl | rfl | rfl | rfl | rfl | rfl <;>
    exact List.forall_iff_forall_mem.mp (by simp only [List.Forall]; repeat' constructor)
set_option maxHeartbeats 800000 in

theorem sfx_keeps : ∀ ops ∈ ([hostOps1, hostOps1_1, hostOps1_2, hostOps1_3, hostOps1_4, hostOps1_5] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl <;>
    simp only [hostOps1, hostOps1_1, hostOps1_2, hostOps1_3, hostOps1_4, hostOps1_5, List.mem_cons, List.mem_nil_iff, or_false] at hop <;>
    (try casesm* _ ∨ _) <;> subst_vars <;> intro w <;> fin_cases w <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

-- The four result blocks are written exactly at the points whose inner coordinate is 7.
theorem live0 : ∀ (t : Fin cfg0.N) (w : Fin cfg0.W), (w.val < 5 ∨ cond0_1 (grid0.coords t)) → cfg0.idle w (grid0.coords t) = false := by decide +kernel
theorem idle0 : ∀ (t : Fin cfg0.N) (w : Fin cfg0.W), 5 ≤ w.val → ¬cond0_1 (grid0.coords t) → cfg0.idle w (grid0.coords t) = true ∧ (cfg0.win w).flush t = false := by decide +kernel

abbrev VO0_5 : View sig .tc .vmem S1024x1 .f32 := (Memref.whole cc0_stg5_0 : Memref sig .tc .vmem S1024x1 .f32).view

abbrev VO0_6 : View sig .tc .vmem S1024x1 .f32 := (Memref.whole cc0_stg6_0 : Memref sig .tc .vmem S1024x1 .f32).view

abbrev VO0_7 : View sig .tc .vmem S1024x1 .f32 := (Memref.whole cc0_stg7_0 : Memref sig .tc .vmem S1024x1 .f32).view

abbrev VO0_8 : View sig .tc .vmem S1024x1 .f32 := (Memref.whole cc0_stg8_0 : Memref sig .tc .vmem S1024x1 .f32).view

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x13 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x13 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3

abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KBRunA.lean ====
import proofs.«429954_j35948876268191_2_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x13 .bf16) (harg4 : arg4.IsWhole) (arg5 : Memref sig .tc .vmem S1024x13 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x256 .bf16) (x1 : Vec F S1024x256 .bf16) (x2 : Vec F S1024x13 .bf16) (x3 : Vec F S1024x13 .bf16) (x4 : Vec F S1x1024 .f32) :
    Σ' (L5 L6 L7 L8 LS0 LS1 LS2 : List (View.Piece (Elt F) S1024x1 .f32)), { LS3 : List (View.Piece (Elt F) S1024x1 .f32) //
      ∀ (xi5 xi6 xi7 xi8 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, ?_, ?_, fun xi5 xi6 xi7 xi8 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.Kernel.Hand

end
-- ==== Proof.KBRunB.lean ====
import proofs.«429954_j35948876268191_2_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x13 .bf16) (harg4 : arg4.IsWhole) (arg5 : Memref sig .tc .vmem S1024x13 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x256 .bf16) (x1 : Vec F S1024x256 .bf16) (x2 : Vec F S1024x13 .bf16) (x3 : Vec F S1024x13 .bf16) (x4 : Vec F S1x1024 .f32) (xs0 xs1 xs2 xs3 : Vec F S1024x1 .f32) :
    Σ' (L5 L6 L7 L8 LS0 LS1 LS2 : List (View.Piece (Elt F) S1024x1 .f32)), { LS3 : List (View.Piece (Elt F) S1024x1 .f32) //
      ∀ (xi5 xi6 xi7 xi8 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, ?_, ?_, fun xi5 xi6 xi7 xi8 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.Kernel.Hand

end
-- ==== Proof.KBRunC.lean ====
import proofs.«429954_j35948876268191_2_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x13 .bf16) (harg4 : arg4.IsWhole) (arg5 : Memref sig .tc .vmem S1024x13 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x256 .bf16) (x1 : Vec F S1024x256 .bf16) (x2 : Vec F S1024x13 .bf16) (x3 : Vec F S1024x13 .bf16) (x4 : Vec F S1x1024 .f32) (xs0 xs1 xs2 xs3 : Vec F S1024x1 .f32) :
    Σ' (L5 L6 L7 L8 LS0 LS1 LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.Kernel.Hand

end
-- ==== Proof.KBFrameDefs.lean ====
import proofs.«429954_j35948876268191_2_alg».proof.Proof.KBRunA
import proofs.«429954_j35948876268191_2_alg».proof.Proof.KBRunB
import proofs.«429954_j35948876268191_2_alg».proof.Proof.KBRunC
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "𝕃" => List (View.Piece (Elt F) S1024x1 EltTy.f32)

abbrev C4 (F : FTy → Type) := Vec F S1024x1 .f32 × Vec F S1024x1 .f32 × Vec F S1024x1 .f32 × Vec F S1024x1 .f32

-- The four result blocks and the four carried columns after a run: each of its eight piece lists read back over arbitrary contents.
def outs {P : 𝕃 → 𝕃 → 𝕃 → 𝕃 → 𝕃 → 𝕃 → 𝕃 → 𝕃 → Prop} (r : Σ' (L5 L6 L7 L8 LS0 LS1 LS2 : 𝕃), { LS3 : 𝕃 // P L5 L6 L7 L8 LS0 LS1 LS2 LS3 }) : C4 F × C4 F :=
  ((VO0_5.read (Elt F) (VO0_5.writes (Elt F) VO0_5.junk r.1), VO0_6.read (Elt F) (VO0_6.writes (Elt F) VO0_6.junk r.2.1), VO0_7.read (Elt F) (VO0_7.writes (Elt F) VO0_7.junk r.2.2.1), VO0_8.read (Elt F) (VO0_8.writes (Elt F) VO0_8.junk r.2.2.2.1)),
   (VS0_0.read (Elt F) (VS0_0.writes (Elt F) VS0_0.junk r.2.2.2.2.1), VS0_1.read (Elt F) (VS0_1.writes (Elt F) VS0_1.junk r.2.2.2.2.2.1), VS0_2.read (Elt F) (VS0_2.writes (Elt F) VS0_2.junk r.2.2.2.2.2.2.1), VS0_3.read (Elt F) (VS0_3.writes (Elt F) VS0_3.junk r.2.2.2.2.2.2.2.1)))

variable (m : (ℓ : Loc nD τ sig) → Buf (Elt F) ℓ)

section AtPoint

variable (c : Dev nD) (t : Fin cfg0.N)

def runA (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)

def runB (h0 : ¬t.val % 8 = 0) (h1 : ¬t.val % 8 = 7) (p : C4 F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) p.1 p.2.1 p.2.2.1 p.2.2.2

def runC (h0 : ¬t.val % 8 = 0) (h1 : t.val % 8 = 7) (p : C4 F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) p.1 p.2.1 p.2.2.1 p.2.2.2

end AtPoint

-- The contents after the n-th point of the walk: the inner coordinate n % 8 selects the case, a column entering at what point n - 1 left in it.
def outsAt0 (c : Dev nD) : (n : ℕ) → n < cfg0.N → C4 F × C4 F
  | 0, hn => outs (runA m c ⟨0, hn⟩ (Nat.zero_mod _) (by show ¬(0 % 8 = 7); decide))
  | n + 1, hn =>
    if h0 : (n + 1) % 8 = 0 then
      if h1 : (n + 1) % 8 = 7 then False.elim (by omega)
      else outs (runA m c ⟨n + 1, hn⟩ h0 h1)
    else
      if h1 : (n + 1) % 8 = 7 then outs (runC m c ⟨n + 1, hn⟩ h0 h1 (outsAt0 c n (Nat.lt_of_succ_lt hn)).2)
      else outs (runB m c ⟨n + 1, hn⟩ h0 h1 (outsAt0 c n (Nat.lt_of_succ_lt hn)).2)

abbrev prevS (c : Dev nD) (t : Fin cfg0.N) : C4 F := (outsAt0 m c (t.val - 1) (Nat.lt_of_le_of_lt (Nat.sub_le _ _) t.isLt)).2

theorem outsAt0_A (c : Dev nD) (t : Fin cfg0.N) (h0 : t.val % 8 = 0) (h1 : ¬t.val % 8 = 7) :
    outsAt0 m c t.val t.isLt = outs (runA m c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = outs (runB m c t h0 h1 (prevS m c t)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outs (runC m c t h0 h1 (prevS m c t)) := by
  obtain ⟨n, hn⟩ := t
  cases n with
  | zero => exact absurd (Nat.zero_mod _) h0
  | succ n => exact (dif_neg h0).trans ((dif_pos h1).trans rfl)

-- After a point the four carried columns hold the given contents.
def Inv (c : Dev nD) (p : C4 F) : sProp 𝕄 :=
  iprop(iprop(owns (c : Thread nD τ) scM0_0 fullShare p.1 ∗ owns (c : Thread nD τ) scM0_1 fullShare p.2.1 ∗ owns (c : Thread nD τ) scM0_2 fullShare p.2.2.1 ∗ owns (c : Thread nD τ) scM0_3 fullShare p.2.2.2) ∗ (∃ r, prngReg c r))

def PhiS (c : Dev nD) : (n : ℕ) → n ≤ cfg0.N → sProp 𝕄
  | 0, _ => Pipeline.ΦA spec0 c
  | n + 1, hn => Inv c (outsAt0 m c n hn).2

theorem PhiS_pos (c : Dev nD) (n : ℕ) (h : n ≤ cfg0.N) (hz : n ≠ 0) : PhiS m c n h = Inv c (outsAt0 m c (n - 1) (by omega)).2 := by
  cases n with
  | zero => exact absurd rfl hz
  | succ n => rfl

-- Forgetting what the columns hold leaves each at some contents.
theorem PhiS_weak (c : Dev nD) (n : ℕ) (h : n ≤ cfg0.N) :
    PhiS m c n h ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact Entails.of_eq (PhiA0_eq c)
  | succ n =>
    show Inv c _ ⊢ _
    unfold Inv
    iintro ⟨⟨HS0, HS1, HS2, HS3⟩, Hg⟩
    isplitl [HS0 HS1 HS2 HS3]
    · isplitl [HS0]; · iexists _; iexact HS0
      isplitl [HS1]; · iexists _; iexact HS1
      isplitl [HS2]; · iexists _; iexact HS2
      iexists _; iexact HS3
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1.1
    | ⟨6, _⟩ => (outsAt0 m c t.val t.isLt).1.2.1
    | ⟨7, _⟩ => (outsAt0 m c t.val t.isLt).1.2.2.1
    | ⟨8, _⟩ => (outsAt0 m c t.val t.isLt).1.2.2.2
  Φ t := PhiS m c t.val (Nat.le_of_lt_succ t.isLt)
  q w := if w.val = 0 then fullShare.left else if w.val = 1 then fullShare.right else fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1.1 := by dsimp only [dats]
theorem after0_6 (c : Dev nD) (t : Fin cfg0.N) : (dats m 0 c).after 6 t = (outsAt0 m c t.val t.isLt).1.2.1 := by dsimp only [dats]
theorem after0_7 (c : Dev nD) (t : Fin cfg0.N) : (dats m 0 c).after 7 t = (outsAt0 m c t.val t.isLt).1.2.2.1 := by dsimp only [dats]
theorem after0_8 (c : Dev nD) (t : Fin cfg0.N) : (dats m 0 c).after 8 t = (outsAt0 m c t.val t.isLt).1.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem leavesIn0_0 (c : Dev nD) (t : Fin cfg0.N) :
    (dats m 0 c).leavesExact 0 t = owns (c : Thread nD τ) (ms0_0 t) fullShare (iblk m c 0 t) := by
  unfold Dat.leavesExact; rw [live0 t 0 (Or.inl (by decide)), after0_0]
theorem leavesIn0_1 (c : Dev nD) (t : Fin cfg0.N) :
    (dats m 0 c).leavesExact 1 t = owns (c : Thread nD τ) (ms0_1 t) fullShare (iblk m c 1 t) := by
  unfold Dat.leavesExact; rw [live0 t 1 (Or.inl (by decide)), after0_1]
theorem leavesIn0_2 (c : Dev nD) (t : Fin cfg0.N) :
    (dats m 0 c).leavesExact 2 t = owns (c : Thread nD τ) (ms0_2 t) fullShare (iblk m c 2 t) := by
  unfold Dat.leavesExact; rw [live0 t 2 (Or.inl (by decide)), after0_2]
theorem leavesIn0_3 (c : Dev nD) (t : Fin cfg0.N) :
    (dats m 0 c).leavesExact 3 t = owns (c : Thread nD τ) (ms0_3 t) fullShare (iblk m c 3 t) := by
  unfold Dat.leavesExact; rw [live0 t 3 (Or.inl (by decide)), after0_3]
theorem leavesIn0_4 (c : Dev nD) (t : Fin cfg0.N) :
    (dats m 0 c).leavesExact 4 t = owns (c : Thread nD τ) (ms0_4 t) fullShare (iblk m c 4 t) := by
  unfold Dat.leavesExact; rw [live0 t 4 (Or.inl (by decide)), after0_4]

end Cert.Kernel.Hand

end
-- ==== Proof.KBFrame.lean ====
import proofs.«429954_j35948876268191_2_alg».proof.Proof.KBFrameDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 4800000 in
-- Inner coordinate 0: the columns are reset before they are read, so what they held does not matter; no result block is written.
theorem sound_A (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  have hc1 : ¬cond0_1 (grid0.coords t) := fun h => h1 ((hcond0_1 t).mp h)
  unfold bodyPre bodyPost bodyAt0
  simp only [before0_0, before0_1, before0_2, before0_3, before0_4]
  rw [show (dats m 0 c).owesAt () t.succ = (dats m 0 c).owesAt () t.castSucc from rfl,
    show (dats m 0 c).Φ t.succ = Inv c (outsAt0 m c t.val t.isLt).2 from rfl,
    leavesIn0_0 m c t, leavesIn0_1 m c t, leavesIn0_2 m c t, leavesIn0_3 m c t, leavesIn0_4 m c t]
  rw [Dat.leavesExact_idle (dats m 0 c) 5 t (idle0 t 5 (by decide) hc1).1 (idle0 t 5 (by decide) hc1).2,
    Dat.leavesExact_idle (dats m 0 c) 6 t (idle0 t 6 (by decide) hc1).1 (idle0 t 6 (by decide) hc1).2,
    Dat.leavesExact_idle (dats m 0 c) 7 t (idle0 t 7 (by decide) hc1).1 (idle0 t 7 (by decide) hc1).2,
    Dat.leavesExact_idle (dats m 0 c) 8 t (idle0 t 8 (by decide) hc1).1 (idle0 t 8 (by decide) hc1).2]
  rw [outsAt0_A m c t h0 h1, PhiS_castSucc m c t]
  unfold Inv outs; dsimp only
  iintro ⟨Hi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HA := (PhiS_weak m c t.val (Nat.le_of_lt t.isLt)) $$ Hi
  icases HA with ⟨⟨HS0, HS1, HS2, HS3⟩, Hg⟩
  iapply ((runA m c t h0 h1).2.2.2.2.2.2.2.2 ((dats m 0 c).before 5 t d5) ((dats m 0 c).before 6 t d6) ((dats m 0 c).before 7 t d7) ((dats m 0 c).before 8 t d8) Set.univ _)
  iframe H0 H1 H2 H3 H4 H5 H6 H7 H8 HS0 HS1 HS2 HS3
  iintro ⟨H0, H1, H2, H3, H4, H5, H6, H7, H8, ⟨%es0, HS0⟩, ⟨%es1, HS1⟩, ⟨%es2, HS2⟩, ⟨%es3, HS3⟩⟩
  iframe Hg Ho H0 H1 H2 H3 H4
  isplitl [HS0 HS1 HS2 HS3]
  · isplitl [HS0]; · ihave H' := (Ring.owns_of_writes_tiledL VS0_0 S1024x1.size) $$ HS0; iapply H'; ipureintro; sl_kernel_rfl
    isplitl [HS1]; · ihave H' := (Ring.owns_of_writes_tiledL VS0_1 S1024x1.size) $$ HS1; iapply H'; ipureintro; sl_kernel_rfl
    isplitl [HS2]; · ihave H' := (Ring.owns_of_writes_tiledL VS0_2 S1024x1.size) $$ HS2; iapply H'; ipureintro; sl_kernel_rfl
    ihave H' := (Ring.owns_of_writes_tiledL VS0_3 S1024x1.size) $$ HS3; iapply H'; ipureintro; sl_kernel_rfl
  isplitl [H5]; · iexists _; iexact H5
  isplitl [H6]; · iexists _; iexact H6
  isplitl [H7]; · iexists _; iexact H7
  iexists _; iexact H8

set_option maxHeartbeats 4800000 in
-- Inner coordinate 1 … 6: the columns enter at what the point before left and are folded with this point's blocks.
theorem sound_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hc1 : ¬cond0_1 (grid0.coords t) := fun h => h1 ((hcond0_1 t).mp h)
  have hz : t.val ≠ 0 := fun h => h0 (by rw [h])
  unfold bodyPre bodyPost bodyAt0
  simp only [before0_0, before0_1, before0_2, before0_3, before0_4]
  rw [show (dats m 0 c).owesAt () t.succ = (dats m 0 c).owesAt () t.castSucc from rfl,
    show (dats m 0 c).Φ t.succ = Inv c (outsAt0 m c t.val t.isLt).2 from rfl,
    leavesIn0_0 m c t, leavesIn0_1 m c t, leavesIn0_2 m c t, leavesIn0_3 m c t, leavesIn0_4 m c t]
  rw [Dat.leavesExact_idle (dats m 0 c) 5 t (idle0 t 5 (by decide) hc1).1 (idle0 t 5 (by decide) hc1).2,
    Dat.leavesExact_idle (dats m 0 c) 6 t (idle0 t 6 (by decide) hc1).1 (idle0 t 6 (by decide) hc1).2,
    Dat.leavesExact_idle (dats m 0 c) 7 t (idle0 t 7 (by decide) hc1).1 (idle0 t 7 (by decide) hc1).2,
    Dat.leavesExact_idle (dats m 0 c) 8 t (idle0 t 8 (by decide) hc1).1 (idle0 t 8 (by decide) hc1).2]
  rw [outsAt0_B m c t h0 h1, PhiS_castSucc m c t, PhiS_pos m c _ _ hz]
  unfold Inv outs; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB m c t h0 h1 (prevS m c t)).2.2.2.2.2.2.2.2 ((dats m 0 c).before 5 t d5) ((dats m 0 c).before 6 t d6) ((dats m 0 c).before 7 t d7) ((dats m 0 c).before 8 t d8) Set.univ _)
  iframe H0 H1 H2 H3 H4 H5 H6 H7 H8 HS0 HS1 HS2 HS3
  iintro ⟨H0, H1, H2, H3, H4, H5, H6, H7, H8, ⟨%es0, HS0⟩, ⟨%es1, HS1⟩, ⟨%es2, HS2⟩, ⟨%es3, HS3⟩⟩
  iframe Hg Ho H0 H1 H2 H3 H4
  isplitl [HS0 HS1 HS2 HS3]
  · isplitl [HS0]; · ihave H' := (Ring.owns_of_writes_tiledL VS0_0 S1024x1.size) $$ HS0; iapply H'; ipureintro; sl_kernel_rfl
    isplitl [HS1]; · ihave H' := (Ring.owns_of_writes_tiledL VS0_1 S1024x1.size) $$ HS1; iapply H'; ipureintro; sl_kernel_rfl
    isplitl [HS2]; · ihave H' := (Ring.owns_of_writes_tiledL VS0_2 S1024x1.size) $$ HS2; iapply H'; ipureintro; sl_kernel_rfl
    ihave H' := (Ring.owns_of_writes_tiledL VS0_3 S1024x1.size) $$ HS3; iapply H'; ipureintro; sl_kernel_rfl
  isplitl [H5]; · iexists _; iexact H5
  isplitl [H6]; · iexists _; iexact H6
  isplitl [H7]; · iexists _; iexact H7
  iexists _; iexact H8

set_option maxHeartbeats 4800000 in
-- Inner coordinate 7: as before, and the columns are copied into the four result blocks.
theorem sound_C (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hc1 : cond0_1 (grid0.coords t) := (hcond0_1 t).mpr h1
  have hz : t.val ≠ 0 := fun h => h0 (by rw [h])
  unfold bodyPre bodyPost bodyAt0
  simp only [before0_0, before0_1, before0_2, before0_3, before0_4]
  rw [show (dats m 0 c).owesAt () t.succ = (dats m 0 c).owesAt () t.castSucc from rfl,
    show (dats m 0 c).Φ t.succ = Inv c (outsAt0 m c t.val t.isLt).2 from rfl,
    leavesIn0_0 m c t, leavesIn0_1 m c t, leavesIn0_2 m c t, leavesIn0_3 m c t, leavesIn0_4 m c t]
  rw [show (dats m 0 c).leavesExact 5 t = owns (c : Thread nD τ) (ms0_5 t) fullShare ((dats m 0 c).after 5 t) from by
      unfold Dat.leavesExact; rw [live0 t 5 (Or.inr hc1)],
    show (dats m 0 c).leavesExact 6 t = owns (c : Thread nD τ) (ms0_6 t) fullShare ((dats m 0 c).after 6 t) from by
      unfold Dat.leavesExact; rw [live0 t 6 (Or.inr hc1)],
    show (dats m 0 c).leavesExact 7 t = owns (c : Thread nD τ) (ms0_7 t) fullShare ((dats m 0 c).after 7 t) from by
      unfold Dat.leavesExact; rw [live0 t 7 (Or.inr hc1)],
    show (dats m 0 c).leavesExact 8 t = owns (c : Thread nD τ) (ms0_8 t) fullShare ((dats m 0 c).after 8 t) from by
      unfold Dat.leavesExact; rw [live0 t 8 (Or.inr hc1)],
    after0_5, after0_6, after0_7, after0_8, outsAt0_C m c t h0 h1, PhiS_castSucc m c t, PhiS_pos m c _ _ hz]
  unfold Inv outs; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC m c t h0 h1 (prevS m c t)).2.2.2.2.2.2.2.2 Set.univ _)
  iframe H0 H1 H2 H3 H4 HS0 HS1 HS2 HS3
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩, ⟨%es0, HS0⟩, ⟨%es1, HS1⟩, ⟨%es2, HS2⟩, ⟨%es3, HS3⟩⟩
  iframe Hg Ho H0 H1 H2 H3 H4
  isplitl [HS0 HS1 HS2 HS3]
  · isplitl [HS0]; · ihave H' := (Ring.owns_of_writes_tiledL VS0_0 S1024x1.size) $$ HS0; iapply H'; ipureintro; sl_kernel_rfl
    isplitl [HS1]; · ihave H' := (Ring.owns_of_writes_tiledL VS0_1 S1024x1.size) $$ HS1; iapply H'; ipureintro; sl_kernel_rfl
    isplitl [HS2]; · ihave H' := (Ring.owns_of_writes_tiledL VS0_2 S1024x1.size) $$ HS2; iapply H'; ipureintro; sl_kernel_rfl
    ihave H' := (Ring.owns_of_writes_tiledL VS0_3 S1024x1.size) $$ HS3; iapply H'; ipureintro; sl_kernel_rfl
  isplitl [H5]; · ihave H' := (Ring.owns_of_writes_tiledL VO0_5 S1024x1.size) $$ H5; iapply H'; ipureintro; sl_kernel_rfl
  isplitl [H6]; · ihave H' := (Ring.owns_of_writes_tiledL VO0_6 S1024x1.size) $$ H6; iapply H'; ipureintro; sl_kernel_rfl
  isplitl [H7]; · ihave H' := (Ring.owns_of_writes_tiledL VO0_7 S1024x1.size) $$ H7; iapply H'; ipureintro; sl_kernel_rfl
  ihave H' := (Ring.owns_of_writes_tiledL VO0_8 S1024x1.size) $$ H8; iapply H'; ipureintro; sl_kernel_rfl

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0 (by omega)
  · by_cases h1 : t.val % 8 = 7
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := .rfl

theorem hout (c : Dev nD) : (dats m 0 c).Φ (Fin.last cfg0.N) ⊢ Pipeline.ΦA spec0 c := by
  rw [PhiA0_eq]; exact PhiS_weak m c _ (Nat.le_of_lt_succ (Fin.last cfg0.N).isLt)

end Cert.Kernel.Hand

end
-- ==== Proof.KBSplit.lean ====
import proofs.«429954_j35948876268191_2_alg».proof.Proof.Gen.Kernel.Launch
import Idealize.ShloMosaic.Lib.Pipeline.FrameSuffix
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

theorem arrRefs_eq : (Finset.univ.image (Pipeline.arrRef spec0) : Finset (Ref sig .tc))
    = [main_v9, main_v20, main_v21, main_v23, main_v24_0, main_v24_1, main_v24_2, main_v24_3].toFinset := by decide

theorem arrBufs_eq (c : Dev nD) (W : (b : Ref sig .tc) → Buf (Elt F) ((c : Thread nD τ).loc b)) :
    (Pipeline.arrBufs spec0 c W : sProp 𝕄)
      = iprop((((c : Thread nD τ).loc main_v9) ↦{fullShare} W main_v9) ∗ (((c : Thread nD τ).loc main_v20) ↦{fullShare} W main_v20)
        ∗ (((c : Thread nD τ).loc main_v21) ↦{fullShare} W main_v21) ∗ (((c : Thread nD τ).loc main_v23) ↦{fullShare} W main_v23)
        ∗ (((c : Thread nD τ).loc main_v24_0) ↦{fullShare} W main_v24_0) ∗ (((c : Thread nD τ).loc main_v24_1) ↦{fullShare} W main_v24_1)
        ∗ (((c : Thread nD τ).loc main_v24_2) ↦{fullShare} W main_v24_2) ∗ (((c : Thread nD τ).loc main_v24_3) ↦{fullShare} W main_v24_3)) := by
  unfold Pipeline.arrBufs
  rw [bigSep_eq_bigSepL_of_eq _ arrRefs_eq (by decide)]
  rfl

def qsh (w : Fin cfg0.W) : PosShare TreeShare :=
  if w.val = 0 then fullShare.left else if w.val = 1 then fullShare.right else fullShare

theorem isOut_eq : ∀ w : Fin cfg0.W, (cfg0.win w).isOut = decide (5 ≤ w.val) := by decide

variable {c : Dev nD} (dat : Dat τ (Elt F) Unit ℕ (UR sig nD τ) ℕ cfg0 c)

theorem share_eq (hq : ∀ w, dat.q w = qsh w) (w : Fin cfg0.W) : dat.share w = qsh w := by
  unfold Dat.share
  rw [isOut_eq w, hq w]
  by_cases h : 5 ≤ w.val
  · rw [if_pos (by simpa using h)]
    unfold qsh
    rw [if_neg (by omega), if_neg (by omega)]
  · rw [if_neg (by simpa using h)]

theorem arrays_eq_sep (hq : ∀ w, dat.q w = qsh w)
    (A : (w : Fin cfg0.W) → Buf (Elt F) ((cfg0.win w).arr.view.loc (c : Thread nD τ))) :
    (dat.arrays A : sProp 𝕄)
      = bigSep Finset.univ fun w : Fin cfg0.W => ((((c : Thread nD τ).loc (Pipeline.arrRef spec0 w)) ↦{qsh w} A w : sProp 𝕄)) := by
  unfold Dat.arrays
  exact bigSep_congr fun w _ => by rw [(arr_whole0 w).set_eq_univ, share_eq dat hq w]

theorem arrays_eq (hq : ∀ w, dat.q w = qsh w)
    (A : (w : Fin cfg0.W) → Buf (Elt F) ((cfg0.win w).arr.view.loc (c : Thread nD τ))) :
    (dat.arrays A : sProp 𝕄)
      = iprop((((c : Thread nD τ).loc main_v9) ↦{fullShare.left} A 0) ∗ (((c : Thread nD τ).loc main_v9) ↦{fullShare.right} A 1)
        ∗ (((c : Thread nD τ).loc main_v20) ↦{fullShare} A 2) ∗ (((c : Thread nD τ).loc main_v21) ↦{fullShare} A 3)
        ∗ (((c : Thread nD τ).loc main_v23) ↦{fullShare} A 4)
        ∗ (((c : Thread nD τ).loc main_v24_0) ↦{fullShare} A 5) ∗ (((c : Thread nD τ).loc main_v24_1) ↦{fullShare} A 6)
        ∗ (((c : Thread nD τ).loc main_v24_2) ↦{fullShare} A 7) ∗ (((c : Thread nD τ).loc main_v24_3) ↦{fullShare} A 8)) := by
  rw [arrays_eq_sep dat hq A, bigSep_W0]
  rfl

theorem bufs_to_arrays' (hq : ∀ w, dat.q w = qsh w) (W : (b : Ref sig .tc) → Buf (Elt F) ((c : Thread nD τ).loc b)) :
    (Pipeline.arrBufs spec0 c W : sProp 𝕄) ⊢ dat.arrays (fun w => W (Pipeline.arrRef spec0 w)) := by
  rw [arrBufs_eq, arrays_eq dat hq _]
  iintro ⟨H9, H20, H21, H23, H0, H1, H2, H3⟩
  ihave H := (pointsTo_share (PosShare.mem_left_op_right fullShare)).1 $$ H9
  icases H with ⟨Hl, Hr⟩
  iframe Hl Hr H20 H21 H23 H0 H1 H2 H3

theorem arrays_to_bufs' (hq : ∀ w, dat.q w = qsh w) (W : (b : Ref sig .tc) → Buf (Elt F) ((c : Thread nD τ).loc b)) :
    (dat.arrays (fun w => W (Pipeline.arrRef spec0 w)) : sProp 𝕄) ⊢ Pipeline.arrBufs spec0 c W := by
  rw [arrBufs_eq, arrays_eq dat hq _]
  iintro ⟨Hl, Hr, H20, H21, H23, H0, H1, H2, H3⟩
  isplitl [Hl Hr]
  · iapply (pointsTo_share (PosShare.mem_left_op_right fullShare)).2
    isplitl [Hl]; · iexact Hl
    iexact Hr
  iframe H20 H21 H23 H0 H1 H2 H3

theorem bufs_to_arrays (hq : ∀ w, dat.q w = qsh w)
    (A : (w : Fin cfg0.W) → Buf (Elt F) ((cfg0.win w).arr.view.loc (c : Thread nD τ)))
    (W : (b : Ref sig .tc) → Buf (Elt F) ((c : Thread nD τ).loc b)) (hA : ∀ w, A w = W (Pipeline.arrRef spec0 w)) :
    (Pipeline.arrBufs spec0 c W : sProp 𝕄) ⊢ dat.arrays A :=
  (bufs_to_arrays' dat hq W).trans (Entails.of_eq (congrArg dat.arrays (funext hA).symm))

theorem arrays_to_bufs (hq : ∀ w, dat.q w = qsh w)
    (A : (w : Fin cfg0.W) → Buf (Elt F) ((cfg0.win w).arr.view.loc (c : Thread nD τ)))
    (W : (b : Ref sig .tc) → Buf (Elt F) ((c : Thread nD τ).loc b)) (hA : ∀ w, A w = W (Pipeline.arrRef spec0 w)) :
    (dat.arrays A : sProp 𝕄) ⊢ Pipeline.arrBufs spec0 c W :=
  (Entails.of_eq (congrArg dat.arrays (funext hA))).trans (arrays_to_bufs' dat hq W)

end Cert.Kernel.Hand

end
-- ==== Proof.KBLaunch.lean ====
import proofs.«429954_j35948876268191_2_alg».proof.Proof.KBRuns
import proofs.«429954_j35948876268191_2_alg».proof.Proof.KBSplit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev sfx : List (List (HloOp τ sig (Elt F))) := [hostOps1, hostOps1_1, hostOps1_2, hostOps1_3, hostOps1_4, hostOps1_5]

variable (V0' : Dev nD → Valuation τ sig (Elt F))
variable (dats : (p : Fin 1) → (c : Dev nD) → Dat τ (Elt F) Unit ℕ (UR sig nD τ) ℕ (cfgs p) c)

def Wx (c : Dev nD) : Valuation τ sig (Elt F) :=
  Pipeline.withArrays spec0 c (V0' c) fun w => (dats 0 c).arrAt w cfg0.N

def Wend (c : Dev nD) : Valuation τ sig (Elt F) := StableHlo.after (sfx (F := F)).flatten (Wx V0' dats c)

theorem isOut_in : ∀ w : Fin cfg0.W, w.val < 5 → (cfg0.win w).isOut = false := by decide

theorem arrRef_eq_cases : ∀ w w' : Fin cfg0.W, Pipeline.arrRef spec0 w' = Pipeline.arrRef spec0 w → w' = w ∨ (w'.val < 2 ∧ w.val < 2) := by decide

theorem Wx_of_ne (c : Dev nD) (b : Ref sig .tc) (hb : ∀ w, Pipeline.arrRef spec0 w ≠ b) :
    Wx V0' dats c (Proc.devRef .tc b) = V0' c (Proc.devRef .tc b) := by
  unfold Wx; exact Pipeline.withArrays_of_ne spec0 c _ _ b hb

theorem held_split (c : Dev nD) (W : Valuation τ sig (Elt F)) :
    (StableHlo.held (c : Thread nD τ) (Pipeline.ucRefs τ sig) W : sProp 𝕄)
      = iprop(Pipeline.arrBufs spec0 c (fun b => W (Proc.devRef .tc b)) ∗ Pipeline.unscopedRest spec0 c (fun b => W (Proc.devRef .tc b))) :=
  (Pipeline.unscopedBufs_held (Ix := Unit) (Name := ℕ) (U := UR sig nD τ) (Lvl := ℕ) c W).symm.trans
    (Pipeline.unscopedBufs_split₀ cfgs 0 winFacts₀0.arr_unscoped c _)

variable (hA : ∀ c w, (dats 0 c).A w = V0' c (Proc.devRef .tc (Pipeline.arrRef spec0 w)))
include hA

theorem Wx_arr (c : Dev nD) (w : Fin cfg0.W) :
    Wx V0' dats c (Proc.devRef .tc (Pipeline.arrRef spec0 w)) = (dats 0 c).arrAt w cfg0.N := by
  unfold Wx Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats 0 c).arrAt w' cfg0.N) = (dats 0 c).arrAt w cfg0.N from this _ h.choose_spec
  intro w' e
  rcases arrRef_eq_cases w w' (Proc.devRef_injective _ e) with rfl | ⟨h', hw⟩
  · rfl
  · have e1 : (dats 0 c).arrAt w' cfg0.N = V0' c (Proc.devRef .tc (Pipeline.arrRef spec0 w')) :=
      ((dats 0 c).arrAt_in w' (isOut_in w' (by omega)) _).trans (hA c w')
    have e2 : (dats 0 c).arrAt w cfg0.N = V0' c (Proc.devRef .tc (Pipeline.arrRef spec0 w)) :=
      ((dats 0 c).arrAt_in w (isOut_in w (by omega)) _).trans (hA c w)
    rw [e1, e2]
    have er : Pipeline.arrRef spec0 w' = Pipeline.arrRef spec0 w := Proc.devRef_injective _ e
    clear e1 e2
    revert e
    rw [er]
    intro e
    rfl

theorem Wend_arr (c : Dev nD) (w : Fin cfg0.W) :
    Wend V0' dats c (Proc.devRef .tc (Pipeline.arrRef spec0 w)) = (dats 0 c).arrAt w cfg0.N := by
  unfold Wend
  rw [StableHlo.after_of_forall_not_mem _ _ fun op hop => ?_, Wx_arr V0' dats hA c w]
  obtain ⟨ops, hops, hop⟩ := List.mem_flatten.mp hop
  exact sfx_keeps ops hops op hop w

variable (hq : ∀ c w, (dats 0 c).q w = qsh w)
include hq

theorem arrays_exit (c : Dev nD) :
    ((dats 0 c).arrays ((dats 0 c).arrAt · cfg0.N) : sProp 𝕄) = Pipeline.arrBufs spec0 c (fun b => Wx V0' dats c (Proc.devRef .tc b)) :=
  BI.equiv_iff.mp
    ⟨arrays_to_bufs (dats 0 c) (hq c) _ (fun b => Wx V0' dats c (Proc.devRef .tc b)) fun w => (Wx_arr V0' dats hA c w).symm,
     bufs_to_arrays (dats 0 c) (hq c) _ (fun b => Wx V0' dats c (Proc.devRef .tc b)) fun w => (Wx_arr V0' dats hA c w).symm⟩

theorem arrays_end (c : Dev nD) :
    ((dats 0 c).arrays ((dats 0 c).arrAt · cfg0.N) : sProp 𝕄) = Pipeline.arrBufs spec0 c (fun b => Wend V0' dats c (Proc.devRef .tc b)) :=
  BI.equiv_iff.mp
    ⟨arrays_to_bufs (dats 0 c) (hq c) _ (fun b => Wend V0' dats c (Proc.devRef .tc b)) fun w => (Wend_arr V0' dats hA c w).symm,
     bufs_to_arrays (dats 0 c) (hq c) _ (fun b => Wend V0' dats c (Proc.devRef .tc b)) fun w => (Wend_arr V0' dats hA c w).symm⟩

omit hA hq in

theorem rest_exit (c : Dev nD) :
    (Pipeline.unscopedRest spec0 c (fun b => Wx V0' dats c (Proc.devRef .tc b)) : sProp 𝕄)
      = Pipeline.unscopedRest spec0 c (fun b => V0' c (Proc.devRef .tc b)) := by
  unfold Pipeline.unscopedRest
  exact bigSep_congr fun b hb =>
    congrArg (fun f => ((((c : Thread nD τ).loc b) ↦{fullShare} f) : sProp 𝕄))
      (Wx_of_ne V0' dats c b fun w e => (Finset.mem_sdiff.mp hb).2 (Finset.mem_image.mpr ⟨w, Finset.mem_univ _, e⟩))

theorem exit_eq (c : Dev nD) :
    (iprop((dats 0 c).arrays ((dats 0 c).arrAt · cfg0.N) ∗ Pipeline.unscopedRest spec0 c (fun b => V0' c (Proc.devRef .tc b))) : sProp 𝕄)
      = StableHlo.held (c : Thread nD τ) (Pipeline.ucRefs τ sig) (Wx V0' dats c) :=
  (congrArg₂ (fun X Y : sProp 𝕄 => iprop(X ∗ Y)) (arrays_exit V0' dats hA hq c) (rest_exit V0' dats c).symm).trans
    (held_split c (Wx V0' dats c)).symm

theorem end_eq (c : Dev nD) :
    (StableHlo.held (c : Thread nD τ) (Pipeline.ucRefs τ sig) (Wend V0' dats c) : sProp 𝕄)
      = iprop((dats 0 c).arrays ((dats 0 c).arrAt · cfg0.N) ∗ Pipeline.unscopedRest spec0 c (fun b => Wend V0' dats c (Proc.devRef .tc b))) :=
  (held_split c (Wend V0' dats c)).trans
    (congrArg (fun X : sProp 𝕄 => iprop(X ∗ Pipeline.unscopedRest spec0 c (fun b => Wend V0' dats c (Proc.devRef .tc b))))
      (arrays_end V0' dats hA hq c).symm)

theorem htail (c : Dev nD) (Q' : PUnit → sProp 𝕄) :
    iprop((iprop((dats 0 c).arrays ((dats 0 c).arrAt · cfg0.N) ∗ Pipeline.unscopedRest spec0 c (fun b => Wend V0' dats c (Proc.devRef .tc b))) -∗ Q' ⟨⟩)
        ∗ boundary (c : Thread nD τ) ∗ (dats 0 c).arrays ((dats 0 c).arrAt · cfg0.N) ∗ Pipeline.unscopedRest spec0 c (fun b => V0' c (Proc.devRef .tc b)))
      ⊢ wp frame (wpE (defs (F := F)) (Variants.lift Variants.none) (c : Thread nD τ) none) Set.univ (Pipeline.chain ((sfx (F := F)).map StableHlo.seq)) Q' := by
  rw [← List.append_nil ((sfx (F := F)).map StableHlo.seq), exit_eq V0' dats hA hq c]
  iintro ⟨Hk, Hb⟩
  iapply (Pipeline.wp_seqs_then (pcfgs (F := F)) defs₀ Variants.none c (Pipeline.ucRefs τ sig) [] (sfx (F := F))
    (fun ops hops op hop => by
      have := sfx_sub ops hops op hop
      rwa [Pipeline.tailRefs_none spec0 winFacts₀0.arr_unscoped] at this)
    sfx_fresh (Wx V0' dats c)) $$ Hb
  iintro Hb
  rw [Pipeline.chain_nil, wp_pure]
  imodintro
  iapply Hk
  icases Hb with ⟨-, H⟩
  rw [← end_eq V0' dats hA hq c]
  iexact H

end Cert.Kernel.Hand

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)
  (hA : ∀ c w, (dats 0 c).A w = V m c (Pipeline.arrRef spec0 w))
  (hq : ∀ c w, (dats 0 c).q w = qsh w)
  (howed : ∀ c t, (dats 0 c).owed t = 0)
  (hbody : ∀ c, Pipeline.BodyObligationLoose (dats 0 c) (defs₀ (F := F)) Variants.none () Set.univ)
  (hin : ∀ c, Pipeline.ΦA spec0 c ⊢ (dats 0 c).Φ 0)
  (hout : ∀ c, (dats 0 c).Φ (Fin.last cfg0.N) ⊢ Pipeline.ΦA spec0 c)
include hA hq howed hbody hin hout

set_option maxHeartbeats 4000000 in
set_option backward.isDefEq.respectTransparency.types false in

theorem run_of :
    θ_run (defs (F := F)) (onTc (τ := τ) (main (F := F))) (s₀ m ρ) (fun r => ∀ c : Dev nD,
      (∀ w, r.2.mem ((spec0 w).arr.view.loc (c : Thread nD τ)) = (dats 0 c).arrAt w cfg0.N)
      ∧ ∀ b ∈ ((Finset.univ.filter fun b : Ref sig .tc => ¬ b.isScoped) \ Finset.univ.image (Pipeline.arrRef spec0)),
          r.2.mem ((c : Thread nD τ).loc b) = Wend (V0 m) dats c (Proc.devRef .tc b)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain ((sfx (F := F)).map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => bufs_to_arrays (dats 0 c) (hq c) _ (V m c) fun w => hA c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => V0 m c (Proc.devRef .tc b)))
    (Z' := fun c => Pipeline.unscopedRest (Ix := Unit) (Name := ℕ) (U := UR sig nD τ) (Lvl := ℕ) spec0 c (fun b => Wend (V0 m) dats c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail (V0 m) dats hA hq c Q')
    (QY := fun c s => ∀ b ∈ ((Finset.univ.filter fun b : Ref sig .tc => ¬ b.isScoped) \ Finset.univ.image (Pipeline.arrRef spec0)),
      s.mem ((c : Thread nD τ).loc b) = Wend (V0 m) dats c (Proc.devRef .tc b))
    (hY := fun c s' => by
      iintro ⟨-, HU, HSI⟩
      unfold Pipeline.unscopedRest
      imodintro
      iapply (pointsTo_read_all ((Finset.univ.filter fun b : Ref sig .tc => ¬ b.isScoped) \ Finset.univ.image (Pipeline.arrRef spec0))
        (fun b => (c : Thread nD τ).loc b) (fun b => Wend (V0 m) dats c (Proc.devRef .tc b)) s')
      isplitl [HU] <;> iassumption)
    (hQ := fun s h c => ⟨(h c).1, (h c).2.2⟩)

end Cert.Kernel.Hand

end
-- ==== Proof.KBEndArgs.lean ====
import proofs.«429954_j35948876268191_2_alg».proof.Proof.KBLaunch

set_option maxRecDepth 16384

noncomputable section

namespace Cert.Kernel.Hand

open Cert.Kernel Cert.Kernel.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ)
variable (dats : (p : Fin 1) → (c : Dev nD) → Dat τ (Elt F) Unit ℕ (UR sig nD τ) ℕ (cfgs p) c)

set_option maxHeartbeats 1000000 in

theorem Wend_arg0 (c : Dev nD) : Wend (V0 m) dats c (Proc.devRef .tc main_arg0) = m ((c : Thread nD τ).loc main_arg0) :=
  calc Wend (V0 m) dats c (Proc.devRef .tc main_arg0)
    _ = Wx (V0 m) dats c (Proc.devRef .tc main_arg0) := StableHlo.after_of_forall_not_mem (b := Proc.devRef .tc main_arg0) _ _ (List.forall_iff_forall_mem.mp (by
          simp only [sfx, hostOps1, hostOps1_1, hostOps1_2, hostOps1_3, hostOps1_4, hostOps1_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg0) := Wx_of_ne (V0 m) dats c main_arg0 (by decide)
    _ = m ((c : Thread nD τ).loc main_arg0) := StableHlo.after_of_forall_not_mem (b := Proc.devRef .tc main_arg0) _ _ (List.forall_iff_forall_mem.mp (by
          simp only [hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in

theorem Wend_arg1 (c : Dev nD) : Wend (V0 m) dats c (Proc.devRef .tc main_arg1) = m ((c : Thread nD τ).loc main_arg1) :=
  calc Wend (V0 m) dats c (Proc.devRef .tc main_arg1)
    _ = Wx (V0 m) dats c (Proc.devRef .tc main_arg1) := StableHlo.after_of_forall_not_mem (b := Proc.devRef .tc main_arg1) _ _ (List.forall_iff_forall_mem.mp (by
          simp only [sfx, hostOps1, hostOps1_1, hostOps1_2, hostOps1_3, hostOps1_4, hostOps1_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg1) := Wx_of_ne (V0 m) dats c main_arg1 (by decide)
    _ = m ((c : Thread nD τ).loc main_arg1) := StableHlo.after_of_forall_not_mem (b := Proc.devRef .tc main_arg1) _ _ (List.forall_iff_forall_mem.mp (by
          simp only [hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.Kernel.Hand

end
-- ==== Proof.KBPost.lean ====
import proofs.«429954_j35948876268191_2_alg».proof.Proof.KBFrame
import proofs.«429954_j35948876268191_2_alg».proof.Proof.KBLaunch
import proofs.«429954_j35948876268191_2_alg».proof.Proof.KBEndArgs

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

theorem q_eq (c : Dev nD) (w : Fin cfg0.W) : (dats m 0 c).q w = qsh w := rfl

theorem mem_rest (b : Ref sig .tc) (h1 : b.isScoped = false) (h2 : ∀ w, Pipeline.arrRef spec0 w ≠ b) :
    b ∈ ((Finset.univ.filter fun b : Ref sig .tc => ¬ b.isScoped) \ Finset.univ.image (Pipeline.arrRef spec0)) :=
  Finset.mem_sdiff.mpr ⟨Finset.mem_filter.mpr ⟨Finset.mem_univ _, by simp [h1]⟩,
    fun h => by obtain ⟨w, -, hw⟩ := Finset.mem_image.mp h; exact h2 w hw⟩

theorem run : θ_run (defs (F := F)) (onTc (τ := τ) (main (F := F))) ⟨m, fun _ => 0, ρ⟩ (fun r => ∀ c : Dev nD,
      r.2.mem ((c.tc : Thread nD τ).loc main_v43) = Wend (V0 m) (dats m) c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c =>
    ⟨(h c).2 main_v43 (mem_rest main_v43 rfl (by decide)),
     ((h c).2 main_arg0 (mem_rest main_arg0 rfl (by decide))).trans (Wend_arg0 m (dats m) c),
     ((h c).2 main_arg1 (mem_rest main_arg1 rfl (by decide))).trans (Wend_arg1 m (dats m) c)⟩)
    (run_of m ρ (dats m) (A_eq m) (q_eq m) (fun _ _ => rfl) (fun c => (body_obligation m c).loose) (hin m) (hout m))

end Cert.Kernel.Hand

end
-- ==== Proof.KIRuns.lean ====
import proofs.«429954_j35948876268191_2_alg».proof.Proof.Gen.KernelIdeal.Launch
import proofs.«429954_j35948876268191_2_alg».proof.Proof.Gen.KernelIdeal.Skeleton
import proofs.«429954_j35948876268191_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4, hostOps0_5]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0, hostOps0_1, hostOps0_2, hostOps0_3, hostOps0_4, hostOps0_5] [hostOps1, hostOps1_1, hostOps1_2, hostOps1_3, hostOps1_4, hostOps1_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

theorem sfx_sub : ∀ ops ∈ ([hostOps1, hostOps1_1, hostOps1_2, hostOps1_3, hostOps1_4, hostOps1_5] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

theorem sfx_fresh : ∀ ops ∈ ([hostOps1, hostOps1_1, hostOps1_2, hostOps1_3, hostOps1_4, hostOps1_5] : List (List (HloOp τ sig (Elt F)))), ∀ op ∈ ops, op.fresh = ∅ := by
  intro ops hops
  simp only [List.mem_cons, List.mem_nil_iff, or_false] at hops
  rcases hops with rfl | rfl | rfl | rfl | rfl | rfl <;>
    exact List.forall_iff_forall_mem.mp (by simp only [List.Forall]; repeat' constructor)
set_option maxHeartbeats 800000 in

theorem sfx_keeps : ∀ ops ∈ ([hostOps1, hostOps1_1, hostOps1_2, hostOps1_3, hostOps1_4, hostOps1_5] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl <;>
    simp only [hostOps1, hostOps1_1, hostOps1_2, hostOps1_3, hostOps1_4, hostOps1_5, List.mem_cons, List.mem_nil_iff, or_false] at hop <;>
    (try casesm* _ ∨ _) <;> subst_vars <;> intro w <;> fin_cases w <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

-- The four result blocks are written exactly at the points whose inner coordinate is 7.
theorem live0 : ∀ (t : Fin cfg0.N) (w : Fin cfg0.W), (w.val < 5 ∨ cond0_1 (grid0.coords t)) → cfg0.idle w (grid0.coords t) = false := by decide +kernel
theorem idle0 : ∀ (t : Fin cfg0.N) (w : Fin cfg0.W), 5 ≤ w.val → ¬cond0_1 (grid0.coords t) → cfg0.idle w (grid0.coords t) = true ∧ (cfg0.win w).flush t = false := by decide +kernel

abbrev VO0_5 : View sig .tc .vmem S1024x1 .f32 := (Memref.whole cc0_stg5_0 : Memref sig .tc .vmem S1024x1 .f32).view

abbrev VO0_6 : View sig .tc .vmem S1024x1 .f32 := (Memref.whole cc0_stg6_0 : Memref sig .tc .vmem S1024x1 .f32).view

abbrev VO0_7 : View sig .tc .vmem S1024x1 .f32 := (Memref.whole cc0_stg7_0 : Memref sig .tc .vmem S1024x1 .f32).view

abbrev VO0_8 : View sig .tc .vmem S1024x1 .f32 := (Memref.whole cc0_stg8_0 : Memref sig .tc .vmem S1024x1 .f32).view

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x13 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x13 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3

abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KIRunA.lean ====
import proofs.«429954_j35948876268191_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x13 .bf16) (harg4 : arg4.IsWhole) (arg5 : Memref sig .tc .vmem S1024x13 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x256 .bf16) (x1 : Vec F S1024x256 .bf16) (x2 : Vec F S1024x13 .bf16) (x3 : Vec F S1024x13 .bf16) (x4 : Vec F S1x1024 .f32) :
    Σ' (L5 L6 L7 L8 LS0 LS1 LS2 : List (View.Piece (Elt F) S1024x1 .f32)), { LS3 : List (View.Piece (Elt F) S1024x1 .f32) //
      ∀ (xi5 xi6 xi7 xi8 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, ?_, ?_, fun xi5 xi6 xi7 xi8 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.KernelIdeal.Hand

end
-- ==== Proof.KIRunB.lean ====
import proofs.«429954_j35948876268191_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x13 .bf16) (harg4 : arg4.IsWhole) (arg5 : Memref sig .tc .vmem S1024x13 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x256 .bf16) (x1 : Vec F S1024x256 .bf16) (x2 : Vec F S1024x13 .bf16) (x3 : Vec F S1024x13 .bf16) (x4 : Vec F S1x1024 .f32) (xs0 xs1 xs2 xs3 : Vec F S1024x1 .f32) :
    Σ' (L5 L6 L7 L8 LS0 LS1 LS2 : List (View.Piece (Elt F) S1024x1 .f32)), { LS3 : List (View.Piece (Elt F) S1024x1 .f32) //
      ∀ (xi5 xi6 xi7 xi8 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], [], [], ?_, ?_, ?_, ?_, fun xi5 xi6 xi7 xi8 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    isplitl [HS2]; · iexists _; iexact HS2
    iexists _; iexact HS3

end Cert.KernelIdeal.Hand

end
-- ==== Proof.KIRunC.lean ====
import proofs.«429954_j35948876268191_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x13 .bf16) (harg4 : arg4.IsWhole) (arg5 : Memref sig .tc .vmem S1024x13 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x256 .bf16) (x1 : Vec F S1024x256 .bf16) (x2 : Vec F S1024x13 .bf16) (x3 : Vec F S1024x13 .bf16) (x4 : Vec F S1x1024 .f32) (xs0 xs1 xs2 xs3 : Vec F S1024x1 .f32) :
    Σ' (L5 L6 L7 L8 LS0 LS1 LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.KernelIdeal.Hand

end
-- ==== Proof.KIFrameDefs.lean ====
import proofs.«429954_j35948876268191_2_alg».proof.Proof.KIRunA
import proofs.«429954_j35948876268191_2_alg».proof.Proof.KIRunB
import proofs.«429954_j35948876268191_2_alg».proof.Proof.KIRunC
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "𝕃" => List (View.Piece (Elt F) S1024x1 EltTy.f32)

abbrev C4 (F : FTy → Type) := Vec F S1024x1 .f32 × Vec F S1024x1 .f32 × Vec F S1024x1 .f32 × Vec F S1024x1 .f32

-- The four result blocks and the four carried columns after a run: each of its eight piece lists read back over arbitrary contents.
def outs {P : 𝕃 → 𝕃 → 𝕃 → 𝕃 → 𝕃 → 𝕃 → 𝕃 → 𝕃 → Prop} (r : Σ' (L5 L6 L7 L8 LS0 LS1 LS2 : 𝕃), { LS3 : 𝕃 // P L5 L6 L7 L8 LS0 LS1 LS2 LS3 }) : C4 F × C4 F :=
  ((VO0_5.read (Elt F) (VO0_5.writes (Elt F) VO0_5.junk r.1), VO0_6.read (Elt F) (VO0_6.writes (Elt F) VO0_6.junk r.2.1), VO0_7.read (Elt F) (VO0_7.writes (Elt F) VO0_7.junk r.2.2.1), VO0_8.read (Elt F) (VO0_8.writes (Elt F) VO0_8.junk r.2.2.2.1)),
   (VS0_0.read (Elt F) (VS0_0.writes (Elt F) VS0_0.junk r.2.2.2.2.1), VS0_1.read (Elt F) (VS0_1.writes (Elt F) VS0_1.junk r.2.2.2.2.2.1), VS0_2.read (Elt F) (VS0_2.writes (Elt F) VS0_2.junk r.2.2.2.2.2.2.1), VS0_3.read (Elt F) (VS0_3.writes (Elt F) VS0_3.junk r.2.2.2.2.2.2.2.1)))

variable (m : (ℓ : Loc nD τ sig) → Buf (Elt F) ℓ)

section AtPoint

variable (c : Dev nD) (t : Fin cfg0.N)

def runA (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)

def runB (h0 : ¬t.val % 8 = 0) (h1 : ¬t.val % 8 = 7) (p : C4 F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) p.1 p.2.1 p.2.2.1 p.2.2.2

def runC (h0 : ¬t.val % 8 = 0) (h1 : t.val % 8 = 7) (p : C4 F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) p.1 p.2.1 p.2.2.1 p.2.2.2

end AtPoint

-- The contents after the n-th point of the walk: the inner coordinate n % 8 selects the case, a column entering at what point n - 1 left in it.
def outsAt0 (c : Dev nD) : (n : ℕ) → n < cfg0.N → C4 F × C4 F
  | 0, hn => outs (runA m c ⟨0, hn⟩ (Nat.zero_mod _) (by show ¬(0 % 8 = 7); decide))
  | n + 1, hn =>
    if h0 : (n + 1) % 8 = 0 then
      if h1 : (n + 1) % 8 = 7 then False.elim (by omega)
      else outs (runA m c ⟨n + 1, hn⟩ h0 h1)
    else
      if h1 : (n + 1) % 8 = 7 then outs (runC m c ⟨n + 1, hn⟩ h0 h1 (outsAt0 c n (Nat.lt_of_succ_lt hn)).2)
      else outs (runB m c ⟨n + 1, hn⟩ h0 h1 (outsAt0 c n (Nat.lt_of_succ_lt hn)).2)

abbrev prevS (c : Dev nD) (t : Fin cfg0.N) : C4 F := (outsAt0 m c (t.val - 1) (Nat.lt_of_le_of_lt (Nat.sub_le _ _) t.isLt)).2

theorem outsAt0_A (c : Dev nD) (t : Fin cfg0.N) (h0 : t.val % 8 = 0) (h1 : ¬t.val % 8 = 7) :
    outsAt0 m c t.val t.isLt = outs (runA m c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = outs (runB m c t h0 h1 (prevS m c t)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outs (runC m c t h0 h1 (prevS m c t)) := by
  obtain ⟨n, hn⟩ := t
  cases n with
  | zero => exact absurd (Nat.zero_mod _) h0
  | succ n => exact (dif_neg h0).trans ((dif_pos h1).trans rfl)

-- After a point the four carried columns hold the given contents.
def Inv (c : Dev nD) (p : C4 F) : sProp 𝕄 :=
  iprop(iprop(owns (c : Thread nD τ) scM0_0 fullShare p.1 ∗ owns (c : Thread nD τ) scM0_1 fullShare p.2.1 ∗ owns (c : Thread nD τ) scM0_2 fullShare p.2.2.1 ∗ owns (c : Thread nD τ) scM0_3 fullShare p.2.2.2) ∗ (∃ r, prngReg c r))

def PhiS (c : Dev nD) : (n : ℕ) → n ≤ cfg0.N → sProp 𝕄
  | 0, _ => Pipeline.ΦA spec0 c
  | n + 1, hn => Inv c (outsAt0 m c n hn).2

theorem PhiS_pos (c : Dev nD) (n : ℕ) (h : n ≤ cfg0.N) (hz : n ≠ 0) : PhiS m c n h = Inv c (outsAt0 m c (n - 1) (by omega)).2 := by
  cases n with
  | zero => exact absurd rfl hz
  | succ n => rfl

-- Forgetting what the columns hold leaves each at some contents.
theorem PhiS_weak (c : Dev nD) (n : ℕ) (h : n ≤ cfg0.N) :
    PhiS m c n h ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact Entails.of_eq (PhiA0_eq c)
  | succ n =>
    show Inv c _ ⊢ _
    unfold Inv
    iintro ⟨⟨HS0, HS1, HS2, HS3⟩, Hg⟩
    isplitl [HS0 HS1 HS2 HS3]
    · isplitl [HS0]; · iexists _; iexact HS0
      isplitl [HS1]; · iexists _; iexact HS1
      isplitl [HS2]; · iexists _; iexact HS2
      iexists _; iexact HS3
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1.1
    | ⟨6, _⟩ => (outsAt0 m c t.val t.isLt).1.2.1
    | ⟨7, _⟩ => (outsAt0 m c t.val t.isLt).1.2.2.1
    | ⟨8, _⟩ => (outsAt0 m c t.val t.isLt).1.2.2.2
  Φ t := PhiS m c t.val (Nat.le_of_lt_succ t.isLt)
  q w := if w.val = 0 then fullShare.left else if w.val = 1 then fullShare.right else fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1.1 := by dsimp only [dats]
theorem after0_6 (c : Dev nD) (t : Fin cfg0.N) : (dats m 0 c).after 6 t = (outsAt0 m c t.val t.isLt).1.2.1 := by dsimp only [dats]
theorem after0_7 (c : Dev nD) (t : Fin cfg0.N) : (dats m 0 c).after 7 t = (outsAt0 m c t.val t.isLt).1.2.2.1 := by dsimp only [dats]
theorem after0_8 (c : Dev nD) (t : Fin cfg0.N) : (dats m 0 c).after 8 t = (outsAt0 m c t.val t.isLt).1.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem leavesIn0_0 (c : Dev nD) (t : Fin cfg0.N) :
    (dats m 0 c).leavesExact 0 t = owns (c : Thread nD τ) (ms0_0 t) fullShare (iblk m c 0 t) := by
  unfold Dat.leavesExact; rw [live0 t 0 (Or.inl (by decide)), after0_0]
theorem leavesIn0_1 (c : Dev nD) (t : Fin cfg0.N) :
    (dats m 0 c).leavesExact 1 t = owns (c : Thread nD τ) (ms0_1 t) fullShare (iblk m c 1 t) := by
  unfold Dat.leavesExact; rw [live0 t 1 (Or.inl (by decide)), after0_1]
theorem leavesIn0_2 (c : Dev nD) (t : Fin cfg0.N) :
    (dats m 0 c).leavesExact 2 t = owns (c : Thread nD τ) (ms0_2 t) fullShare (iblk m c 2 t) := by
  unfold Dat.leavesExact; rw [live0 t 2 (Or.inl (by decide)), after0_2]
theorem leavesIn0_3 (c : Dev nD) (t : Fin cfg0.N) :
    (dats m 0 c).leavesExact 3 t = owns (c : Thread nD τ) (ms0_3 t) fullShare (iblk m c 3 t) := by
  unfold Dat.leavesExact; rw [live0 t 3 (Or.inl (by decide)), after0_3]
theorem leavesIn0_4 (c : Dev nD) (t : Fin cfg0.N) :
    (dats m 0 c).leavesExact 4 t = owns (c : Thread nD τ) (ms0_4 t) fullShare (iblk m c 4 t) := by
  unfold Dat.leavesExact; rw [live0 t 4 (Or.inl (by decide)), after0_4]

end Cert.KernelIdeal.Hand

end
-- ==== Proof.KIFrame.lean ====
import proofs.«429954_j35948876268191_2_alg».proof.Proof.KIFrameDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 4800000 in
-- Inner coordinate 0: the columns are reset before they are read, so what they held does not matter; no result block is written.
theorem sound_A (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  have hc1 : ¬cond0_1 (grid0.coords t) := fun h => h1 ((hcond0_1 t).mp h)
  unfold bodyPre bodyPost bodyAt0
  simp only [before0_0, before0_1, before0_2, before0_3, before0_4]
  rw [show (dats m 0 c).owesAt () t.succ = (dats m 0 c).owesAt () t.castSucc from rfl,
    show (dats m 0 c).Φ t.succ = Inv c (outsAt0 m c t.val t.isLt).2 from rfl,
    leavesIn0_0 m c t, leavesIn0_1 m c t, leavesIn0_2 m c t, leavesIn0_3 m c t, leavesIn0_4 m c t]
  rw [Dat.leavesExact_idle (dats m 0 c) 5 t (idle0 t 5 (by decide) hc1).1 (idle0 t 5 (by decide) hc1).2,
    Dat.leavesExact_idle (dats m 0 c) 6 t (idle0 t 6 (by decide) hc1).1 (idle0 t 6 (by decide) hc1).2,
    Dat.leavesExact_idle (dats m 0 c) 7 t (idle0 t 7 (by decide) hc1).1 (idle0 t 7 (by decide) hc1).2,
    Dat.leavesExact_idle (dats m 0 c) 8 t (idle0 t 8 (by decide) hc1).1 (idle0 t 8 (by decide) hc1).2]
  rw [outsAt0_A m c t h0 h1, PhiS_castSucc m c t]
  unfold Inv outs; dsimp only
  iintro ⟨Hi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HA := (PhiS_weak m c t.val (Nat.le_of_lt t.isLt)) $$ Hi
  icases HA with ⟨⟨HS0, HS1, HS2, HS3⟩, Hg⟩
  iapply ((runA m c t h0 h1).2.2.2.2.2.2.2.2 ((dats m 0 c).before 5 t d5) ((dats m 0 c).before 6 t d6) ((dats m 0 c).before 7 t d7) ((dats m 0 c).before 8 t d8) Set.univ _)
  iframe H0 H1 H2 H3 H4 H5 H6 H7 H8 HS0 HS1 HS2 HS3
  iintro ⟨H0, H1, H2, H3, H4, H5, H6, H7, H8, ⟨%es0, HS0⟩, ⟨%es1, HS1⟩, ⟨%es2, HS2⟩, ⟨%es3, HS3⟩⟩
  iframe Hg Ho H0 H1 H2 H3 H4
  isplitl [HS0 HS1 HS2 HS3]
  · isplitl [HS0]; · ihave H' := (Ring.owns_of_writes_tiledL VS0_0 S1024x1.size) $$ HS0; iapply H'; ipureintro; sl_kernel_rfl
    isplitl [HS1]; · ihave H' := (Ring.owns_of_writes_tiledL VS0_1 S1024x1.size) $$ HS1; iapply H'; ipureintro; sl_kernel_rfl
    isplitl [HS2]; · ihave H' := (Ring.owns_of_writes_tiledL VS0_2 S1024x1.size) $$ HS2; iapply H'; ipureintro; sl_kernel_rfl
    ihave H' := (Ring.owns_of_writes_tiledL VS0_3 S1024x1.size) $$ HS3; iapply H'; ipureintro; sl_kernel_rfl
  isplitl [H5]; · iexists _; iexact H5
  isplitl [H6]; · iexists _; iexact H6
  isplitl [H7]; · iexists _; iexact H7
  iexists _; iexact H8

set_option maxHeartbeats 4800000 in
-- Inner coordinate 1 … 6: the columns enter at what the point before left and are folded with this point's blocks.
theorem sound_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hc1 : ¬cond0_1 (grid0.coords t) := fun h => h1 ((hcond0_1 t).mp h)
  have hz : t.val ≠ 0 := fun h => h0 (by rw [h])
  unfold bodyPre bodyPost bodyAt0
  simp only [before0_0, before0_1, before0_2, before0_3, before0_4]
  rw [show (dats m 0 c).owesAt () t.succ = (dats m 0 c).owesAt () t.castSucc from rfl,
    show (dats m 0 c).Φ t.succ = Inv c (outsAt0 m c t.val t.isLt).2 from rfl,
    leavesIn0_0 m c t, leavesIn0_1 m c t, leavesIn0_2 m c t, leavesIn0_3 m c t, leavesIn0_4 m c t]
  rw [Dat.leavesExact_idle (dats m 0 c) 5 t (idle0 t 5 (by decide) hc1).1 (idle0 t 5 (by decide) hc1).2,
    Dat.leavesExact_idle (dats m 0 c) 6 t (idle0 t 6 (by decide) hc1).1 (idle0 t 6 (by decide) hc1).2,
    Dat.leavesExact_idle (dats m 0 c) 7 t (idle0 t 7 (by decide) hc1).1 (idle0 t 7 (by decide) hc1).2,
    Dat.leavesExact_idle (dats m 0 c) 8 t (idle0 t 8 (by decide) hc1).1 (idle0 t 8 (by decide) hc1).2]
  rw [outsAt0_B m c t h0 h1, PhiS_castSucc m c t, PhiS_pos m c _ _ hz]
  unfold Inv outs; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB m c t h0 h1 (prevS m c t)).2.2.2.2.2.2.2.2 ((dats m 0 c).before 5 t d5) ((dats m 0 c).before 6 t d6) ((dats m 0 c).before 7 t d7) ((dats m 0 c).before 8 t d8) Set.univ _)
  iframe H0 H1 H2 H3 H4 H5 H6 H7 H8 HS0 HS1 HS2 HS3
  iintro ⟨H0, H1, H2, H3, H4, H5, H6, H7, H8, ⟨%es0, HS0⟩, ⟨%es1, HS1⟩, ⟨%es2, HS2⟩, ⟨%es3, HS3⟩⟩
  iframe Hg Ho H0 H1 H2 H3 H4
  isplitl [HS0 HS1 HS2 HS3]
  · isplitl [HS0]; · ihave H' := (Ring.owns_of_writes_tiledL VS0_0 S1024x1.size) $$ HS0; iapply H'; ipureintro; sl_kernel_rfl
    isplitl [HS1]; · ihave H' := (Ring.owns_of_writes_tiledL VS0_1 S1024x1.size) $$ HS1; iapply H'; ipureintro; sl_kernel_rfl
    isplitl [HS2]; · ihave H' := (Ring.owns_of_writes_tiledL VS0_2 S1024x1.size) $$ HS2; iapply H'; ipureintro; sl_kernel_rfl
    ihave H' := (Ring.owns_of_writes_tiledL VS0_3 S1024x1.size) $$ HS3; iapply H'; ipureintro; sl_kernel_rfl
  isplitl [H5]; · iexists _; iexact H5
  isplitl [H6]; · iexists _; iexact H6
  isplitl [H7]; · iexists _; iexact H7
  iexists _; iexact H8

set_option maxHeartbeats 4800000 in
-- Inner coordinate 7: as before, and the columns are copied into the four result blocks.
theorem sound_C (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hc1 : cond0_1 (grid0.coords t) := (hcond0_1 t).mpr h1
  have hz : t.val ≠ 0 := fun h => h0 (by rw [h])
  unfold bodyPre bodyPost bodyAt0
  simp only [before0_0, before0_1, before0_2, before0_3, before0_4]
  rw [show (dats m 0 c).owesAt () t.succ = (dats m 0 c).owesAt () t.castSucc from rfl,
    show (dats m 0 c).Φ t.succ = Inv c (outsAt0 m c t.val t.isLt).2 from rfl,
    leavesIn0_0 m c t, leavesIn0_1 m c t, leavesIn0_2 m c t, leavesIn0_3 m c t, leavesIn0_4 m c t]
  rw [show (dats m 0 c).leavesExact 5 t = owns (c : Thread nD τ) (ms0_5 t) fullShare ((dats m 0 c).after 5 t) from by
      unfold Dat.leavesExact; rw [live0 t 5 (Or.inr hc1)],
    show (dats m 0 c).leavesExact 6 t = owns (c : Thread nD τ) (ms0_6 t) fullShare ((dats m 0 c).after 6 t) from by
      unfold Dat.leavesExact; rw [live0 t 6 (Or.inr hc1)],
    show (dats m 0 c).leavesExact 7 t = owns (c : Thread nD τ) (ms0_7 t) fullShare ((dats m 0 c).after 7 t) from by
      unfold Dat.leavesExact; rw [live0 t 7 (Or.inr hc1)],
    show (dats m 0 c).leavesExact 8 t = owns (c : Thread nD τ) (ms0_8 t) fullShare ((dats m 0 c).after 8 t) from by
      unfold Dat.leavesExact; rw [live0 t 8 (Or.inr hc1)],
    after0_5, after0_6, after0_7, after0_8, outsAt0_C m c t h0 h1, PhiS_castSucc m c t, PhiS_pos m c _ _ hz]
  unfold Inv outs; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC m c t h0 h1 (prevS m c t)).2.2.2.2.2.2.2.2 Set.univ _)
  iframe H0 H1 H2 H3 H4 HS0 HS1 HS2 HS3
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩, ⟨%es0, HS0⟩, ⟨%es1, HS1⟩, ⟨%es2, HS2⟩, ⟨%es3, HS3⟩⟩
  iframe Hg Ho H0 H1 H2 H3 H4
  isplitl [HS0 HS1 HS2 HS3]
  · isplitl [HS0]; · ihave H' := (Ring.owns_of_writes_tiledL VS0_0 S1024x1.size) $$ HS0; iapply H'; ipureintro; sl_kernel_rfl
    isplitl [HS1]; · ihave H' := (Ring.owns_of_writes_tiledL VS0_1 S1024x1.size) $$ HS1; iapply H'; ipureintro; sl_kernel_rfl
    isplitl [HS2]; · ihave H' := (Ring.owns_of_writes_tiledL VS0_2 S1024x1.size) $$ HS2; iapply H'; ipureintro; sl_kernel_rfl
    ihave H' := (Ring.owns_of_writes_tiledL VS0_3 S1024x1.size) $$ HS3; iapply H'; ipureintro; sl_kernel_rfl
  isplitl [H5]; · ihave H' := (Ring.owns_of_writes_tiledL VO0_5 S1024x1.size) $$ H5; iapply H'; ipureintro; sl_kernel_rfl
  isplitl [H6]; · ihave H' := (Ring.owns_of_writes_tiledL VO0_6 S1024x1.size) $$ H6; iapply H'; ipureintro; sl_kernel_rfl
  isplitl [H7]; · ihave H' := (Ring.owns_of_writes_tiledL VO0_7 S1024x1.size) $$ H7; iapply H'; ipureintro; sl_kernel_rfl
  ihave H' := (Ring.owns_of_writes_tiledL VO0_8 S1024x1.size) $$ H8; iapply H'; ipureintro; sl_kernel_rfl

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0 (by omega)
  · by_cases h1 : t.val % 8 = 7
    · exact sound_C m c t h0 h1
    · exact sound_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := .rfl

theorem hout (c : Dev nD) : (dats m 0 c).Φ (Fin.last cfg0.N) ⊢ Pipeline.ΦA spec0 c := by
  rw [PhiA0_eq]; exact PhiS_weak m c _ (Nat.le_of_lt_succ (Fin.last cfg0.N).isLt)

end Cert.KernelIdeal.Hand

end
-- ==== Proof.KISplit.lean ====
import proofs.«429954_j35948876268191_2_alg».proof.Proof.Gen.KernelIdeal.Launch
import Idealize.ShloMosaic.Lib.Pipeline.FrameSuffix
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

theorem arrRefs_eq : (Finset.univ.image (Pipeline.arrRef spec0) : Finset (Ref sig .tc))
    = [main_v9, main_v20, main_v21, main_v23, main_v24_0, main_v24_1, main_v24_2, main_v24_3].toFinset := by decide

theorem arrBufs_eq (c : Dev nD) (W : (b : Ref sig .tc) → Buf (Elt F) ((c : Thread nD τ).loc b)) :
    (Pipeline.arrBufs spec0 c W : sProp 𝕄)
      = iprop((((c : Thread nD τ).loc main_v9) ↦{fullShare} W main_v9) ∗ (((c : Thread nD τ).loc main_v20) ↦{fullShare} W main_v20)
        ∗ (((c : Thread nD τ).loc main_v21) ↦{fullShare} W main_v21) ∗ (((c : Thread nD τ).loc main_v23) ↦{fullShare} W main_v23)
        ∗ (((c : Thread nD τ).loc main_v24_0) ↦{fullShare} W main_v24_0) ∗ (((c : Thread nD τ).loc main_v24_1) ↦{fullShare} W main_v24_1)
        ∗ (((c : Thread nD τ).loc main_v24_2) ↦{fullShare} W main_v24_2) ∗ (((c : Thread nD τ).loc main_v24_3) ↦{fullShare} W main_v24_3)) := by
  unfold Pipeline.arrBufs
  rw [bigSep_eq_bigSepL_of_eq _ arrRefs_eq (by decide)]
  rfl

def qsh (w : Fin cfg0.W) : PosShare TreeShare :=
  if w.val = 0 then fullShare.left else if w.val = 1 then fullShare.right else fullShare

theorem isOut_eq : ∀ w : Fin cfg0.W, (cfg0.win w).isOut = decide (5 ≤ w.val) := by decide

variable {c : Dev nD} (dat : Dat τ (Elt F) Unit ℕ (UR sig nD τ) ℕ cfg0 c)

theorem share_eq (hq : ∀ w, dat.q w = qsh w) (w : Fin cfg0.W) : dat.share w = qsh w := by
  unfold Dat.share
  rw [isOut_eq w, hq w]
  by_cases h : 5 ≤ w.val
  · rw [if_pos (by simpa using h)]
    unfold qsh
    rw [if_neg (by omega), if_neg (by omega)]
  · rw [if_neg (by simpa using h)]

theorem arrays_eq_sep (hq : ∀ w, dat.q w = qsh w)
    (A : (w : Fin cfg0.W) → Buf (Elt F) ((cfg0.win w).arr.view.loc (c : Thread nD τ))) :
    (dat.arrays A : sProp 𝕄)
      = bigSep Finset.univ fun w : Fin cfg0.W => ((((c : Thread nD τ).loc (Pipeline.arrRef spec0 w)) ↦{qsh w} A w : sProp 𝕄)) := by
  unfold Dat.arrays
  exact bigSep_congr fun w _ => by rw [(arr_whole0 w).set_eq_univ, share_eq dat hq w]

theorem arrays_eq (hq : ∀ w, dat.q w = qsh w)
    (A : (w : Fin cfg0.W) → Buf (Elt F) ((cfg0.win w).arr.view.loc (c : Thread nD τ))) :
    (dat.arrays A : sProp 𝕄)
      = iprop((((c : Thread nD τ).loc main_v9) ↦{fullShare.left} A 0) ∗ (((c : Thread nD τ).loc main_v9) ↦{fullShare.right} A 1)
        ∗ (((c : Thread nD τ).loc main_v20) ↦{fullShare} A 2) ∗ (((c : Thread nD τ).loc main_v21) ↦{fullShare} A 3)
        ∗ (((c : Thread nD τ).loc main_v23) ↦{fullShare} A 4)
        ∗ (((c : Thread nD τ).loc main_v24_0) ↦{fullShare} A 5) ∗ (((c : Thread nD τ).loc main_v24_1) ↦{fullShare} A 6)
        ∗ (((c : Thread nD τ).loc main_v24_2) ↦{fullShare} A 7) ∗ (((c : Thread nD τ).loc main_v24_3) ↦{fullShare} A 8)) := by
  rw [arrays_eq_sep dat hq A, bigSep_W0]
  rfl

theorem bufs_to_arrays' (hq : ∀ w, dat.q w = qsh w) (W : (b : Ref sig .tc) → Buf (Elt F) ((c : Thread nD τ).loc b)) :
    (Pipeline.arrBufs spec0 c W : sProp 𝕄) ⊢ dat.arrays (fun w => W (Pipeline.arrRef spec0 w)) := by
  rw [arrBufs_eq, arrays_eq dat hq _]
  iintro ⟨H9, H20, H21, H23, H0, H1, H2, H3⟩
  ihave H := (pointsTo_share (PosShare.mem_left_op_right fullShare)).1 $$ H9
  icases H with ⟨Hl, Hr⟩
  iframe Hl Hr H20 H21 H23 H0 H1 H2 H3

theorem arrays_to_bufs' (hq : ∀ w, dat.q w = qsh w) (W : (b : Ref sig .tc) → Buf (Elt F) ((c : Thread nD τ).loc b)) :
    (dat.arrays (fun w => W (Pipeline.arrRef spec0 w)) : sProp 𝕄) ⊢ Pipeline.arrBufs spec0 c W := by
  rw [arrBufs_eq, arrays_eq dat hq _]
  iintro ⟨Hl, Hr, H20, H21, H23, H0, H1, H2, H3⟩
  isplitl [Hl Hr]
  · iapply (pointsTo_share (PosShare.mem_left_op_right fullShare)).2
    isplitl [Hl]; · iexact Hl
    iexact Hr
  iframe H20 H21 H23 H0 H1 H2 H3

theorem bufs_to_arrays (hq : ∀ w, dat.q w = qsh w)
    (A : (w : Fin cfg0.W) → Buf (Elt F) ((cfg0.win w).arr.view.loc (c : Thread nD τ)))
    (W : (b : Ref sig .tc) → Buf (Elt F) ((c : Thread nD τ).loc b)) (hA : ∀ w, A w = W (Pipeline.arrRef spec0 w)) :
    (Pipeline.arrBufs spec0 c W : sProp 𝕄) ⊢ dat.arrays A :=
  (bufs_to_arrays' dat hq W).trans (Entails.of_eq (congrArg dat.arrays (funext hA).symm))

theorem arrays_to_bufs (hq : ∀ w, dat.q w = qsh w)
    (A : (w : Fin cfg0.W) → Buf (Elt F) ((cfg0.win w).arr.view.loc (c : Thread nD τ)))
    (W : (b : Ref sig .tc) → Buf (Elt F) ((c : Thread nD τ).loc b)) (hA : ∀ w, A w = W (Pipeline.arrRef spec0 w)) :
    (dat.arrays A : sProp 𝕄) ⊢ Pipeline.arrBufs spec0 c W :=
  (Entails.of_eq (congrArg dat.arrays (funext hA))).trans (arrays_to_bufs' dat hq W)

end Cert.KernelIdeal.Hand

end
-- ==== Proof.KILaunch.lean ====
import proofs.«429954_j35948876268191_2_alg».proof.Proof.KIRuns
import proofs.«429954_j35948876268191_2_alg».proof.Proof.KISplit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev sfx : List (List (HloOp τ sig (Elt F))) := [hostOps1, hostOps1_1, hostOps1_2, hostOps1_3, hostOps1_4, hostOps1_5]

variable (V0' : Dev nD → Valuation τ sig (Elt F))
variable (dats : (p : Fin 1) → (c : Dev nD) → Dat τ (Elt F) Unit ℕ (UR sig nD τ) ℕ (cfgs p) c)

def Wx (c : Dev nD) : Valuation τ sig (Elt F) :=
  Pipeline.withArrays spec0 c (V0' c) fun w => (dats 0 c).arrAt w cfg0.N

def Wend (c : Dev nD) : Valuation τ sig (Elt F) := StableHlo.after (sfx (F := F)).flatten (Wx V0' dats c)

theorem isOut_in : ∀ w : Fin cfg0.W, w.val < 5 → (cfg0.win w).isOut = false := by decide

theorem arrRef_eq_cases : ∀ w w' : Fin cfg0.W, Pipeline.arrRef spec0 w' = Pipeline.arrRef spec0 w → w' = w ∨ (w'.val < 2 ∧ w.val < 2) := by decide

theorem Wx_of_ne (c : Dev nD) (b : Ref sig .tc) (hb : ∀ w, Pipeline.arrRef spec0 w ≠ b) :
    Wx V0' dats c (Proc.devRef .tc b) = V0' c (Proc.devRef .tc b) := by
  unfold Wx; exact Pipeline.withArrays_of_ne spec0 c _ _ b hb

theorem held_split (c : Dev nD) (W : Valuation τ sig (Elt F)) :
    (StableHlo.held (c : Thread nD τ) (Pipeline.ucRefs τ sig) W : sProp 𝕄)
      = iprop(Pipeline.arrBufs spec0 c (fun b => W (Proc.devRef .tc b)) ∗ Pipeline.unscopedRest spec0 c (fun b => W (Proc.devRef .tc b))) :=
  (Pipeline.unscopedBufs_held (Ix := Unit) (Name := ℕ) (U := UR sig nD τ) (Lvl := ℕ) c W).symm.trans
    (Pipeline.unscopedBufs_split₀ cfgs 0 winFacts₀0.arr_unscoped c _)

variable (hA : ∀ c w, (dats 0 c).A w = V0' c (Proc.devRef .tc (Pipeline.arrRef spec0 w)))
include hA

theorem Wx_arr (c : Dev nD) (w : Fin cfg0.W) :
    Wx V0' dats c (Proc.devRef .tc (Pipeline.arrRef spec0 w)) = (dats 0 c).arrAt w cfg0.N := by
  unfold Wx Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats 0 c).arrAt w' cfg0.N) = (dats 0 c).arrAt w cfg0.N from this _ h.choose_spec
  intro w' e
  rcases arrRef_eq_cases w w' (Proc.devRef_injective _ e) with rfl | ⟨h', hw⟩
  · rfl
  · have e1 : (dats 0 c).arrAt w' cfg0.N = V0' c (Proc.devRef .tc (Pipeline.arrRef spec0 w')) :=
      ((dats 0 c).arrAt_in w' (isOut_in w' (by omega)) _).trans (hA c w')
    have e2 : (dats 0 c).arrAt w cfg0.N = V0' c (Proc.devRef .tc (Pipeline.arrRef spec0 w)) :=
      ((dats 0 c).arrAt_in w (isOut_in w (by omega)) _).trans (hA c w)
    rw [e1, e2]
    have er : Pipeline.arrRef spec0 w' = Pipeline.arrRef spec0 w := Proc.devRef_injective _ e
    clear e1 e2
    revert e
    rw [er]
    intro e
    rfl

theorem Wend_arr (c : Dev nD) (w : Fin cfg0.W) :
    Wend V0' dats c (Proc.devRef .tc (Pipeline.arrRef spec0 w)) = (dats 0 c).arrAt w cfg0.N := by
  unfold Wend
  rw [StableHlo.after_of_forall_not_mem _ _ fun op hop => ?_, Wx_arr V0' dats hA c w]
  obtain ⟨ops, hops, hop⟩ := List.mem_flatten.mp hop
  exact sfx_keeps ops hops op hop w

variable (hq : ∀ c w, (dats 0 c).q w = qsh w)
include hq

theorem arrays_exit (c : Dev nD) :
    ((dats 0 c).arrays ((dats 0 c).arrAt · cfg0.N) : sProp 𝕄) = Pipeline.arrBufs spec0 c (fun b => Wx V0' dats c (Proc.devRef .tc b)) :=
  BI.equiv_iff.mp
    ⟨arrays_to_bufs (dats 0 c) (hq c) _ (fun b => Wx V0' dats c (Proc.devRef .tc b)) fun w => (Wx_arr V0' dats hA c w).symm,
     bufs_to_arrays (dats 0 c) (hq c) _ (fun b => Wx V0' dats c (Proc.devRef .tc b)) fun w => (Wx_arr V0' dats hA c w).symm⟩

theorem arrays_end (c : Dev nD) :
    ((dats 0 c).arrays ((dats 0 c).arrAt · cfg0.N) : sProp 𝕄) = Pipeline.arrBufs spec0 c (fun b => Wend V0' dats c (Proc.devRef .tc b)) :=
  BI.equiv_iff.mp
    ⟨arrays_to_bufs (dats 0 c) (hq c) _ (fun b => Wend V0' dats c (Proc.devRef .tc b)) fun w => (Wend_arr V0' dats hA c w).symm,
     bufs_to_arrays (dats 0 c) (hq c) _ (fun b => Wend V0' dats c (Proc.devRef .tc b)) fun w => (Wend_arr V0' dats hA c w).symm⟩

omit hA hq in

theorem rest_exit (c : Dev nD) :
    (Pipeline.unscopedRest spec0 c (fun b => Wx V0' dats c (Proc.devRef .tc b)) : sProp 𝕄)
      = Pipeline.unscopedRest spec0 c (fun b => V0' c (Proc.devRef .tc b)) := by
  unfold Pipeline.unscopedRest
  exact bigSep_congr fun b hb =>
    congrArg (fun f => ((((c : Thread nD τ).loc b) ↦{fullShare} f) : sProp 𝕄))
      (Wx_of_ne V0' dats c b fun w e => (Finset.mem_sdiff.mp hb).2 (Finset.mem_image.mpr ⟨w, Finset.mem_univ _, e⟩))

theorem exit_eq (c : Dev nD) :
    (iprop((dats 0 c).arrays ((dats 0 c).arrAt · cfg0.N) ∗ Pipeline.unscopedRest spec0 c (fun b => V0' c (Proc.devRef .tc b))) : sProp 𝕄)
      = StableHlo.held (c : Thread nD τ) (Pipeline.ucRefs τ sig) (Wx V0' dats c) :=
  (congrArg₂ (fun X Y : sProp 𝕄 => iprop(X ∗ Y)) (arrays_exit V0' dats hA hq c) (rest_exit V0' dats c).symm).trans
    (held_split c (Wx V0' dats c)).symm

theorem end_eq (c : Dev nD) :
    (StableHlo.held (c : Thread nD τ) (Pipeline.ucRefs τ sig) (Wend V0' dats c) : sProp 𝕄)
      = iprop((dats 0 c).arrays ((dats 0 c).arrAt · cfg0.N) ∗ Pipeline.unscopedRest spec0 c (fun b => Wend V0' dats c (Proc.devRef .tc b))) :=
  (held_split c (Wend V0' dats c)).trans
    (congrArg (fun X : sProp 𝕄 => iprop(X ∗ Pipeline.unscopedRest spec0 c (fun b => Wend V0' dats c (Proc.devRef .tc b))))
      (arrays_end V0' dats hA hq c).symm)

theorem htail (c : Dev nD) (Q' : PUnit → sProp 𝕄) :
    iprop((iprop((dats 0 c).arrays ((dats 0 c).arrAt · cfg0.N) ∗ Pipeline.unscopedRest spec0 c (fun b => Wend V0' dats c (Proc.devRef .tc b))) -∗ Q' ⟨⟩)
        ∗ boundary (c : Thread nD τ) ∗ (dats 0 c).arrays ((dats 0 c).arrAt · cfg0.N) ∗ Pipeline.unscopedRest spec0 c (fun b => V0' c (Proc.devRef .tc b)))
      ⊢ wp frame (wpE (defs (F := F)) (Variants.lift Variants.none) (c : Thread nD τ) none) Set.univ (Pipeline.chain ((sfx (F := F)).map StableHlo.seq)) Q' := by
  rw [← List.append_nil ((sfx (F := F)).map StableHlo.seq), exit_eq V0' dats hA hq c]
  iintro ⟨Hk, Hb⟩
  iapply (Pipeline.wp_seqs_then (pcfgs (F := F)) defs₀ Variants.none c (Pipeline.ucRefs τ sig) [] (sfx (F := F))
    (fun ops hops op hop => by
      have := sfx_sub ops hops op hop
      rwa [Pipeline.tailRefs_none spec0 winFacts₀0.arr_unscoped] at this)
    sfx_fresh (Wx V0' dats c)) $$ Hb
  iintro Hb
  rw [Pipeline.chain_nil, wp_pure]
  imodintro
  iapply Hk
  icases Hb with ⟨-, H⟩
  rw [← end_eq V0' dats hA hq c]
  iexact H

end Cert.KernelIdeal.Hand

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)
  (hA : ∀ c w, (dats 0 c).A w = V m c (Pipeline.arrRef spec0 w))
  (hq : ∀ c w, (dats 0 c).q w = qsh w)
  (howed : ∀ c t, (dats 0 c).owed t = 0)
  (hbody : ∀ c, Pipeline.BodyObligationLoose (dats 0 c) (defs₀ (F := F)) Variants.none () Set.univ)
  (hin : ∀ c, Pipeline.ΦA spec0 c ⊢ (dats 0 c).Φ 0)
  (hout : ∀ c, (dats 0 c).Φ (Fin.last cfg0.N) ⊢ Pipeline.ΦA spec0 c)
include hA hq howed hbody hin hout

set_option maxHeartbeats 4000000 in
set_option backward.isDefEq.respectTransparency.types false in

theorem run_of :
    θ_run (defs (F := F)) (onTc (τ := τ) (main (F := F))) (s₀ m ρ) (fun r => ∀ c : Dev nD,
      (∀ w, r.2.mem ((spec0 w).arr.view.loc (c : Thread nD τ)) = (dats 0 c).arrAt w cfg0.N)
      ∧ ∀ b ∈ ((Finset.univ.filter fun b : Ref sig .tc => ¬ b.isScoped) \ Finset.univ.image (Pipeline.arrRef spec0)),
          r.2.mem ((c : Thread nD τ).loc b) = Wend (V0 m) dats c (Proc.devRef .tc b)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain ((sfx (F := F)).map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => bufs_to_arrays (dats 0 c) (hq c) _ (V m c) fun w => hA c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => V0 m c (Proc.devRef .tc b)))
    (Z' := fun c => Pipeline.unscopedRest (Ix := Unit) (Name := ℕ) (U := UR sig nD τ) (Lvl := ℕ) spec0 c (fun b => Wend (V0 m) dats c (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail (V0 m) dats hA hq c Q')
    (QY := fun c s => ∀ b ∈ ((Finset.univ.filter fun b : Ref sig .tc => ¬ b.isScoped) \ Finset.univ.image (Pipeline.arrRef spec0)),
      s.mem ((c : Thread nD τ).loc b) = Wend (V0 m) dats c (Proc.devRef .tc b))
    (hY := fun c s' => by
      iintro ⟨-, HU, HSI⟩
      unfold Pipeline.unscopedRest
      imodintro
      iapply (pointsTo_read_all ((Finset.univ.filter fun b : Ref sig .tc => ¬ b.isScoped) \ Finset.univ.image (Pipeline.arrRef spec0))
        (fun b => (c : Thread nD τ).loc b) (fun b => Wend (V0 m) dats c (Proc.devRef .tc b)) s')
      isplitl [HU] <;> iassumption)
    (hQ := fun s h c => ⟨(h c).1, (h c).2.2⟩)

end Cert.KernelIdeal.Hand

end
-- ==== Proof.KIEndArgs.lean ====
import proofs.«429954_j35948876268191_2_alg».proof.Proof.KILaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ)
variable (dats : (p : Fin 1) → (c : Dev nD) → Dat τ (Elt F) Unit ℕ (UR sig nD τ) ℕ (cfgs p) c)

set_option maxHeartbeats 1000000 in

theorem Wend_arg0 (c : Dev nD) : Wend (V0 m) dats c (Proc.devRef .tc main_arg0) = m ((c : Thread nD τ).loc main_arg0) :=
  calc Wend (V0 m) dats c (Proc.devRef .tc main_arg0)
    _ = Wx (V0 m) dats c (Proc.devRef .tc main_arg0) := StableHlo.after_of_forall_not_mem (b := Proc.devRef .tc main_arg0) _ _ (List.forall_iff_forall_mem.mp (by
          simp only [sfx, hostOps1, hostOps1_1, hostOps1_2, hostOps1_3, hostOps1_4, hostOps1_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg0) := Wx_of_ne (V0 m) dats c main_arg0 (by decide)
    _ = m ((c : Thread nD τ).loc main_arg0) := StableHlo.after_of_forall_not_mem (b := Proc.devRef .tc main_arg0) _ _ (List.forall_iff_forall_mem.mp (by
          simp only [hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 1000000 in

theorem Wend_arg1 (c : Dev nD) : Wend (V0 m) dats c (Proc.devRef .tc main_arg1) = m ((c : Thread nD τ).loc main_arg1) :=
  calc Wend (V0 m) dats c (Proc.devRef .tc main_arg1)
    _ = Wx (V0 m) dats c (Proc.devRef .tc main_arg1) := StableHlo.after_of_forall_not_mem (b := Proc.devRef .tc main_arg1) _ _ (List.forall_iff_forall_mem.mp (by
          simp only [sfx, hostOps1, hostOps1_1, hostOps1_2, hostOps1_3, hostOps1_4, hostOps1_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg1) := Wx_of_ne (V0 m) dats c main_arg1 (by decide)
    _ = m ((c : Thread nD τ).loc main_arg1) := StableHlo.after_of_forall_not_mem (b := Proc.devRef .tc main_arg1) _ _ (List.forall_iff_forall_mem.mp (by
          simp only [hostOps0, hostOps0_1, hostOps0_2, hostOps0_3, hostOps0_4, hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Hand

end
-- ==== Proof.KIPost.lean ====
import proofs.«429954_j35948876268191_2_alg».proof.Proof.KIFrame
import proofs.«429954_j35948876268191_2_alg».proof.Proof.KILaunch
import proofs.«429954_j35948876268191_2_alg».proof.Proof.KIEndArgs

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

theorem q_eq (c : Dev nD) (w : Fin cfg0.W) : (dats m 0 c).q w = qsh w := rfl

theorem mem_rest (b : Ref sig .tc) (h1 : b.isScoped = false) (h2 : ∀ w, Pipeline.arrRef spec0 w ≠ b) :
    b ∈ ((Finset.univ.filter fun b : Ref sig .tc => ¬ b.isScoped) \ Finset.univ.image (Pipeline.arrRef spec0)) :=
  Finset.mem_sdiff.mpr ⟨Finset.mem_filter.mpr ⟨Finset.mem_univ _, by simp [h1]⟩,
    fun h => by obtain ⟨w, -, hw⟩ := Finset.mem_image.mp h; exact h2 w hw⟩

theorem run : θ_run (defs (F := F)) (onTc (τ := τ) (main (F := F))) ⟨m, fun _ => 0, ρ⟩ (fun r => ∀ c : Dev nD,
      r.2.mem ((c.tc : Thread nD τ).loc main_v43) = Wend (V0 m) (dats m) c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c =>
    ⟨(h c).2 main_v43 (mem_rest main_v43 rfl (by decide)),
     ((h c).2 main_arg0 (mem_rest main_arg0 rfl (by decide))).trans (Wend_arg0 m (dats m) c),
     ((h c).2 main_arg1 (mem_rest main_arg1 rfl (by decide))).trans (Wend_arg1 m (dats m) c)⟩)
    (run_of m ρ (dats m) (A_eq m) (q_eq m) (fun _ _ => rfl) (fun c => (body_obligation m c).loose) (hin m) (hout m))

end Cert.KernelIdeal.Hand

end
-- ==== Proof.RefRun.lean ====
import proofs.«429954_j35948876268191_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

abbrev ops : List (HloOp τ sig (Elt F)) :=
  [
    StableHlo.nullary main_c (fun i => lit0 (S13x13.rowMajor i)),
    StableHlo.reshape main_arg0 main_v0 rfl shapeCasts_S16x512x256_S8192x256,
    StableHlo.reshape main_arg1 main_v1 rfl shapeCasts_S16x512_S8192,
    StableHlo.nullary main_c_0 (constantI S_ 32 4294967196#32),
    StableHlo.unary main_c_0 main_v2 (broadcastInDim S8192 ![] bcast_S_S8192 : (⟨S_, .i32⟩ : BufTy).Contents (Elt F) → (⟨S8192, .i32⟩ : BufTy).Contents (Elt F)),
    StableHlo.binary main_v1 main_v2 main_v3 (cmpi .ne : (⟨S8192, .i32⟩ : BufTy).Contents (Elt F) → (⟨S8192, .i32⟩ : BufTy).Contents (Elt F) → (⟨S8192, .i1⟩ : BufTy).Contents (Elt F)),
    StableHlo.TRef.binary (.of main_v0 : StableHlo.TRef sig ⟨S8192x256, .f32⟩) (.of main_v0 : StableHlo.TRef sig ⟨S8192x256, .f32⟩) main_call0.v0 mulf,
    StableHlo.TRef.nullary main_call0.cst (constant S_ .f32 0x00000000#32),
    StableHlo.TRef.binary main_call0.v0 main_call0.cst main_call0.v1 (fun x v => Host.reduceAdd x v reducesTo_S8192x256_S8192_d1 h_S_),
    StableHlo.TRef.unary main_call0.v1 main_call0.v2 (broadcastInDim S8192x1 ![0] bcast_S8192_S8192x1_0),
    StableHlo.TRef.unary main_call0.v2 main_call0.v3 Host.sqrt,
    StableHlo.nullary main_cst (constant S_ .f32 0x2B8CBCCC#32),
    StableHlo.unary main_cst main_v5 (broadcastInDim S8192x1 ![] bcast_S_S8192x1 : (⟨S_, .f32⟩ : BufTy).Contents (Elt F) → (⟨S8192x1, .f32⟩ : BufTy).Contents (Elt F)),
    StableHlo.binary main_v4 main_v5 main_v6 (maximumf : (⟨S8192x1, .f32⟩ : BufTy).Contents (Elt F) → (⟨S8192x1, .f32⟩ : BufTy).Contents (Elt F) → (⟨S8192x1, .f32⟩ : BufTy).Contents (Elt F)),
    StableHlo.unary main_v6 main_v7 (broadcastInDim S8192x256 ![0, 1] bcast_S8192x1_S8192x256_0_1 : (⟨S8192x1, .f32⟩ : BufTy).Contents (Elt F) → (⟨S8192x256, .f32⟩ : BufTy).Contents (Elt F)),
    StableHlo.binary main_v0 main_v7 main_v8 (Host.divf : (⟨S8192x256, .f32⟩ : BufTy).Contents (Elt F) → (⟨S8192x256, .f32⟩ : BufTy).Contents (Elt F) → (⟨S8192x256, .f32⟩ : BufTy).Contents (Elt F)),
    StableHlo.unary main_v8 main_v9 ((transpose S256x8192 [1, 0] · transposes_S8192x256_S256x8192_1_0) : (⟨S8192x256, .f32⟩ : BufTy).Contents (Elt F) → (⟨S256x8192, .f32⟩ : BufTy).Contents (Elt F)),
    StableHlo.binary main_v8 main_v9 main_v10 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_c_1 (constantI S_ 32 0#32),
    StableHlo.nullary main_c_2 (constantI S_ 32 12#32),
    StableHlo.TRef.unary (.of main_c_1 : StableHlo.TRef sig ⟨S_, .i32⟩) main_call1.v0 id,
    StableHlo.TRef.unary main_call1.v0 main_call1.v1 (broadcastInDim S8192 ![] bcast_S_S8192),
    StableHlo.TRef.binary main_call1.v1 (.of main_v1 : StableHlo.TRef sig ⟨S8192, .i32⟩) main_call1.v2 maxsi,
    StableHlo.TRef.unary (.of main_c_2 : StableHlo.TRef sig ⟨S_, .i32⟩) main_call1.v3 id,
    StableHlo.TRef.unary main_call1.v3 main_call1.v4 (broadcastInDim S8192 ![] bcast_S_S8192),
    StableHlo.TRef.binary main_call1.v4 main_call1.v2 main_call1.v5 minsi,
    StableHlo.nullary main_c_3 (constantI S_ 32 0#32),
    StableHlo.unary main_c_3 main_v12 (broadcastInDim S8192 ![] bcast_S_S8192 : (⟨S_, .i32⟩ : BufTy).Contents (Elt F) → (⟨S8192, .i32⟩ : BufTy).Contents (Elt F)),
    StableHlo.binary main_v11 main_v12 main_v13 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 13#32),
    StableHlo.unary main_c_4 main_v14 (broadcastInDim S8192 ![] bcast_S_S8192 : (⟨S_, .i32⟩ : BufTy).Contents (Elt F) → (⟨S8192, .i32⟩ : BufTy).Contents (Elt F)),
    StableHlo.binary main_v11 main_v14 main_v15 (addi : (⟨S8192, .i32⟩ : BufTy).Contents (Elt F) → (⟨S8192, .i32⟩ : BufTy).Contents (Elt F) → (⟨S8192, .i32⟩ : BufTy).Contents (Elt F)),
    StableHlo.ternary main_v13 main_v15 main_v11 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v16 main_v17 (broadcastInDim S8192x1 ![0] bcast_S8192_S8192x1_0 : (⟨S8192, .i32⟩ : BufTy).Contents (Elt F) → (⟨S8192x1, .i32⟩ : BufTy).Contents (Elt F)),
    StableHlo.binary main_c main_v17 main_v18 ((fun x i => Host.gather gather_S13x13_S8192x1_S8192x13_1_0_n_n_0_1_113 x i) : (⟨S13x13, .i1⟩ : BufTy).Contents (Elt F) → (⟨S8192x1, .i32⟩ : BufTy).Contents (Elt F) → (⟨S8192x13, .i1⟩ : BufTy).Contents (Elt F)),
    StableHlo.nullary main_c_5 (constantI S_ 1 0#1),
    StableHlo.binary main_v18 main_c_5 main_v19 ((fun x v => Host.reduce IntOp.ori x v reducesTo_S8192x13_S8192_d1 h_S_) : (⟨S8192x13, .i1⟩ : BufTy).Contents (Elt F) → (⟨S_, .i1⟩ : BufTy).Contents (Elt F) → (⟨S8192, .i1⟩ : BufTy).Contents (Elt F)),
    StableHlo.binary main_v3 main_v19 main_v20 (andi : (⟨S8192, .i1⟩ : BufTy).Contents (Elt F) → (⟨S8192, .i1⟩ : BufTy).Contents (Elt F) → (⟨S8192, .i1⟩ : BufTy).Contents (Elt F)),
    StableHlo.unary main_v1 main_v21 (broadcastInDim S8192x1 ![0] bcast_S8192_S8192x1_0 : (⟨S8192, .i32⟩ : BufTy).Contents (Elt F) → (⟨S8192x1, .i32⟩ : BufTy).Contents (Elt F)),
    StableHlo.unary main_v1 main_v22 (broadcastInDim S1x8192 ![1] bcast_S8192_S1x8192_1 : (⟨S8192, .i32⟩ : BufTy).Contents (Elt F) → (⟨S1x8192, .i32⟩ : BufTy).Contents (Elt F)),
    StableHlo.unary main_v21 main_v23 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v22 main_v24 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v23 main_v24 main_v25 (cmpi .eq : (⟨S8192x8192, .i32⟩ : BufTy).Contents (Elt F) → (⟨S8192x8192, .i32⟩ : BufTy).Contents (Elt F) → (⟨S8192x8192, .i1⟩ : BufTy).Contents (Elt F)),
    StableHlo.nullary main_v26 (iotaInDim S8192x8192 32 0),
    StableHlo.nullary main_v27 (iotaInDim S8192x8192 32 1),
    StableHlo.nullary main_c_6 (constantI S_ 32 0#32),
    StableHlo.unary main_c_6 main_v28 (broadcastInDim S8192x8192 ![] bcast_S_S8192x8192 : (⟨S_, .i32⟩ : BufTy).Contents (Elt F) → (⟨S8192x8192, .i32⟩ : BufTy).Contents (Elt F)),
    StableHlo.binary main_v26 main_v28 main_v29 (addi : (⟨S8192x8192, .i32⟩ : BufTy).Contents (Elt F) → (⟨S8192x8192, .i32⟩ : BufTy).Contents (Elt F) → (⟨S8192x8192, .i32⟩ : BufTy).Contents (Elt F)),
    StableHlo.binary main_v29 main_v27 main_v30 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v3 main_v31 (broadcastInDim S1x8192 ![1] bcast_S8192_S1x8192_1 : (⟨S8192, .i1⟩ : BufTy).Contents (Elt F) → (⟨S1x8192, .i1⟩ : BufTy).Contents (Elt F)),
    StableHlo.unary main_v31 main_v32 (broadcastInDim S8192x8192 ![0, 1] bcast_S1x8192_S8192x8192_0_1 : (⟨S1x8192, .i1⟩ : BufTy).Contents (Elt F) → (⟨S8192x8192, .i1⟩ : BufTy).Contents (Elt F)),
    StableHlo.binary main_v25 main_v32 main_v33 (andi : (⟨S8192x8192, .i1⟩ : BufTy).Contents (Elt F) → (⟨S8192x8192, .i1⟩ : BufTy).Contents (Elt F) → (⟨S8192x8192, .i1⟩ : BufTy).Contents (Elt F)),
    StableHlo.unary main_v30 main_v34 (noti : (⟨S8192x8192, .i1⟩ : BufTy).Contents (Elt F) → (⟨S8192x8192, .i1⟩ : BufTy).Contents (Elt F)),
    StableHlo.binary main_v33 main_v34 main_v35 (andi : (⟨S8192x8192, .i1⟩ : BufTy).Contents (Elt F) → (⟨S8192x8192, .i1⟩ : BufTy).Contents (Elt F) → (⟨S8192x8192, .i1⟩ : BufTy).Contents (Elt F)),
    StableHlo.unary main_v11 main_v36 (broadcastInDim S8192x1 ![0] bcast_S8192_S8192x1_0 : (⟨S8192, .i32⟩ : BufTy).Contents (Elt F) → (⟨S8192x1, .i32⟩ : BufTy).Contents (Elt F)),
    StableHlo.unary main_v11 main_v37 (broadcastInDim S1x8192 ![1] bcast_S8192_S1x8192_1 : (⟨S8192, .i32⟩ : BufTy).Contents (Elt F) → (⟨S1x8192, .i32⟩ : BufTy).Contents (Elt F)),
    StableHlo.nullary main_c_7 (constantI S_ 32 0#32),
    StableHlo.unary main_c_7 main_v38 (broadcastInDim S8192x1 ![] bcast_S_S8192x1 : (⟨S_, .i32⟩ : BufTy).Contents (Elt F) → (⟨S8192x1, .i32⟩ : BufTy).Contents (Elt F)),
    StableHlo.binary main_v36 main_v38 main_v39 (cmpi .slt : (⟨S8192x1, .i32⟩ : BufTy).Contents (Elt F) → (⟨S8192x1, .i32⟩ : BufTy).Contents (Elt F) → (⟨S8192x1, .i1⟩ : BufTy).Contents (Elt F)),
    StableHlo.nullary main_c_8 (constantI S_ 32 13#32),
    StableHlo.unary main_c_8 main_v40 (broadcastInDim S8192x1 ![] bcast_S_S8192x1 : (⟨S_, .i32⟩ : BufTy).Contents (Elt F) → (⟨S8192x1, .i32⟩ : BufTy).Contents (Elt F)),
    StableHlo.binary main_v36 main_v40 main_v41 (addi : (⟨S8192x1, .i32⟩ : BufTy).Contents (Elt F) → (⟨S8192x1, .i32⟩ : BufTy).Contents (Elt F) → (⟨S8192x1, .i32⟩ : BufTy).Contents (Elt F)),
    StableHlo.ternary main_v39 main_v41 main_v36 main_v42 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.nullary main_c_9 (constantI S_ 32 0#32),
    StableHlo.unary main_c_9 main_v43 (broadcastInDim S1x8192 ![] bcast_S_S1x8192 : (⟨S_, .i32⟩ : BufTy).Contents (Elt F) → (⟨S1x8192, .i32⟩ : BufTy).Contents (Elt F)),
    StableHlo.binary main_v37 main_v43 main_v44 (cmpi .slt : (⟨S1x8192, .i32⟩ : BufTy).Contents (Elt F) → (⟨S1x8192, .i32⟩ : BufTy).Contents (Elt F) → (⟨S1x8192, .i1⟩ : BufTy).Contents (Elt F)),
    StableHlo.nullary main_c_10 (constantI S_ 32 13#32),
    StableHlo.unary main_c_10 main_v45 (broadcastInDim S1x8192 ![] bcast_S_S1x8192 : (⟨S_, .i32⟩ : BufTy).Contents (Elt F) → (⟨S1x8192, .i32⟩ : BufTy).Contents (Elt F)),
    StableHlo.binary main_v37 main_v45 main_v46 (addi : (⟨S1x8192, .i32⟩ : BufTy).Contents (Elt F) → (⟨S1x8192, .i32⟩ : BufTy).Contents (Elt F) → (⟨S1x8192, .i32⟩ : BufTy).Contents (Elt F)),
    StableHlo.ternary main_v44 main_v46 main_v37 main_v47 (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F)),
    StableHlo.unary main_v42 main_v48 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v47 main_v49 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v48 main_v50 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.unary main_v49 main_v51 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.binary main_v50 main_v51 main_v52 ((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F)),
    StableHlo.binary main_c main_v52 main_v53 ((fun x i => Host.gather gather_S13x13_S8192x8192x2_S8192x8192_n_01_n_n_01_2_11 x i) : (⟨S13x13, .i1⟩ : BufTy).Contents (Elt F) → (⟨S8192x8192x2, .i32⟩ : BufTy).Contents (Elt F) → (⟨S8192x8192, .i1⟩ : BufTy).Contents (Elt F)),
    StableHlo.unary main_v3 main_v54 (broadcastInDim S1x8192 ![1] bcast_S8192_S1x8192_1 : (⟨S8192, .i1⟩ : BufTy).Contents (Elt F) → (⟨S1x8192, .i1⟩ : BufTy).Contents (Elt F)),
    StableHlo.unary main_v54 main_v55 (broadcastInDim S8192x8192 ![0, 1] bcast_S1x8192_S8192x8192_0_1 : (⟨S1x8192, .i1⟩ : BufTy).Contents (Elt F) → (⟨S8192x8192, .i1⟩ : BufTy).Contents (Elt F)),
    StableHlo.binary main_v53 main_v55 main_v56 (andi : (⟨S8192x8192, .i1⟩ : BufTy).Contents (Elt F) → (⟨S8192x8192, .i1⟩ : BufTy).Contents (Elt F) → (⟨S8192x8192, .i1⟩ : BufTy).Contents (Elt F)),
    StableHlo.nullary main_c_11 (constantI S_ 1 0#1),
    StableHlo.binary main_v35 main_c_11 main_v57 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.nullary main_c_12 (constantI S_ 1 0#1),
    StableHlo.binary main_v56 main_c_12 main_v58 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.binary main_v20 main_v57 main_v59 (andi : (⟨S8192, .i1⟩ : BufTy).Contents (Elt F) → (⟨S8192, .i1⟩ : BufTy).Contents (Elt F) → (⟨S8192, .i1⟩ : BufTy).Contents (Elt F)),
    StableHlo.binary main_v59 main_v58 main_v60 (andi : (⟨S8192, .i1⟩ : BufTy).Contents (Elt F) → (⟨S8192, .i1⟩ : BufTy).Contents (Elt F) → (⟨S8192, .i1⟩ : BufTy).Contents (Elt F)),
    StableHlo.nullary main_cst_13 (constant S_ .f32 0x4E6E6B28#32),
    StableHlo.TRef.unary (.of main_cst_13 : StableHlo.TRef sig ⟨S_, .f32⟩) main_call2.v0 id,
    StableHlo.TRef.unary main_call2.v0 main_call2.v1 (broadcastInDim S8192x8192 ![] bcast_S_S8192x8192),
    StableHlo.TRef.ternary (.of main_v35 : StableHlo.TRef sig ⟨S8192x8192, .i1⟩) (.of main_v10 : StableHlo.TRef sig ⟨S8192x8192, .f32⟩) main_call2.v1 main_call2.v2 select,
    StableHlo.nullary main_cst_14 (constant S_ .f32 0x7F800000#32),
    StableHlo.binary main_v61 main_cst_14 main_v62 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_15 (constant S_ .f32 0xCE6E6B28#32),
    StableHlo.TRef.unary (.of main_cst_15 : StableHlo.TRef sig ⟨S_, .f32⟩) main_call3.v0 id,
    StableHlo.TRef.unary main_call3.v0 main_call3.v1 (broadcastInDim S8192x8192 ![] bcast_S_S8192x8192),
    StableHlo.TRef.ternary (.of main_v56 : StableHlo.TRef sig ⟨S8192x8192, .i1⟩) (.of main_v10 : StableHlo.TRef sig ⟨S8192x8192, .f32⟩) main_call3.v1 main_call3.v2 select,
    StableHlo.nullary main_cst_16 (constant S_ .f32 0xFF800000#32),
    StableHlo.binary main_v63 main_cst_16 main_v64 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_17 (constant S_ .f32 0x3F000000#32),
    StableHlo.unary main_cst_17 main_v65 (broadcastInDim S8192 ![] bcast_S_S8192 : (⟨S_, .f32⟩ : BufTy).Contents (Elt F) → (⟨S8192, .f32⟩ : BufTy).Contents (Elt F)),
    StableHlo.binary main_v65 main_v64 main_v66 (addf : (⟨S8192, .f32⟩ : BufTy).Contents (Elt F) → (⟨S8192, .f32⟩ : BufTy).Contents (Elt F) → (⟨S8192, .f32⟩ : BufTy).Contents (Elt F)),
    StableHlo.binary main_v66 main_v62 main_v67 (subf : (⟨S8192, .f32⟩ : BufTy).Contents (Elt F) → (⟨S8192, .f32⟩ : BufTy).Contents (Elt F) → (⟨S8192, .f32⟩ : BufTy).Contents (Elt F)),
    StableHlo.TRef.nullary main_call4.cst (constant S_ .f32 0x00000000#32),
    StableHlo.TRef.unary main_call4.cst main_call4.v0 (broadcastInDim S8192 ![] bcast_S_S8192),
    StableHlo.TRef.binary (.of main_v67 : StableHlo.TRef sig ⟨S8192, .f32⟩) main_call4.v0 main_call4.v1 maximumf,
    StableHlo.nullary main_cst_18 (constant S_ .f32 0x00000000#32),
    StableHlo.TRef.unary (.of main_cst_18 : StableHlo.TRef sig ⟨S_, .f32⟩) main_call5.v0 id,
    StableHlo.TRef.unary main_call5.v0 main_call5.v1 (broadcastInDim S8192 ![] bcast_S_S8192),
    StableHlo.TRef.ternary (.of main_v60 : StableHlo.TRef sig ⟨S8192, .i1⟩) (.of main_v68 : StableHlo.TRef sig ⟨S8192, .f32⟩) main_call5.v1 main_call5.v2 select,
    StableHlo.unary main_v60 main_v70 ((extui 32 · natLt_1_32) : (⟨S8192, .i1⟩ : BufTy).Contents (Elt F) → (⟨S8192, .i32⟩ : BufTy).Contents (Elt F)),
    StableHlo.nullary main_c_19 (constantI S_ 32 0#32),
    StableHlo.binary main_v70 main_c_19 main_v71 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    StableHlo.nullary main_cst_20 (constant S_ .f32 0x00000000#32),
    StableHlo.binary main_v69 main_cst_20 main_v72 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_c_21 (constantI S_ 32 1#32),
    StableHlo.binary main_v71 main_c_21 main_v73 (maxsi : (⟨S_, .i32⟩ : BufTy).Contents (Elt F) → (⟨S_, .i32⟩ : BufTy).Contents (Elt F) → (⟨S_, .i32⟩ : BufTy).Contents (Elt F)),
    StableHlo.unary main_v73 main_v74 (sitofp .f32 : (⟨S_, .i32⟩ : BufTy).Contents (Elt F) → (⟨S_, .f32⟩ : BufTy).Contents (Elt F)),
    StableHlo.binary main_v72 main_v74 main_v75 (Host.divf : (⟨S_, .f32⟩ : BufTy).Contents (Elt F) → (⟨S_, .f32⟩ : BufTy).Contents (Elt F) → (⟨S_, .f32⟩ : BufTy).Contents (Elt F)),
    StableHlo.nullary main_c_22 (constantI S_ 32 0#32),
    StableHlo.binary main_v71 main_c_22 main_v76 (cmpi .sgt : (⟨S_, .i32⟩ : BufTy).Contents (Elt F) → (⟨S_, .i32⟩ : BufTy).Contents (Elt F) → (⟨S_, .i1⟩ : BufTy).Contents (Elt F)),
    StableHlo.nullary main_cst_23 (constant S_ .f32 0x00000000#32),
    StableHlo.TRef.unary (.of main_cst_23 : StableHlo.TRef sig ⟨S_, .f32⟩) main_call6.v0 id,
    StableHlo.TRef.ternary (.of main_v76 : StableHlo.TRef sig ⟨S_, .i1⟩) (.of main_v75 : StableHlo.TRef sig ⟨S_, .f32⟩) main_call6.v0 main_call6.v1 select ]

set_option maxRecDepth 8192 in
set_option maxHeartbeats 4000000 in

theorem main_eq (c : Dev nD) : main (F := F) c = StableHlo.seq ops := by
  simp only [main, main_part0, main_part1, fn_norm.body, fn_clip.body, fn_where.body, fn_relu.body, fn_where_0.body,
    fn_where_1.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in

theorem ops_sub : (ops : List (HloOp τ sig (Elt F))).Forall fun op => op.bufs ⊆ StableHlo.tcRefs τ sig :=
  ⟨StableHlo.nullary_bufs_sub .., StableHlo.reshape_bufs_sub .., StableHlo.reshape_bufs_sub .., StableHlo.nullary_bufs_sub .., StableHlo.unary_bufs_sub .., StableHlo.binary_bufs_sub ..,
    StableHlo.binary_bufs_sub .., StableHlo.nullary_bufs_sub .., StableHlo.binary_bufs_sub .., StableHlo.unary_bufs_sub .., StableHlo.unary_bufs_sub .., StableHlo.nullary_bufs_sub ..,
    StableHlo.unary_bufs_sub .., StableHlo.binary_bufs_sub .., StableHlo.unary_bufs_sub .., StableHlo.binary_bufs_sub .., StableHlo.unary_bufs_sub .., StableHlo.binary_bufs_sub ..,
    StableHlo.nullary_bufs_sub .., StableHlo.nullary_bufs_sub .., StableHlo.unary_bufs_sub .., StableHlo.unary_bufs_sub .., StableHlo.binary_bufs_sub .., StableHlo.unary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nullary_bufs_sub ..,
    StableHlo.binary_bufs_sub .., StableHlo.binary_bufs_sub .., StableHlo.unary_bufs_sub .., StableHlo.unary_bufs_sub .., StableHlo.unary_bufs_sub .., StableHlo.unary_bufs_sub ..,
    StableHlo.binary_bufs_sub .., StableHlo.nullary_bufs_sub .., StableHlo.nullary_bufs_sub .., StableHlo.nullary_bufs_sub .., StableHlo.unary_bufs_sub .., StableHlo.binary_bufs_sub ..,
    StableHlo.binary_bufs_sub .., StableHlo.unary_bufs_sub .., StableHlo.unary_bufs_sub .., StableHlo.binary_bufs_sub .., StableHlo.unary_bufs_sub .., StableHlo.binary_bufs_sub ..,
    StableHlo.unary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.unary_bufs_sub ..,
    StableHlo.unary_bufs_sub .., StableHlo.unary_bufs_sub .., StableHlo.binary_bufs_sub .., StableHlo.binary_bufs_sub .., StableHlo.unary_bufs_sub .., StableHlo.unary_bufs_sub ..,
    StableHlo.binary_bufs_sub .., StableHlo.nullary_bufs_sub .., StableHlo.binary_bufs_sub .., StableHlo.nullary_bufs_sub .., StableHlo.binary_bufs_sub .., StableHlo.binary_bufs_sub ..,
    StableHlo.binary_bufs_sub .., StableHlo.nullary_bufs_sub .., StableHlo.unary_bufs_sub .., StableHlo.unary_bufs_sub .., StableHlo.ternary_bufs_sub .., StableHlo.nullary_bufs_sub ..,
    StableHlo.binary_bufs_sub .., StableHlo.nullary_bufs_sub .., StableHlo.unary_bufs_sub .., StableHlo.unary_bufs_sub .., StableHlo.ternary_bufs_sub .., StableHlo.nullary_bufs_sub ..,
    StableHlo.binary_bufs_sub .., StableHlo.nullary_bufs_sub .., StableHlo.unary_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.unary_bufs_sub .., StableHlo.ternary_bufs_sub ..,
    StableHlo.unary_bufs_sub .., StableHlo.nullary_bufs_sub .., StableHlo.binary_bufs_sub .., StableHlo.nullary_bufs_sub .., StableHlo.binary_bufs_sub .., StableHlo.nullary_bufs_sub ..,
    StableHlo.binary_bufs_sub .., StableHlo.unary_bufs_sub .., StableHlo.binary_bufs_sub .., StableHlo.nullary_bufs_sub .., StableHlo.binary_bufs_sub .., StableHlo.nullary_bufs_sub ..,
    StableHlo.unary_bufs_sub .., StableHlo.ternary_bufs_sub ..⟩

set_option maxRecDepth 8192 in
set_option maxHeartbeats 4000000 in

theorem arg0_eq (V : Valuation τ sig (Elt F)) :
    StableHlo.after ops V (Proc.devRef .tc main_arg0) = V (Proc.devRef .tc main_arg0) := by
  after_results_simp

set_option maxRecDepth 8192 in
set_option maxHeartbeats 4000000 in

theorem arg1_eq (V : Valuation τ sig (Elt F)) :
    StableHlo.after ops V (Proc.devRef .tc main_arg1) = V (Proc.devRef .tc main_arg1) := by
  after_results_simp

set_option maxRecDepth 8192 in
set_option maxHeartbeats 4000000 in

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v77) = StableHlo.after ops (fun b => m (c, b)) (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c main_v77, (h c main_arg0).trans (arg0_eq _), (h c main_arg1).trans (arg1_eq _)⟩)
    (StableHlo.run_seq scopedRefs_eq scopedSems_eq defs main (fun _ => ops) main_eq (fun _ => ops_sub) m ρ)

theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.ReferenceIdeal.Hand

end
-- ==== Proof.KIHead.lean ====
import proofs.«429954_j35948876268191_2_alg».proof.KernelIdeal
import Idealize.ShloMosaic.Lib.ValueIdx
import Idealize.ShloMosaic.Lib.IdealHost
import Idealize.ShloMosaic.Lib.Pipeline.Value
import Idealize.ShloMosaic.Lib.StackMember
import Idealize.ShloMosaic.Lib.Affine
import Idealize.ShloMosaic.PureOps.Ideal.Laws

noncomputable section

namespace Cert.KernelIdeal.Hand

variable [Cert.KernelIdeal.Facts]

open Cert.KernelIdeal Cert.KernelIdeal.Facts₀
open Idealize.ShloMosaic Idealize.ShloMosaic.ValueIdx
open scoped BigOperators

def stage_v0 (x : (⟨S16x512x256, .f32⟩ : BufTy).Contents (Elt Ideal)) : (⟨S8192x256, .f32⟩ : BufTy).Contents (Elt Ideal) :=
  shapeCast S8192x256 x shapeCasts_S16x512x256_S8192x256

def stage_v4 (x : (⟨S16x512x256, .f32⟩ : BufTy).Contents (Elt Ideal)) : (⟨S8192x1, .f32⟩ : BufTy).Contents (Elt Ideal) :=
  Host.sqrt (F := Ideal) (broadcastInDim S8192x1 ![0] bcast_S8192_S8192x1_0
    (Host.reduceAdd (F := Ideal) (mulf (F := Ideal) (stage_v0 x) (stage_v0 x)) (constant (F := Ideal) S_ .f32 0x00000000#32)
      reducesTo_S8192x256_S8192_d1 h_S_))

def stage_v8 (x : (⟨S16x512x256, .f32⟩ : BufTy).Contents (Elt Ideal)) : (⟨S8192x256, .f32⟩ : BufTy).Contents (Elt Ideal) :=
  Host.divf (F := Ideal) (stage_v0 x)
    (broadcastInDim S8192x256 ![0, 1] bcast_S8192x1_S8192x256_0_1
      (maximumf (F := Ideal) (stage_v4 x)
        (broadcastInDim S8192x1 ![] bcast_S_S8192x1 (constant (F := Ideal) S_ .f32 0x2B8CBCCC#32))))

def stage_v9 (x : (⟨S16x512x256, .f32⟩ : BufTy).Contents (Elt Ideal)) : (⟨S8192x256, .bf16⟩ : BufTy).Contents (Elt Ideal) :=
  truncf (F := Ideal) .bf16 (stage_v8 x) bitsLt_bf16_f32

theorem v9_eq_v8 (x : (⟨S16x512x256, .f32⟩ : BufTy).Contents (Elt Ideal)) :
    (stage_v9 x : S8192x256.Idx → EReal) = stage_v8 x := rfl

theorem col_apply {α : Type} (v : S8192.Idx → α) (i : Fin 8192) (z : Fin 1) :
    broadcastInDim S8192x1 ![0] bcast_S8192_S8192x1_0 v (ix2 i z) = v (ix1 i) :=
  broadcastInDim_apply _ _ v (ix2 i z) (ix1 i) (fun a => by match a with | ⟨0, _⟩ => rfl)

theorem spread13_apply {α : Type} (v : S8192x1.Idx → α) (i : Fin 8192) (c : Fin 13) :
    broadcastInDim S8192x13 ![0, 1] bcast_S8192x1_S8192x13_0_1 v (ix2 i c) = v (ix2 i (0 : Fin 1)) :=
  broadcastInDim_apply _ _ v (ix2 i c) (ix2 i (0 : Fin 1)) (fun a => by match a with | ⟨0, _⟩ => rfl | ⟨1, _⟩ => rfl)

theorem rows13_apply {α : Type} (v : S1x13.Idx → α) (i : Fin 8192) (c : Fin 13) :
    broadcastInDim S8192x13 ![0, 1] bcast_S1x13_S8192x13_0_1 v (ix2 i c) = v (ix2 (0 : Fin 1) c) :=
  broadcastInDim_apply _ _ v (ix2 i c) (ix2 (0 : Fin 1) c) (fun a => by match a with | ⟨0, _⟩ => rfl | ⟨1, _⟩ => rfl)

theorem uitofp_bit (b : BitVec 1) : FloatOps.uitofp (F := Ideal) .f32 b = if b = 1#1 then (1 : EReal) else 0 := by
  rcases BitVec.eq_zero_or_eq_one b with h | h <;> subst h
  · show (((0#1 : BitVec 1).toNat : ℝ) : EReal) = _
    simp
  · show (((1#1 : BitVec 1).toNat : ℝ) : EReal) = _
    simp

theorem clamp_range (l : BitVec 32) :
    0 ≤ (IntOp.minsi 12#32 (IntOp.maxsi 0#32 l)).toInt ∧ (IntOp.minsi 12#32 (IntOp.maxsi 0#32 l)).toInt ≤ 12 := by
  have h12 : (12#32 : BitVec 32).toInt = 12 := by decide
  have h0 : (0#32 : BitVec 32).toInt = 0 := by decide
  unfold IntOp.maxsi
  by_cases h1 : l.slt 0#32 = true
  · rw [if_pos h1]; decide
  · rw [if_neg h1]
    unfold IntOp.minsi
    by_cases h2 : (12#32 : BitVec 32).slt l = true
    · rw [if_pos h2]; decide
    · rw [if_neg h2]
      rw [BitVec.slt_iff_toInt_lt, h0] at h1
      rw [BitVec.slt_iff_toInt_lt, h12] at h2
      omega

theorem clamp_of_range (l : BitVec 32) (h : 0 ≤ l.toInt ∧ l.toInt ≤ 12) :
    IntOp.minsi 12#32 (IntOp.maxsi 0#32 l) = l := by
  have h12 : (12#32 : BitVec 32).toInt = 12 := by decide
  have h0 : (0#32 : BitVec 32).toInt = 0 := by decide
  have h1 : ¬ l.slt 0#32 = true := by rw [BitVec.slt_iff_toInt_lt, h0]; omega
  have h2 : ¬ (12#32 : BitVec 32).slt l = true := by rw [BitVec.slt_iff_toInt_lt, h12]; omega
  unfold IntOp.maxsi
  rw [if_neg h1]
  unfold IntOp.minsi
  rw [if_neg h2]

def stage_v3 (lb : (⟨S8192, .i32⟩ : BufTy).Contents (Elt Ideal)) : (⟨S8192, .i1⟩ : BufTy).Contents (Elt Ideal) :=
  cmpi .ne lb (broadcastInDim S8192 ![] bcast_S_S8192 (constantI S_ 32 4294967196#32))

theorem v3_apply (lb : (⟨S8192, .i32⟩ : BufTy).Contents (Elt Ideal)) (i : Fin 8192) :
    stage_v3 lb (ix1 i) = 1#1 ↔ lb (ix1 i) ≠ 4294967196#32 := by
  show IntOp.cmpi .ne (lb (ix1 i)) 4294967196#32 = 1#1 ↔ _
  exact IntOp.cmpi_ne

def stage_v10 (lb : (⟨S8192, .i32⟩ : BufTy).Contents (Elt Ideal)) : (⟨S8192, .i32⟩ : BufTy).Contents (Elt Ideal) :=
  minsi (broadcastInDim S8192 ![] bcast_S_S8192 (id (constantI S_ 32 12#32)))
    (maxsi (broadcastInDim S8192 ![] bcast_S_S8192 (id (constantI S_ 32 0#32))) lb)

theorem v10_apply (lb : (⟨S8192, .i32⟩ : BufTy).Contents (Elt Ideal)) (i : Fin 8192) :
    stage_v10 lb (ix1 i) = IntOp.minsi 12#32 (IntOp.maxsi 0#32 (lb (ix1 i))) := rfl

theorem v10_range (lb : (⟨S8192, .i32⟩ : BufTy).Contents (Elt Ideal)) (i : Fin 8192) :
    0 ≤ (stage_v10 lb (ix1 i)).toInt ∧ (stage_v10 lb (ix1 i)).toInt ≤ 12 := by
  rw [v10_apply]; exact clamp_range _

theorem v10_of_range (lb : (⟨S8192, .i32⟩ : BufTy).Contents (Elt Ideal)) (i : Fin 8192)
    (h : 0 ≤ (lb (ix1 i)).toInt ∧ (lb (ix1 i)).toInt ≤ 12) : stage_v10 lb (ix1 i) = lb (ix1 i) := by
  rw [v10_apply]; exact clamp_of_range _ h

def stage_v11 (lb : (⟨S8192, .i32⟩ : BufTy).Contents (Elt Ideal)) : (⟨S8192x13, .f32⟩ : BufTy).Contents (Elt Ideal) :=
  uitofp (F := Ideal) .f32 (cmpi .eq
    (broadcastInDim S8192x13 ![0, 1] bcast_S8192x1_S8192x13_0_1
      (broadcastInDim S8192x1 ![0] bcast_S8192_S8192x1_0 (stage_v10 lb)))
    (broadcastInDim S8192x13 ![0, 1] bcast_S1x13_S8192x13_0_1 (iotaInDim S1x13 32 1)))

theorem v11_apply (lb : (⟨S8192, .i32⟩ : BufTy).Contents (Elt Ideal)) (i : Fin 8192) (c : Fin 13) :
    stage_v11 lb (ix2 i c) = if stage_v10 lb (ix1 i) = BitVec.ofNat 32 c.val then 1 else 0 := by
  have e1 : broadcastInDim S8192x13 ![0, 1] bcast_S8192x1_S8192x13_0_1
      (broadcastInDim S8192x1 ![0] bcast_S8192_S8192x1_0 (stage_v10 lb)) (ix2 i c) = stage_v10 lb (ix1 i) :=
    (spread13_apply _ i c).trans (col_apply _ i 0)
  have e2 : broadcastInDim S8192x13 ![0, 1] bcast_S1x13_S8192x13_0_1 (iotaInDim S1x13 32 1) (ix2 i c)
      = BitVec.ofNat 32 c.val := rows13_apply _ i c
  show FloatOps.uitofp (F := Ideal) .f32 (IntOp.cmpi .eq
      (broadcastInDim S8192x13 ![0, 1] bcast_S8192x1_S8192x13_0_1
        (broadcastInDim S8192x1 ![0] bcast_S8192_S8192x1_0 (stage_v10 lb)) (ix2 i c))
      (broadcastInDim S8192x13 ![0, 1] bcast_S1x13_S8192x13_0_1 (iotaInDim S1x13 32 1) (ix2 i c))) = _
  rw [e1, e2, uitofp_bit]
  by_cases h : stage_v10 lb (ix1 i) = BitVec.ofNat 32 c.val
  · rw [if_pos h, if_pos (IntOp.cmpi_eq.2 h)]
  · rw [if_neg h, if_neg (fun h' => h (IntOp.cmpi_eq.1 h'))]

def stage_v12 (lb : (⟨S8192, .i32⟩ : BufTy).Contents (Elt Ideal)) : (⟨S8192x13, .f32⟩ : BufTy).Contents (Elt Ideal) :=
  Host.dotGeneral (F := Ideal) (φ₁ := .f32) (φ₂ := .f32) dot_S8192x13_S13x13_S8192x13_1_0_0_1_n_n none (stage_v11 lb)
    (fun i => FloatOps.ofBits .f32 (lit0 (S13x13.rowMajor i)))

theorem v12_apply (lb : (⟨S8192, .i32⟩ : BufTy).Contents (Elt Ideal)) (i : Fin 8192) (c : Fin 13) :
    stage_v12 lb (ix2 i c)
      = ∑ c' : Fin 13, stage_v11 lb (ix2 i c') * Ideal.ofBits .f32 (lit0 (S13x13.rowMajor (ix2 c' c))) := by
  have hd : dot_S8192x13_S13x13_S8192x13_1_0_0_1_n_n = DotDims.plain 8192 13 13 := rfl
  unfold stage_v12
  rw [hd]
  exact StackMember.dotGeneral_plain_apply none (stage_v11 lb) (fun i => FloatOps.ofBits (F := Ideal) .f32 (lit0 (S13x13.rowMajor i))) i c

def stage_v13 (lb : (⟨S8192, .i32⟩ : BufTy).Contents (Elt Ideal)) : (⟨S8192, .f32⟩ : BufTy).Contents (Elt Ideal) :=
  Host.reduceAdd (F := Ideal) (stage_v12 lb) (constant (F := Ideal) S_ .f32 0x00000000#32) reducesTo_S8192x13_S8192_d1 h_S_

theorem v13_apply (lb : (⟨S8192, .i32⟩ : BufTy).Contents (Elt Ideal)) (i : Fin 8192) :
    stage_v13 lb (ix1 i) = ∑ c : Fin 13, stage_v12 lb (ix2 i c) := by
  have hR : S8192x13.Reduces [1] S8192 := by decide
  show Ideal.hostReduceAdd reducesTo_S8192x13_S8192_d1 (stage_v12 lb) (Ideal.ofBits .f32 0x00000000#32) (ix1 i) = _
  refine (Ideal.hostReduceAdd_single reducesTo_S8192x13_S8192_d1 hR (stage_v12 lb) _ (ix1 i)).trans ?_
  rw [Ideal.ofBits_zero_f32, zero_add]
  refine Finset.sum_congr rfl fun k _ => congrArg (stage_v12 lb) ?_
  funext a
  match a with
  | ⟨0, _⟩ => rfl
  | ⟨1, _⟩ => rfl

def stage_v16 (lb : (⟨S8192, .i32⟩ : BufTy).Contents (Elt Ideal)) : (⟨S8192, .i1⟩ : BufTy).Contents (Elt Ideal) :=
  andi (stage_v3 lb)
    (cmpf (F := Ideal) .ogt (stage_v13 lb)
      (broadcastInDim S8192 ![] bcast_S_S8192 (constant (F := Ideal) S_ .f32 0x00000000#32)))

theorem v16_apply (lb : (⟨S8192, .i32⟩ : BufTy).Contents (Elt Ideal)) (i : Fin 8192) :
    stage_v16 lb (ix1 i) = 1#1 ↔ (lb (ix1 i) ≠ 4294967196#32 ∧ 0 < ∑ c : Fin 13, stage_v12 lb (ix2 i c)) := by
  show IntOp.andi (stage_v3 lb (ix1 i)) (Ideal.cmp .ogt (stage_v13 lb (ix1 i)) (Ideal.ofBits .f32 0x00000000#32)) = 1#1 ↔ _
  rw [IntOp.andi_eq_one, v3_apply, v13_apply, Ideal.ofBits_zero_f32]
  refine and_congr Iff.rfl ?_
  unfold Ideal.cmp
  by_cases h : (0 : EReal) < ∑ c : Fin 13, stage_v12 lb (ix2 i c)
  · simp [h]
  · simp [h]

def stage_v19 (lb : (⟨S8192, .i32⟩ : BufTy).Contents (Elt Ideal)) : (⟨S8192x13, .f32⟩ : BufTy).Contents (Elt Ideal) :=
  addf (F := Ideal) (stage_v11 lb)
    (mulf (F := Ideal) (broadcastInDim S8192x13 ![] bcast_S_S8192x13 (constant (F := Ideal) S_ .f32 0x40000000#32)) (stage_v12 lb))

def stage_v20 (lb : (⟨S8192, .i32⟩ : BufTy).Contents (Elt Ideal)) : (⟨S8192x13, .bf16⟩ : BufTy).Contents (Elt Ideal) :=
  truncf (F := Ideal) .bf16 (stage_v19 lb) bitsLt_bf16_f32

theorem v20_apply (lb : (⟨S8192, .i32⟩ : BufTy).Contents (Elt Ideal)) (i : Fin 8192) (c : Fin 13) :
    (stage_v20 lb (ix2 i c) : EReal)
      = stage_v11 lb (ix2 i c) + Ideal.ofBits .f32 0x40000000#32 * stage_v12 lb (ix2 i c) := rfl

def stage_v21 (lb : (⟨S8192, .i32⟩ : BufTy).Contents (Elt Ideal)) : (⟨S8192x13, .bf16⟩ : BufTy).Contents (Elt Ideal) :=
  truncf (F := Ideal) .bf16 (stage_v11 lb) bitsLt_bf16_f32

theorem v21_apply (lb : (⟨S8192, .i32⟩ : BufTy).Contents (Elt Ideal)) (i : Fin 8192) (c : Fin 13) :
    (stage_v21 lb (ix2 i c) : EReal) = stage_v11 lb (ix2 i c) := rfl

def stage_v23 (lb : (⟨S8192, .i32⟩ : BufTy).Contents (Elt Ideal)) : (⟨S1x8192, .f32⟩ : BufTy).Contents (Elt Ideal) :=
  shapeCast S1x8192 (uitofp (F := Ideal) .f32 (stage_v3 lb)) shapeCasts_S8192_S1x8192

theorem v23_apply (lb : (⟨S8192, .i32⟩ : BufTy).Contents (Elt Ideal)) (j : Fin 8192) :
    stage_v23 lb (ix2 (0 : Fin 1) j) = if lb (ix1 j) ≠ 4294967196#32 then 1 else 0 := by
  refine (shapeCast_apply (uitofp (F := Ideal) .f32 (stage_v3 lb)) shapeCasts_S8192_S1x8192 (ix2 (0 : Fin 1) j) (ix1 j) ?_).trans ?_
  · rw [Shape.rowMajor_val_one, Shape.rowMajor_val_two]
    show j.val = 0 * 8192 + j.val
    omega
  · show FloatOps.uitofp (F := Ideal) .f32 (stage_v3 lb (ix1 j)) = _
    rw [uitofp_bit]
    by_cases h : lb (ix1 j) ≠ 4294967196#32
    · rw [if_pos h, if_pos ((v3_apply lb j).2 h)]
    · rw [if_neg h, if_neg (fun h' => h ((v3_apply lb j).1 h'))]

end Cert.KernelIdeal.Hand

end
-- ==== Proof.RefHead.lean ====
import proofs.«429954_j35948876268191_2_alg».proof.ReferenceIdeal
import Idealize.ShloMosaic.Lib.ValueIdx
import Idealize.ShloMosaic.Lib.Pipeline.Value
import Idealize.ShloMosaic.PureOps.Ideal.Laws
import Idealize.ShloMosaic.PureOps.Reduce
import Idealize.ShloMosaic.Lib.Affine

noncomputable section

namespace Cert.ReferenceIdeal.Hand

open Idealize.ShloMosaic Idealize.ShloMosaic.ValueIdx
open Cert.ReferenceIdeal Cert.ReferenceIdeal.Facts₀

variable [Cert.ReferenceIdeal.Facts]

def stage_v8 (x : (⟨S16x512x256, .f32⟩ : BufTy).Contents (Elt Ideal)) :
    (⟨S8192x256, .f32⟩ : BufTy).Contents (Elt Ideal) :=
  Host.divf (F := Ideal) (shapeCast S8192x256 x shapeCasts_S16x512x256_S8192x256)
    (broadcastInDim S8192x256 ![0, 1] bcast_S8192x1_S8192x256_0_1
      (maximumf (F := Ideal)
        (Host.sqrt (F := Ideal)
          (broadcastInDim S8192x1 ![0] bcast_S8192_S8192x1_0
            (Host.reduceAdd (F := Ideal)
              (mulf (F := Ideal) (shapeCast S8192x256 x shapeCasts_S16x512x256_S8192x256)
                (shapeCast S8192x256 x shapeCasts_S16x512x256_S8192x256))
              (constant (F := Ideal) S_ .f32 0x00000000#32) reducesTo_S8192x256_S8192_d1 h_S_)))
        (broadcastInDim S8192x1 ![] bcast_S_S8192x1 (constant (F := Ideal) S_ .f32 0x2B8CBCCC#32))))

def stage_v10 (e : (⟨S8192x256, .f32⟩ : BufTy).Contents (Elt Ideal)) :
    (⟨S8192x8192, .f32⟩ : BufTy).Contents (Elt Ideal) :=
  Host.dotGeneral (F := Ideal) (φ₁ := .f32) (φ₂ := .f32) dot_S8192x256_S256x8192_S8192x8192_1_0_0_1_n_n none e
    (transpose S256x8192 [1, 0] e transposes_S8192x256_S256x8192_1_0)

theorem lhs_sim_0 (i : S8192x8192.Idx) (q : dot_S8192x256_S256x8192_S8192x8192_1_0_0_1_n_n.contr.Idx) :
    (dot_S8192x256_S256x8192_S8192x8192_1_0_0_1_n_n.lhsIdx i q 0).val = (i 0).val := by
  unfold DotDims.lhsIdx
  rw [dif_neg (show ¬(0 : Fin S8192x256.rank) ∈ dot_S8192x256_S256x8192_S8192x8192_1_0_0_1_n_n.lhsBatch from List.not_mem_nil),
    dif_pos (show (0 : Fin S8192x256.rank) ∈ dot_S8192x256_S256x8192_S8192x8192_1_0_0_1_n_n.lhsNonContracting from List.mem_singleton.mpr rfl)]
  rfl

theorem lhs_sim_1 (i : S8192x8192.Idx) (q : dot_S8192x256_S256x8192_S8192x8192_1_0_0_1_n_n.contr.Idx) :
    (dot_S8192x256_S256x8192_S8192x8192_1_0_0_1_n_n.lhsIdx i q 1).val = (q ⟨0, Nat.one_pos⟩).val :=
  dot_S8192x256_S256x8192_S8192x8192_1_0_0_1_n_n.lhsIdx_val_of_single rfl i q

theorem rhs_sim_0 (i : S8192x8192.Idx) (q : dot_S8192x256_S256x8192_S8192x8192_1_0_0_1_n_n.contr.Idx) :
    (dot_S8192x256_S256x8192_S8192x8192_1_0_0_1_n_n.rhsIdx i q 0).val = (q ⟨0, Nat.one_pos⟩).val :=
  dot_S8192x256_S256x8192_S8192x8192_1_0_0_1_n_n.rhsIdx_val_of_single rfl i q

theorem rhs_sim_1 (i : S8192x8192.Idx) (q : dot_S8192x256_S256x8192_S8192x8192_1_0_0_1_n_n.contr.Idx) :
    (dot_S8192x256_S256x8192_S8192x8192_1_0_0_1_n_n.rhsIdx i q 1).val = (i 1).val := by
  unfold DotDims.rhsIdx
  rw [dif_neg (show ¬(1 : Fin S256x8192.rank) ∈ dot_S8192x256_S256x8192_S8192x8192_1_0_0_1_n_n.rhsBatch from List.not_mem_nil),
    dif_pos (show (1 : Fin S256x8192.rank) ∈ dot_S8192x256_S256x8192_S8192x8192_1_0_0_1_n_n.rhsNonContracting from List.mem_singleton.mpr rfl)]
  rfl

theorem transpose_rows_apply (e : (⟨S8192x256, .f32⟩ : BufTy).Contents (Elt Ideal)) (k : Fin 256) (j : Fin 8192) :
    transpose S256x8192 [1, 0] e transposes_S8192x256_S256x8192_1_0 (ix2 k j) = e (ix2 j k) :=
  transpose_apply [1, 0] e transposes_S8192x256_S256x8192_1_0 (ix2 k j) (ix2 j k)
    (fun b => match b with
      | ⟨0, _⟩ => rfl
      | ⟨1, _⟩ => rfl)

theorem v10_apply (e : (⟨S8192x256, .f32⟩ : BufTy).Contents (Elt Ideal)) (i j : Fin 8192) :
    stage_v10 e (ix2 i j) = ∑ k : Fin 256, e (ix2 i k) * e (ix2 j k) := by
  unfold stage_v10
  simp only [Host.dotGeneral]
  rw [Ideal.dotGeneral_apply,
    ← Equiv.sum_comp (contrEquiv1 dot_S8192x256_S256x8192_S8192x8192_1_0_0_1_n_n 256 rfl rfl).symm]
  refine Finset.sum_congr rfl fun k _ => ?_
  have hk := contrEquiv1_symm_val dot_S8192x256_S256x8192_S8192x8192_1_0_0_1_n_n 256 rfl rfl k
  have el : dot_S8192x256_S256x8192_S8192x8192_1_0_0_1_n_n.lhsIdx (ix2 i j)
      ((contrEquiv1 dot_S8192x256_S256x8192_S8192x8192_1_0_0_1_n_n 256 rfl rfl).symm k) = ix2 i k :=
    funext fun a => Fin.ext (by
      match a with
      | ⟨0, _⟩ => exact lhs_sim_0 _ _
      | ⟨1, _⟩ => exact (lhs_sim_1 _ _).trans hk)
  have er : dot_S8192x256_S256x8192_S8192x8192_1_0_0_1_n_n.rhsIdx (ix2 i j)
      ((contrEquiv1 dot_S8192x256_S256x8192_S8192x8192_1_0_0_1_n_n 256 rfl rfl).symm k) = ix2 k j :=
    funext fun a => Fin.ext (by
      match a with
      | ⟨0, _⟩ => exact (rhs_sim_0 _ _).trans hk
      | ⟨1, _⟩ => exact rhs_sim_1 _ _)
  rw [el, er, transpose_rows_apply]

theorem clamp_range (l : BitVec 32) :
    0 ≤ (IntOp.minsi 12#32 (IntOp.maxsi 0#32 l)).toInt ∧ (IntOp.minsi 12#32 (IntOp.maxsi 0#32 l)).toInt ≤ 12 := by
  have h0 : (0#32 : BitVec 32).toInt = 0 := by decide
  have h12 : (12#32 : BitVec 32).toInt = 12 := by decide
  unfold IntOp.minsi IntOp.maxsi
  by_cases h1 : l.slt 0#32 = true
  · rw [if_pos h1, if_neg (by decide : ¬(12#32 : BitVec 32).slt 0#32 = true), h0]
    omega
  · rw [if_neg h1]
    have hl : 0 ≤ l.toInt := by
      rw [BitVec.slt_iff_toInt_lt, h0] at h1; omega
    by_cases h2 : (12#32 : BitVec 32).slt l = true
    · rw [if_pos h2, h12]; omega
    · rw [if_neg h2]
      rw [BitVec.slt_iff_toInt_lt, h12] at h2
      exact ⟨hl, by omega⟩

theorem clamp_of_range (l : BitVec 32) (h : 0 ≤ l.toInt ∧ l.toInt ≤ 12) :
    IntOp.minsi 12#32 (IntOp.maxsi 0#32 l) = l := by
  have h0 : (0#32 : BitVec 32).toInt = 0 := by decide
  have h12 : (12#32 : BitVec 32).toInt = 12 := by decide
  have h1 : ¬l.slt 0#32 = true := by rw [BitVec.slt_iff_toInt_lt, h0]; omega
  have h2 : ¬(12#32 : BitVec 32).slt l = true := by rw [BitVec.slt_iff_toInt_lt, h12]; omega
  unfold IntOp.minsi IntOp.maxsi
  rw [if_neg h1, if_neg h2]

theorem wrap_of_nonneg (c : BitVec 32) (h : 0 ≤ c.toInt) :
    Scalar.select (IntOp.cmpi .slt c 0#32) (IntOp.addi c 13#32) c = c := by
  have h0 : (0#32 : BitVec 32).toInt = 0 := by decide
  have hn : ¬IntOp.cmpi .slt c 0#32 = 1#1 := by rw [IntOp.cmpi_slt, h0]; omega
  rw [eq_zero_of_ne_one hn]
  exact select_zero _ _

theorem pos_word_eq_iff (i j : Fin 8192) :
    IntOp.addi (BitVec.ofNat 32 i.val) 0#32 = BitVec.ofNat 32 j.val ↔ i = j := by
  have hi := i.isLt
  have hj := j.isLt
  unfold IntOp.addi
  rw [BitVec.add_zero]
  constructor
  · intro h
    have := congrArg BitVec.toNat h
    simp only [BitVec.toNat_ofNat] at this
    exact Fin.ext (by omega)
  · intro h; rw [h]

section Spread
variable {α : Type}

theorem col1_apply (v : S8192.Idx → α) (i : Fin 8192) :
    broadcastInDim S8192x1 ![0] bcast_S8192_S8192x1_0 v (ix2 i (0 : Fin 1)) = v (ix1 i) :=
  broadcastInDim_apply (s := S8192) (t := S8192x1) ![0] bcast_S8192_S8192x1_0 v (ix2 i (0 : Fin 1)) (ix1 i)
    (fun a => match a with
      | ⟨0, _⟩ => by show i.val = if (8192 : Nat) = 1 then 0 else i.val; rw [if_neg (by decide)])

theorem row1_apply (v : S8192.Idx → α) (j : Fin 8192) :
    broadcastInDim S1x8192 ![1] bcast_S8192_S1x8192_1 v (ix2 (0 : Fin 1) j) = v (ix1 j) :=
  broadcastInDim_apply (s := S8192) (t := S1x8192) ![1] bcast_S8192_S1x8192_1 v (ix2 (0 : Fin 1) j) (ix1 j)
    (fun a => match a with
      | ⟨0, _⟩ => by show j.val = if (8192 : Nat) = 1 then 0 else j.val; rw [if_neg (by decide)])

theorem of_col_apply (w : S8192x1.Idx → α) (i j : Fin 8192) :
    broadcastInDim S8192x8192 ![0, 1] bcast_S8192x1_S8192x8192_0_1 w (ix2 i j) = w (ix2 i (0 : Fin 1)) :=
  broadcastInDim_apply (s := S8192x1) (t := S8192x8192) ![0, 1] bcast_S8192x1_S8192x8192_0_1 w (ix2 i j) (ix2 i (0 : Fin 1))
    (fun a => match a with
      | ⟨0, _⟩ => by show i.val = if (8192 : Nat) = 1 then 0 else i.val; rw [if_neg (by decide)]
      | ⟨1, _⟩ => by show (0 : Nat) = if (1 : Nat) = 1 then 0 else j.val; rw [if_pos rfl])

theorem of_row_apply (w : S1x8192.Idx → α) (i j : Fin 8192) :
    broadcastInDim S8192x8192 ![0, 1] bcast_S1x8192_S8192x8192_0_1 w (ix2 i j) = w (ix2 (0 : Fin 1) j) :=
  broadcastInDim_apply (s := S1x8192) (t := S8192x8192) ![0, 1] bcast_S1x8192_S8192x8192_0_1 w (ix2 i j) (ix2 (0 : Fin 1) j)
    (fun a => match a with
      | ⟨0, _⟩ => by show (0 : Nat) = if (1 : Nat) = 1 then 0 else i.val; rw [if_pos rfl]
      | ⟨1, _⟩ => by show j.val = if (8192 : Nat) = 1 then 0 else j.val; rw [if_neg (by decide)])

theorem col_apply (v : S8192.Idx → α) (i j : Fin 8192) :
    broadcastInDim S8192x8192 ![0, 1] bcast_S8192x1_S8192x8192_0_1
      (broadcastInDim S8192x1 ![0] bcast_S8192_S8192x1_0 v) (ix2 i j) = v (ix1 i) :=
  (of_col_apply _ i j).trans (col1_apply v i)

theorem row_apply (v : S8192.Idx → α) (i j : Fin 8192) :
    broadcastInDim S8192x8192 ![0, 1] bcast_S1x8192_S8192x8192_0_1
      (broadcastInDim S1x8192 ![1] bcast_S8192_S1x8192_1 v) (ix2 i j) = v (ix1 j) :=
  (of_row_apply _ i j).trans (row1_apply v j)

end Spread

def stage_v3 (lb : (⟨S8192, .i32⟩ : BufTy).Contents (Elt Ideal)) : (⟨S8192, .i1⟩ : BufTy).Contents (Elt Ideal) :=
  cmpi .ne lb (broadcastInDim S8192 ![] bcast_S_S8192 (constantI S_ 32 4294967196#32))

theorem v3_apply (lb : (⟨S8192, .i32⟩ : BufTy).Contents (Elt Ideal)) (i : Fin 8192) :
    stage_v3 lb (ix1 i) = 1#1 ↔ lb (ix1 i) ≠ 4294967196#32 := by
  show IntOp.cmpi .ne (lb (ix1 i)) 4294967196#32 = 1#1 ↔ _
  exact IntOp.cmpi_ne

def stage_v11 (lb : (⟨S8192, .i32⟩ : BufTy).Contents (Elt Ideal)) : (⟨S8192, .i32⟩ : BufTy).Contents (Elt Ideal) :=
  minsi (broadcastInDim S8192 ![] bcast_S_S8192 (id (constantI S_ 32 12#32)))
    (maxsi (broadcastInDim S8192 ![] bcast_S_S8192 (id (constantI S_ 32 0#32))) lb)

theorem v11_apply (lb : (⟨S8192, .i32⟩ : BufTy).Contents (Elt Ideal)) (i : Fin 8192) :
    stage_v11 lb (ix1 i) = IntOp.minsi 12#32 (IntOp.maxsi 0#32 (lb (ix1 i))) := rfl

theorem v11_range (lb : (⟨S8192, .i32⟩ : BufTy).Contents (Elt Ideal)) (i : Fin 8192) :
    0 ≤ (stage_v11 lb (ix1 i)).toInt ∧ (stage_v11 lb (ix1 i)).toInt ≤ 12 := by
  rw [v11_apply]; exact clamp_range _

theorem v11_of_range (lb : (⟨S8192, .i32⟩ : BufTy).Contents (Elt Ideal)) (i : Fin 8192)
    (h : 0 ≤ (lb (ix1 i)).toInt ∧ (lb (ix1 i)).toInt ≤ 12) : stage_v11 lb (ix1 i) = lb (ix1 i) := by
  rw [v11_apply]; exact clamp_of_range _ h

def clipIdx (lb : (⟨S8192, .i32⟩ : BufTy).Contents (Elt Ideal)) (i : Fin 8192) : Fin 13 :=
  ⟨(stage_v11 lb (ix1 i)).toInt.toNat, by have := v11_range lb i; omega⟩

theorem clipIdx_val (lb : (⟨S8192, .i32⟩ : BufTy).Contents (Elt Ideal)) (i : Fin 8192) :
    (clipIdx lb i).val = (stage_v11 lb (ix1 i)).toInt.toNat := rfl

def stage_v35 (lb : (⟨S8192, .i32⟩ : BufTy).Contents (Elt Ideal)) : (⟨S8192x8192, .i1⟩ : BufTy).Contents (Elt Ideal) :=
  andi
    (andi
      (cmpi .eq
        (broadcastInDim S8192x8192 ![0, 1] bcast_S8192x1_S8192x8192_0_1
          (broadcastInDim S8192x1 ![0] bcast_S8192_S8192x1_0 lb))
        (broadcastInDim S8192x8192 ![0, 1] bcast_S1x8192_S8192x8192_0_1
          (broadcastInDim S1x8192 ![1] bcast_S8192_S1x8192_1 lb)))
      (broadcastInDim S8192x8192 ![0, 1] bcast_S1x8192_S8192x8192_0_1
        (broadcastInDim S1x8192 ![1] bcast_S8192_S1x8192_1 (stage_v3 lb))))
    (noti
      (cmpi .eq
        (addi (iotaInDim S8192x8192 32 0)
          (broadcastInDim S8192x8192 ![] bcast_S_S8192x8192 (constantI S_ 32 0#32)))
        (iotaInDim S8192x8192 32 1)))

theorem v35_eq (lb : (⟨S8192, .i32⟩ : BufTy).Contents (Elt Ideal)) (i j : Fin 8192) :
    stage_v35 lb (ix2 i j)
      = IntOp.andi (IntOp.andi (IntOp.cmpi .eq (lb (ix1 i)) (lb (ix1 j))) (stage_v3 lb (ix1 j)))
          (~~~(IntOp.cmpi .eq (IntOp.addi (BitVec.ofNat 32 i.val) 0#32) (BitVec.ofNat 32 j.val))) :=
  congrArg₂ IntOp.andi
    (congrArg₂ IntOp.andi (congrArg₂ (IntOp.cmpi .eq) (col_apply lb i j) (row_apply lb i j)) (row_apply (stage_v3 lb) i j))
    rfl

theorem v35_apply (lb : (⟨S8192, .i32⟩ : BufTy).Contents (Elt Ideal)) (i j : Fin 8192) :
    stage_v35 lb (ix2 i j) = 1#1 ↔ (lb (ix1 i) = lb (ix1 j) ∧ lb (ix1 j) ≠ 4294967196#32 ∧ i ≠ j) := by
  rw [v35_eq, IntOp.andi_eq_one, IntOp.andi_eq_one, IntOp.cmpi_eq, v3_apply, IntOp.not_eq_one, IntOp.cmpi_eq,
    pos_word_eq_iff, and_assoc]

section PairGather
variable {α : Type}

theorem lift3_apply (w : S8192x8192.Idx → α) (i j : Fin 8192) :
    broadcastInDim S8192x8192x1 ![0, 1] bcast_S8192x8192_S8192x8192x1_0_1 w (ix3 i j (0 : Fin 1)) = w (ix2 i j) :=
  broadcastInDim_apply (s := S8192x8192) (t := S8192x8192x1) ![0, 1] bcast_S8192x8192_S8192x8192x1_0_1 w
    (ix3 i j (0 : Fin 1)) (ix2 i j)
    (fun a => match a with
      | ⟨0, _⟩ => by show i.val = if (8192 : Nat) = 1 then 0 else i.val; rw [if_neg (by decide)]
      | ⟨1, _⟩ => by show j.val = if (8192 : Nat) = 1 then 0 else j.val; rw [if_neg (by decide)])

theorem pair_left (x₁ x₂ : S8192x8192x1.Idx → α) (i j : Fin 8192) :
    concatenate S8192x8192x2 2 [⟨S8192x8192x1, x₁⟩, ⟨S8192x8192x1, x₂⟩]
        concatenates_S8192x8192x1_S8192x8192x1_S8192x8192x2_d2 (ix3 i j (0 : Fin 2))
      = x₁ (ix3 i j (0 : Fin 1)) :=
  concatenate_pair_apply_left (t := S8192x8192x2) (s₁ := S8192x8192x1) (s₂ := S8192x8192x1) 2 x₁ x₂
    concatenates_S8192x8192x1_S8192x8192x1_S8192x8192x2_d2 (ix3 i j (0 : Fin 2)) rfl (ix3 i j (0 : Fin 1))
    (fun b => match b with
      | ⟨0, _⟩ => rfl
      | ⟨1, _⟩ => rfl
      | ⟨2, _⟩ => rfl)

theorem pair_right (x₁ x₂ : S8192x8192x1.Idx → α) (i j : Fin 8192) :
    concatenate S8192x8192x2 2 [⟨S8192x8192x1, x₁⟩, ⟨S8192x8192x1, x₂⟩]
        concatenates_S8192x8192x1_S8192x8192x1_S8192x8192x2_d2 (ix3 i j (1 : Fin 2))
      = x₂ (ix3 i j (0 : Fin 1)) :=
  concatenate_pair_apply_right (t := S8192x8192x2) (s₁ := S8192x8192x1) (s₂ := S8192x8192x1) 2 x₁ x₂
    concatenates_S8192x8192x1_S8192x8192x1_S8192x8192x2_d2 (ix3 i j (1 : Fin 2)) rfl rfl (ix3 i j (0 : Fin 1))
    (fun b hb => match b, hb with
      | ⟨0, _⟩, _ => rfl
      | ⟨1, _⟩, _ => rfl
      | ⟨2, _⟩, hb => absurd rfl hb)
    rfl

theorem pair_axis0 (idx : IVec S8192x8192x2 32) (i j : Fin 8192) :
    (gather_S13x13_S8192x8192x2_S8192x8192_n_01_n_n_01_2_11.operandIdx (ix2 i j) idx 0).val = min (idx (ix3 i j (0 : Fin 2))).toInt.toNat 12 := by
  show gather_S13x13_S8192x8192x2_S8192x8192_n_01_n_n_01_2_11.start (ix2 i j) idx 0 + gather_S13x13_S8192x8192x2_S8192x8192_n_01_n_n_01_2_11.batchCoord (ix2 i j) 0 + gather_S13x13_S8192x8192x2_S8192x8192_n_01_n_n_01_2_11.offCoord (ix2 i j) 0 = _
  rw [GatherDims.batchCoord_eq_zero _ _ _
      (show (0 : Fin S13x13.rank) ∉ gather_S13x13_S8192x8192x2_S8192x8192_n_01_n_n_01_2_11.operandBatchingDims from List.not_mem_nil),
    GatherDims.offCoord_eq_zero _ _ _ (fun h => ((GatherDims.mem_sKept _ _).mp h).1
      (show (0 : Fin S13x13.rank) ∈ gather_S13x13_S8192x8192x2_S8192x8192_n_01_n_n_01_2_11.collapsedSliceDims from
        (by decide : (0 : Fin 2) ∈ ([0, 1] : List (Fin 2)))))]
  simp only [Nat.add_zero]
  unfold GatherDims.start
  rw [dif_pos (show (0 : Fin S13x13.rank) ∈ gather_S13x13_S8192x8192x2_S8192x8192_n_01_n_n_01_2_11.startIndexMap from
    (by decide : (0 : Fin 2) ∈ ([0, 1] : List (Fin 2))))]
  have hsi : gather_S13x13_S8192x8192x2_S8192x8192_n_01_n_n_01_2_11.siIdx (ix2 i j) ⟨List.idxOf (0 : Fin S13x13.rank) gather_S13x13_S8192x8192x2_S8192x8192_n_01_n_n_01_2_11.startIndexMap,
      List.idxOf_lt_length_iff.2 (show (0 : Fin S13x13.rank) ∈ gather_S13x13_S8192x8192x2_S8192x8192_n_01_n_n_01_2_11.startIndexMap from
        (by decide : (0 : Fin 2) ∈ ([0, 1] : List (Fin 2))))⟩ = ix3 i j (0 : Fin 2) := by
    funext b; refine Fin.ext ?_
    match b with
    | ⟨0, _⟩ => rfl
    | ⟨1, _⟩ => rfl
    | ⟨2, _⟩ => rfl
  rw [hsi]
  rfl

theorem pair_axis1 (idx : IVec S8192x8192x2 32) (i j : Fin 8192) :
    (gather_S13x13_S8192x8192x2_S8192x8192_n_01_n_n_01_2_11.operandIdx (ix2 i j) idx 1).val = min (idx (ix3 i j (1 : Fin 2))).toInt.toNat 12 := by
  show gather_S13x13_S8192x8192x2_S8192x8192_n_01_n_n_01_2_11.start (ix2 i j) idx 1 + gather_S13x13_S8192x8192x2_S8192x8192_n_01_n_n_01_2_11.batchCoord (ix2 i j) 1 + gather_S13x13_S8192x8192x2_S8192x8192_n_01_n_n_01_2_11.offCoord (ix2 i j) 1 = _
  rw [GatherDims.batchCoord_eq_zero _ _ _
      (show (1 : Fin S13x13.rank) ∉ gather_S13x13_S8192x8192x2_S8192x8192_n_01_n_n_01_2_11.operandBatchingDims from List.not_mem_nil),
    GatherDims.offCoord_eq_zero _ _ _ (fun h => ((GatherDims.mem_sKept _ _).mp h).1
      (show (1 : Fin S13x13.rank) ∈ gather_S13x13_S8192x8192x2_S8192x8192_n_01_n_n_01_2_11.collapsedSliceDims from
        (by decide : (1 : Fin 2) ∈ ([0, 1] : List (Fin 2)))))]
  simp only [Nat.add_zero]
  unfold GatherDims.start
  rw [dif_pos (show (1 : Fin S13x13.rank) ∈ gather_S13x13_S8192x8192x2_S8192x8192_n_01_n_n_01_2_11.startIndexMap from
    (by decide : (1 : Fin 2) ∈ ([0, 1] : List (Fin 2))))]
  have hsi : gather_S13x13_S8192x8192x2_S8192x8192_n_01_n_n_01_2_11.siIdx (ix2 i j) ⟨List.idxOf (1 : Fin S13x13.rank) gather_S13x13_S8192x8192x2_S8192x8192_n_01_n_n_01_2_11.startIndexMap,
      List.idxOf_lt_length_iff.2 (show (1 : Fin S13x13.rank) ∈ gather_S13x13_S8192x8192x2_S8192x8192_n_01_n_n_01_2_11.startIndexMap from
        (by decide : (1 : Fin 2) ∈ ([0, 1] : List (Fin 2))))⟩ = ix3 i j (1 : Fin 2) := by
    funext b; refine Fin.ext ?_
    match b with
    | ⟨0, _⟩ => rfl
    | ⟨1, _⟩ => rfl
    | ⟨2, _⟩ => rfl
  rw [hsi]
  rfl

theorem gather_pair_apply (x : S13x13.Idx → α) (idx : IVec S8192x8192x2 32) (i j : Fin 8192) :
    Host.gather gather_S13x13_S8192x8192x2_S8192x8192_n_01_n_n_01_2_11 x idx (ix2 i j)
      = x (ix2 (⟨min (idx (ix3 i j (0 : Fin 2))).toInt.toNat 12, by omega⟩ : Fin 13)
          (⟨min (idx (ix3 i j (1 : Fin 2))).toInt.toNat 12, by omega⟩ : Fin 13)) := by
  unfold Host.gather
  refine congrArg x (funext fun a => Fin.ext ?_)
  match a with
  | ⟨0, _⟩ => exact pair_axis0 idx i j
  | ⟨1, _⟩ => exact pair_axis1 idx i j

end PairGather

def stage_v36 (lb : (⟨S8192, .i32⟩ : BufTy).Contents (Elt Ideal)) : (⟨S8192x1, .i32⟩ : BufTy).Contents (Elt Ideal) :=
  broadcastInDim S8192x1 ![0] bcast_S8192_S8192x1_0 (stage_v11 lb)

def stage_v37 (lb : (⟨S8192, .i32⟩ : BufTy).Contents (Elt Ideal)) : (⟨S1x8192, .i32⟩ : BufTy).Contents (Elt Ideal) :=
  broadcastInDim S1x8192 ![1] bcast_S8192_S1x8192_1 (stage_v11 lb)

def stage_v42 (lb : (⟨S8192, .i32⟩ : BufTy).Contents (Elt Ideal)) : (⟨S8192x1, .i32⟩ : BufTy).Contents (Elt Ideal) :=
  select
    (cmpi .slt (stage_v36 lb) (broadcastInDim S8192x1 ![] bcast_S_S8192x1 (constantI S_ 32 0#32)))
    (addi (stage_v36 lb) (broadcastInDim S8192x1 ![] bcast_S_S8192x1 (constantI S_ 32 13#32)))
    (stage_v36 lb)

def stage_v47 (lb : (⟨S8192, .i32⟩ : BufTy).Contents (Elt Ideal)) : (⟨S1x8192, .i32⟩ : BufTy).Contents (Elt Ideal) :=
  select
    (cmpi .slt (stage_v37 lb) (broadcastInDim S1x8192 ![] bcast_S_S1x8192 (constantI S_ 32 0#32)))
    (addi (stage_v37 lb) (broadcastInDim S1x8192 ![] bcast_S_S1x8192 (constantI S_ 32 13#32)))
    (stage_v37 lb)

def stage_v52 (lb : (⟨S8192, .i32⟩ : BufTy).Contents (Elt Ideal)) : (⟨S8192x8192x2, .i32⟩ : BufTy).Contents (Elt Ideal) :=
  concatenate S8192x8192x2 2
    [⟨S8192x8192x1, broadcastInDim S8192x8192x1 ![0, 1] bcast_S8192x8192_S8192x8192x1_0_1
        (broadcastInDim S8192x8192 ![0, 1] bcast_S8192x1_S8192x8192_0_1 (stage_v42 lb))⟩,
      ⟨S8192x8192x1, broadcastInDim S8192x8192x1 ![0, 1] bcast_S8192x8192_S8192x8192x1_0_1
        (broadcastInDim S8192x8192 ![0, 1] bcast_S1x8192_S8192x8192_0_1 (stage_v47 lb))⟩]
    concatenates_S8192x8192x1_S8192x8192x1_S8192x8192x2_d2

def stage_v53 (lb : (⟨S8192, .i32⟩ : BufTy).Contents (Elt Ideal)) : (⟨S8192x8192, .i1⟩ : BufTy).Contents (Elt Ideal) :=
  Host.gather gather_S13x13_S8192x8192x2_S8192x8192_n_01_n_n_01_2_11 (fun i : S13x13.Idx => lit0 (S13x13.rowMajor i)) (stage_v52 lb)

def stage_v56 (lb : (⟨S8192, .i32⟩ : BufTy).Contents (Elt Ideal)) : (⟨S8192x8192, .i1⟩ : BufTy).Contents (Elt Ideal) :=
  andi (stage_v53 lb)
    (broadcastInDim S8192x8192 ![0, 1] bcast_S1x8192_S8192x8192_0_1
      (broadcastInDim S1x8192 ![1] bcast_S8192_S1x8192_1 (stage_v3 lb)))

theorem v42_apply (lb : (⟨S8192, .i32⟩ : BufTy).Contents (Elt Ideal)) (i : Fin 8192) : stage_v42 lb (ix2 i (0 : Fin 1)) = stage_v11 lb (ix1 i) := by
  have h : stage_v36 lb (ix2 i (0 : Fin 1)) = stage_v11 lb (ix1 i) := col1_apply (stage_v11 lb) i
  show Scalar.select (IntOp.cmpi .slt (stage_v36 lb (ix2 i (0 : Fin 1))) 0#32)
    (IntOp.addi (stage_v36 lb (ix2 i (0 : Fin 1))) 13#32) (stage_v36 lb (ix2 i (0 : Fin 1))) = _
  rw [h]
  exact wrap_of_nonneg _ (v11_range lb i).1

theorem v47_apply (lb : (⟨S8192, .i32⟩ : BufTy).Contents (Elt Ideal)) (j : Fin 8192) : stage_v47 lb (ix2 (0 : Fin 1) j) = stage_v11 lb (ix1 j) := by
  have h : stage_v37 lb (ix2 (0 : Fin 1) j) = stage_v11 lb (ix1 j) := row1_apply (stage_v11 lb) j
  show Scalar.select (IntOp.cmpi .slt (stage_v37 lb (ix2 (0 : Fin 1) j)) 0#32)
    (IntOp.addi (stage_v37 lb (ix2 (0 : Fin 1) j)) 13#32) (stage_v37 lb (ix2 (0 : Fin 1) j)) = _
  rw [h]
  exact wrap_of_nonneg _ (v11_range lb j).1

theorem v52_apply0 (lb : (⟨S8192, .i32⟩ : BufTy).Contents (Elt Ideal)) (i j : Fin 8192) : stage_v52 lb (ix3 i j (0 : Fin 2)) = stage_v11 lb (ix1 i) :=
  (pair_left _ _ i j).trans ((lift3_apply _ i j).trans ((of_col_apply _ i j).trans (v42_apply lb i)))

theorem v52_apply1 (lb : (⟨S8192, .i32⟩ : BufTy).Contents (Elt Ideal)) (i j : Fin 8192) : stage_v52 lb (ix3 i j (1 : Fin 2)) = stage_v11 lb (ix1 j) :=
  (pair_right _ _ i j).trans ((lift3_apply _ i j).trans ((of_row_apply _ i j).trans (v47_apply lb j)))

theorem v53_apply (lb : (⟨S8192, .i32⟩ : BufTy).Contents (Elt Ideal)) (i j : Fin 8192) :
    stage_v53 lb (ix2 i j) = lit0 (S13x13.rowMajor (ix2 (clipIdx lb i) (clipIdx lb j))) := by
  refine (gather_pair_apply (fun i : S13x13.Idx => lit0 (S13x13.rowMajor i)) (stage_v52 lb) i j).trans ?_
  have e0 : (⟨min (stage_v52 lb (ix3 i j (0 : Fin 2))).toInt.toNat 12, by omega⟩ : Fin 13) = clipIdx lb i :=
    Fin.ext (by
      show min (stage_v52 lb (ix3 i j (0 : Fin 2))).toInt.toNat 12 = (stage_v11 lb (ix1 i)).toInt.toNat
      rw [v52_apply0]; have := v11_range lb i; omega)
  have e1 : (⟨min (stage_v52 lb (ix3 i j (1 : Fin 2))).toInt.toNat 12, by omega⟩ : Fin 13) = clipIdx lb j :=
    Fin.ext (by
      show min (stage_v52 lb (ix3 i j (1 : Fin 2))).toInt.toNat 12 = (stage_v11 lb (ix1 j)).toInt.toNat
      rw [v52_apply1]; have := v11_range lb j; omega)
  exact congrArg₂ (fun a b : Fin 13 => lit0 (S13x13.rowMajor (ix2 a b))) e0 e1

theorem v56_apply (lb : (⟨S8192, .i32⟩ : BufTy).Contents (Elt Ideal)) (i j : Fin 8192) :
    stage_v56 lb (ix2 i j) = 1#1 ↔
      (lit0 (S13x13.rowMajor (ix2 (clipIdx lb i) (clipIdx lb j))) = 1#1 ∧ lb (ix1 j) ≠ 4294967196#32) := by
  have h : stage_v56 lb (ix2 i j)
      = IntOp.andi (lit0 (S13x13.rowMajor (ix2 (clipIdx lb i) (clipIdx lb j)))) (stage_v3 lb (ix1 j)) :=
    congrArg₂ IntOp.andi (v53_apply lb i j) (row_apply (stage_v3 lb) i j)
  rw [h, IntOp.andi_eq_one, v3_apply]

section RowGather
variable {α : Type}

theorem rowg_axis0 (idx : IVec S8192x1 32) (i : Fin 8192) (c : Fin 13) :
    (gather_S13x13_S8192x1_S8192x13_1_0_n_n_0_1_113.operandIdx (ix2 i c) idx 0).val = min (idx (ix2 i (0 : Fin 1))).toInt.toNat 12 := by
  show gather_S13x13_S8192x1_S8192x13_1_0_n_n_0_1_113.start (ix2 i c) idx 0 + gather_S13x13_S8192x1_S8192x13_1_0_n_n_0_1_113.batchCoord (ix2 i c) 0 + gather_S13x13_S8192x1_S8192x13_1_0_n_n_0_1_113.offCoord (ix2 i c) 0 = _
  rw [GatherDims.batchCoord_eq_zero _ _ _
      (show (0 : Fin S13x13.rank) ∉ gather_S13x13_S8192x1_S8192x13_1_0_n_n_0_1_113.operandBatchingDims from List.not_mem_nil),
    GatherDims.offCoord_eq_zero _ _ _ (fun h => ((GatherDims.mem_sKept _ _).mp h).1
      (show (0 : Fin S13x13.rank) ∈ gather_S13x13_S8192x1_S8192x13_1_0_n_n_0_1_113.collapsedSliceDims from
        (by decide : (0 : Fin 2) ∈ ([0] : List (Fin 2)))))]
  simp only [Nat.add_zero]
  unfold GatherDims.start
  rw [dif_pos (show (0 : Fin S13x13.rank) ∈ gather_S13x13_S8192x1_S8192x13_1_0_n_n_0_1_113.startIndexMap from
    (by decide : (0 : Fin 2) ∈ ([0] : List (Fin 2))))]
  have hsi : gather_S13x13_S8192x1_S8192x13_1_0_n_n_0_1_113.siIdx (ix2 i c) ⟨List.idxOf (0 : Fin S13x13.rank) gather_S13x13_S8192x1_S8192x13_1_0_n_n_0_1_113.startIndexMap,
      List.idxOf_lt_length_iff.2 (show (0 : Fin S13x13.rank) ∈ gather_S13x13_S8192x1_S8192x13_1_0_n_n_0_1_113.startIndexMap from
        (by decide : (0 : Fin 2) ∈ ([0] : List (Fin 2))))⟩ = ix2 i (0 : Fin 1) := by
    funext b; refine Fin.ext ?_
    match b with
    | ⟨0, _⟩ => rfl
    | ⟨1, _⟩ => rfl
  rw [hsi]
  rfl

theorem rowg_axis1 (idx : IVec S8192x1 32) (i : Fin 8192) (c : Fin 13) :
    (gather_S13x13_S8192x1_S8192x13_1_0_n_n_0_1_113.operandIdx (ix2 i c) idx 1).val = c.val := by
  show gather_S13x13_S8192x1_S8192x13_1_0_n_n_0_1_113.start (ix2 i c) idx 1 + gather_S13x13_S8192x1_S8192x13_1_0_n_n_0_1_113.batchCoord (ix2 i c) 1 + gather_S13x13_S8192x1_S8192x13_1_0_n_n_0_1_113.offCoord (ix2 i c) 1 = _
  rw [GatherDims.batchCoord_eq_zero _ _ _
      (show (1 : Fin S13x13.rank) ∉ gather_S13x13_S8192x1_S8192x13_1_0_n_n_0_1_113.operandBatchingDims from List.not_mem_nil)]
  unfold GatherDims.start
  rw [dif_neg (show ¬(1 : Fin S13x13.rank) ∈ gather_S13x13_S8192x1_S8192x13_1_0_n_n_0_1_113.startIndexMap from
    (by decide : ¬(1 : Fin 2) ∈ ([0] : List (Fin 2))))]
  unfold GatherDims.offCoord
  rw [dif_pos ((GatherDims.mem_sKept _ _).mpr
    ⟨show (1 : Fin S13x13.rank) ∉ gather_S13x13_S8192x1_S8192x13_1_0_n_n_0_1_113.collapsedSliceDims from
        (by decide : ¬(1 : Fin 2) ∈ ([0] : List (Fin 2))),
      show (1 : Fin S13x13.rank) ∉ gather_S13x13_S8192x1_S8192x13_1_0_n_n_0_1_113.operandBatchingDims from List.not_mem_nil⟩)]
  simp only [Nat.zero_add]
  rfl

theorem gather_row_apply (x : S13x13.Idx → α) (idx : IVec S8192x1 32) (i : Fin 8192) (c : Fin 13) :
    Host.gather gather_S13x13_S8192x1_S8192x13_1_0_n_n_0_1_113 x idx (ix2 i c)
      = x (ix2 (⟨min (idx (ix2 i (0 : Fin 1))).toInt.toNat 12, by omega⟩ : Fin 13) c) := by
  unfold Host.gather
  refine congrArg x (funext fun a => Fin.ext ?_)
  match a with
  | ⟨0, _⟩ => exact rowg_axis0 idx i c
  | ⟨1, _⟩ => exact rowg_axis1 idx i c

end RowGather

theorem table_row_or_eq_one_iff {ι : Type} (s : Finset ι) (f : ι → BitVec 1) :
    s.fold IntOp.ori 0#1 f = 1#1 ↔ ∃ c ∈ s, f c = 1#1 := by
  induction s using Finset.cons_induction with
  | empty =>
    rw [Finset.fold_empty]
    constructor
    · intro h; exact absurd h (by decide)
    · rintro ⟨c, hc, _⟩; exact absurd hc (Finset.notMem_empty c)
  | cons a s ha ih =>
    rw [Finset.fold_cons, IntOp.ori_eq_one, ih]
    constructor
    · rintro (h | ⟨c, hc, h⟩)
      · exact ⟨a, Finset.mem_cons_self a s, h⟩
      · exact ⟨c, Finset.mem_cons.mpr (Or.inr hc), h⟩
    · rintro ⟨c, hc, h⟩
      rcases Finset.mem_cons.mp hc with rfl | hc
      · exact Or.inl h
      · exact Or.inr ⟨c, hc, h⟩

theorem reduces_table_cols : S8192x13.Reduces [1] S8192 := by decide

theorem lift_table_cols (i : Fin 8192) (c : Fin 13) : reduces_table_cols.lift (ix1 i) c = ix2 i c :=
  funext fun a => Fin.ext (match a with
    | ⟨0, _⟩ => rfl
    | ⟨1, _⟩ => rfl)

def stage_v16 (lb : (⟨S8192, .i32⟩ : BufTy).Contents (Elt Ideal)) : (⟨S8192, .i32⟩ : BufTy).Contents (Elt Ideal) :=
  select
    (cmpi .slt (stage_v11 lb) (broadcastInDim S8192 ![] bcast_S_S8192 (constantI S_ 32 0#32)))
    (addi (stage_v11 lb) (broadcastInDim S8192 ![] bcast_S_S8192 (constantI S_ 32 13#32)))
    (stage_v11 lb)

def stage_v18 (lb : (⟨S8192, .i32⟩ : BufTy).Contents (Elt Ideal)) : (⟨S8192x13, .i1⟩ : BufTy).Contents (Elt Ideal) :=
  Host.gather gather_S13x13_S8192x1_S8192x13_1_0_n_n_0_1_113 (fun i : S13x13.Idx => lit0 (S13x13.rowMajor i))
    (broadcastInDim S8192x1 ![0] bcast_S8192_S8192x1_0 (stage_v16 lb))

def stage_v19 (lb : (⟨S8192, .i32⟩ : BufTy).Contents (Elt Ideal)) : (⟨S8192, .i1⟩ : BufTy).Contents (Elt Ideal) :=
  Host.reduce IntOp.ori (stage_v18 lb) (constantI S_ 1 0#1) reducesTo_S8192x13_S8192_d1 h_S_

def stage_v20 (lb : (⟨S8192, .i32⟩ : BufTy).Contents (Elt Ideal)) : (⟨S8192, .i1⟩ : BufTy).Contents (Elt Ideal) :=
  andi (stage_v3 lb) (stage_v19 lb)

theorem v16_apply (lb : (⟨S8192, .i32⟩ : BufTy).Contents (Elt Ideal)) (i : Fin 8192) : stage_v16 lb (ix1 i) = stage_v11 lb (ix1 i) :=
  wrap_of_nonneg _ (v11_range lb i).1

theorem rows_at_clip {α : Type} (x : S13x13.Idx → α) (lb : (⟨S8192, .i32⟩ : BufTy).Contents (Elt Ideal)) (i : Fin 8192) (c : Fin 13) :
    Host.gather gather_S13x13_S8192x1_S8192x13_1_0_n_n_0_1_113 x (broadcastInDim S8192x1 ![0] bcast_S8192_S8192x1_0 (stage_v16 lb)) (ix2 i c)
      = x (ix2 (clipIdx lb i) c) := by
  have h := gather_row_apply x (broadcastInDim S8192x1 ![0] bcast_S8192_S8192x1_0 (stage_v16 lb)) i c
  rw [h]
  have e0 : (⟨min (broadcastInDim S8192x1 ![0] bcast_S8192_S8192x1_0 (stage_v16 lb)
      (ix2 i (0 : Fin 1))).toInt.toNat 12, by omega⟩ : Fin 13) = clipIdx lb i :=
    Fin.ext (by
      show min (broadcastInDim S8192x1 ![0] bcast_S8192_S8192x1_0 (stage_v16 lb)
        (ix2 i (0 : Fin 1))).toInt.toNat 12 = (stage_v11 lb (ix1 i)).toInt.toNat
      rw [col1_apply, v16_apply]; have := v11_range lb i; omega)
  exact congrArg (fun a : Fin 13 => x (ix2 a c)) e0

theorem v18_apply (lb : (⟨S8192, .i32⟩ : BufTy).Contents (Elt Ideal)) (i : Fin 8192) (c : Fin 13) :
    stage_v18 lb (ix2 i c) = lit0 (S13x13.rowMajor (ix2 (clipIdx lb i) c)) := by
  unfold stage_v18
  exact rows_at_clip (fun i : S13x13.Idx => lit0 (S13x13.rowMajor i)) lb i c

theorem v19_apply (lb : (⟨S8192, .i32⟩ : BufTy).Contents (Elt Ideal)) (i : Fin 8192) :
    stage_v19 lb (ix1 i) = 1#1 ↔ ∃ c : Fin 13, lit0 (S13x13.rowMajor (ix2 (clipIdx lb i) c)) = 1#1 := by
  have hpt : ∀ c : Fin 13, (stage_v18 lb ∘ reduces_table_cols.lift (ix1 i)) c
      = lit0 (S13x13.rowMajor (ix2 (clipIdx lb i) c)) :=
    fun c => (congrArg (stage_v18 lb) (lift_table_cols i c)).trans (v18_apply lb i c)
  unfold stage_v19
  rw [Host.reduce_eq_fold_single IntOp.ori (stage_v18 lb) (constantI S_ 1 0#1) reducesTo_S8192x13_S8192_d1
    reduces_table_cols h_S_ (ix1 i)]
  refine (table_row_or_eq_one_iff Finset.univ (stage_v18 lb ∘ reduces_table_cols.lift (ix1 i))).trans ?_
  constructor
  · rintro ⟨c, _, h⟩
    exact ⟨c, (hpt c).symm.trans h⟩
  · rintro ⟨c, h⟩
    exact ⟨c, Finset.mem_univ _, (hpt c).trans h⟩

theorem v20_apply (lb : (⟨S8192, .i32⟩ : BufTy).Contents (Elt Ideal)) (i : Fin 8192) :
    stage_v20 lb (ix1 i) = 1#1 ↔
      (lb (ix1 i) ≠ 4294967196#32 ∧ ∃ c : Fin 13, lit0 (S13x13.rowMajor (ix2 (clipIdx lb i) c)) = 1#1) := by
  show IntOp.andi (stage_v3 lb (ix1 i)) (stage_v19 lb (ix1 i)) = 1#1 ↔ _
  rw [IntOp.andi_eq_one, v3_apply, v19_apply]

end Cert.ReferenceIdeal.Hand

end
-- ==== Proof.LabelMath.lean ====
import Idealize.ShloMosaic.PureOps.Ideal
import Mathlib.Data.EReal.Basic
import Mathlib.Algebra.BigOperators.Group.Finset.Basic
import Mathlib.Algebra.Order.BigOperators.Group.Finset

noncomputable section

open scoped BigOperators

namespace Cert.LabelMath

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_onehalf : Ideal.ofBits .f32 0x3FC00000#32 = ((3 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem half_lt_one : Ideal.ofBits .f32 0x3F000000#32 < (1 : EReal) := by
  rw [ofBits_half, ← EReal.coe_one, EReal.coe_lt_coe_iff]; norm_num

theorem zero_lt_half : (0 : EReal) < Ideal.ofBits .f32 0x3F000000#32 := by
  rw [ofBits_half, ← EReal.coe_zero, EReal.coe_lt_coe_iff]; norm_num

theorem not_half_lt_zero : ¬ Ideal.ofBits .f32 0x3F000000#32 < (0 : EReal) :=
  not_lt.mpr zero_lt_half.le

theorem one_lt_onehalf : (1 : EReal) < Ideal.ofBits .f32 0x3FC00000#32 := by
  rw [ofBits_onehalf, ← EReal.coe_one, EReal.coe_lt_coe_iff]; norm_num

theorem not_onehalf_lt_one : ¬ Ideal.ofBits .f32 0x3FC00000#32 < (1 : EReal) :=
  not_lt.mpr one_lt_onehalf.le

theorem not_onehalf_lt_zero : ¬ Ideal.ofBits .f32 0x3FC00000#32 < (0 : EReal) :=
  not_lt.mpr ((zero_lt_one.trans one_lt_onehalf).le)

theorem half_lt_onehalf : Ideal.ofBits .f32 0x3F000000#32 < Ideal.ofBits .f32 0x3FC00000#32 :=
  half_lt_one.trans one_lt_onehalf

theorem onehalf_lt_two : Ideal.ofBits .f32 0x3FC00000#32 < Ideal.ofBits .f32 0x40000000#32 := by
  rw [ofBits_onehalf, ofBits_two, EReal.coe_lt_coe_iff]; norm_num

theorem not_two_lt_onehalf : ¬ Ideal.ofBits .f32 0x40000000#32 < Ideal.ofBits .f32 0x3FC00000#32 :=
  not_lt.mpr onehalf_lt_two.le

theorem flag_gt_half (p : Prop) [Decidable p] :
    Ideal.ofBits .f32 0x3F000000#32 < (if p then (1 : EReal) else 0) ↔ p := by
  by_cases hp : p
  · rw [if_pos hp]; exact iff_of_true half_lt_one hp
  · rw [if_neg hp]; exact iff_of_false not_half_lt_zero hp

def clamp (l : BitVec 32) : BitVec 32 := IntOp.minsi 12#32 (IntOp.maxsi 0#32 l)

theorem clamp_cases (l : BitVec 32) :
    (l.toInt < 0 ∧ clamp l = 0#32) ∨ (12 < l.toInt ∧ clamp l = 12#32) ∨
      (0 ≤ l.toInt ∧ l.toInt ≤ 12 ∧ clamp l = l) := by
  have e0 : (0#32 : BitVec 32).toInt = 0 := by decide
  have e12 : (12#32 : BitVec 32).toInt = 12 := by decide
  unfold clamp IntOp.minsi IntOp.maxsi
  by_cases h1 : l.slt 0#32 = true
  · left
    have h1' := BitVec.slt_iff_toInt_lt.mp h1
    rw [e0] at h1'
    rw [if_pos h1]
    exact ⟨h1', by decide⟩
  · right
    have h1' : ¬ l.toInt < 0 := fun h => h1 (BitVec.slt_iff_toInt_lt.mpr (by rw [e0]; exact h))
    rw [if_neg h1]
    by_cases h2 : (12#32 : BitVec 32).slt l = true
    · left
      have h2' := BitVec.slt_iff_toInt_lt.mp h2
      rw [e12] at h2'
      rw [if_pos h2]
      exact ⟨h2', rfl⟩
    · right
      have h2' : ¬ (12 : Int) < l.toInt := fun h => h2 (BitVec.slt_iff_toInt_lt.mpr (by rw [e12]; exact h))
      rw [if_neg h2]
      exact ⟨by omega, by omega, rfl⟩

theorem toNat_of_toInt_range (l : BitVec 32) (h0 : 0 ≤ l.toInt) (h12 : l.toInt ≤ 12) : l.toNat ≤ 12 := by
  have e := BitVec.toInt_eq_toNat_cond l
  have := l.isLt
  split at e <;> omega

theorem clamp_toNat_le (l : BitVec 32) : (clamp l).toNat ≤ 12 := by
  rcases clamp_cases l with ⟨_, h⟩ | ⟨_, h⟩ | ⟨h0, h12, h⟩
  · rw [h]; decide
  · rw [h]; decide
  · rw [h]; exact toNat_of_toInt_range l h0 h12

def cidx (l : BitVec 32) : Fin 13 := ⟨(clamp l).toNat, Nat.lt_succ_of_le (clamp_toNat_le l)⟩

theorem cidx_val (l : BitVec 32) : (cidx l).val = (clamp l).toNat := rfl

theorem clamp_eq (l : BitVec 32) : clamp l = BitVec.ofNat 32 (cidx l).val := by
  apply BitVec.eq_of_toNat_eq
  rw [BitVec.toNat_ofNat, cidx_val]
  exact (Nat.mod_eq_of_lt (clamp l).isLt).symm

theorem clamp_ne (l : BitVec 32) (h0 : (cidx l).val ≠ 0) (h12 : (cidx l).val ≠ 12) : clamp l = l := by
  rcases clamp_cases l with ⟨_, h⟩ | ⟨_, h⟩ | ⟨_, _, h⟩
  · exact absurd (by rw [cidx_val, h]; rfl) h0
  · exact absurd (by rw [cidx_val, h]; rfl) h12
  · exact h

theorem ofNat_inj13 (a b : Fin 13) : BitVec.ofNat 32 a.val = BitVec.ofNat 32 b.val ↔ a = b := by
  constructor
  · intro h
    have h' := congrArg BitVec.toNat h
    rw [BitVec.toNat_ofNat, BitVec.toNat_ofNat] at h'
    have := a.isLt
    have := b.isLt
    exact Fin.ext (by omega)
  · rintro rfl; rfl

theorem clamp_inj_mid (l l' : BitVec 32) (h : cidx l = cidx l') (h0 : (cidx l).val ≠ 0) (h12 : (cidx l).val ≠ 12) :
    l = l' := by
  have e : clamp l = l := clamp_ne l h0 h12
  have e' : clamp l' = l' := clamp_ne l' (h ▸ h0) (h ▸ h12)
  rw [← e, ← e', clamp_eq l, clamp_eq l', h]

theorem oh_eq (l : BitVec 32) (k : Fin 13) :
    (if clamp l = BitVec.ofNat 32 k.val then (1 : EReal) else 0) = if cidx l = k then 1 else 0 := by
  have hiff : clamp l = BitVec.ofNat 32 k.val ↔ cidx l = k := by
    constructor
    · intro h
      rw [clamp_eq l] at h
      exact (ofNat_inj13 _ _).mp h
    · intro h
      rw [clamp_eq l, h]
  exact if_congr hiff rfl rfl

section Table
variable (T : Fin 13 → Fin 13 → EReal) (a b : Fin 13)

theorem row_pick : (∑ k' : Fin 13, (if a = k' then (1 : EReal) else 0) * T k' b) = T a b := by
  simp only [ite_mul, one_mul, zero_mul, Finset.sum_ite_eq, Finset.mem_univ, if_true]

theorem class_value (two : EReal) :
    (∑ k : Fin 13, ((if a = k then (1 : EReal) else 0) + two * ∑ k' : Fin 13, (if a = k' then (1 : EReal) else 0) * T k' k) *
        (if b = k then (1 : EReal) else 0)) = (if a = b then 1 else 0) + two * T a b := by
  simp only [row_pick, mul_ite, mul_one, mul_zero, Finset.sum_ite_eq, Finset.mem_univ, if_true]

theorem same_iff (hT : ∀ x y, T x y = 0 ∨ T x y = 1) (hd : ∀ x, T x x = 0) :
    (Ideal.ofBits .f32 0x3F000000#32 < (if a = b then (1 : EReal) else 0) + Ideal.ofBits .f32 0x40000000#32 * T a b ∧
      (if a = b then (1 : EReal) else 0) + Ideal.ofBits .f32 0x40000000#32 * T a b < Ideal.ofBits .f32 0x3FC00000#32) ↔ a = b := by
  by_cases hab : a = b
  · subst hab
    rw [if_pos rfl, hd a, mul_zero, add_zero]
    exact iff_of_true ⟨half_lt_one, one_lt_onehalf⟩ rfl
  · rw [if_neg hab, zero_add]
    rcases hT a b with h | h
    · rw [h, mul_zero]
      exact iff_of_false (fun hh => not_half_lt_zero hh.1) hab
    · rw [h, mul_one]
      exact iff_of_false (fun hh => not_two_lt_onehalf hh.2) hab

theorem conf_iff (hT : ∀ x y, T x y = 0 ∨ T x y = 1) (hd : ∀ x, T x x = 0) :
    Ideal.ofBits .f32 0x3FC00000#32 < (if a = b then (1 : EReal) else 0) + Ideal.ofBits .f32 0x40000000#32 * T a b ↔ T a b = 1 := by
  by_cases hab : a = b
  · subst hab
    rw [if_pos rfl, hd a, mul_zero, add_zero]
    exact iff_of_false not_onehalf_lt_one zero_ne_one
  · rw [if_neg hab, zero_add]
    rcases hT a b with h | h
    · rw [h, mul_zero]
      exact iff_of_false not_onehalf_lt_zero zero_ne_one
    · rw [h, mul_one]
      exact iff_of_true onehalf_lt_two rfl

theorem anchor_iff (hT : ∀ x y, T x y = 0 ∨ T x y = 1) : (0 < ∑ k : Fin 13, T a k) ↔ ∃ k, T a k = 1 := by
  constructor
  · intro h
    by_contra hne
    have hz : ∀ k ∈ (Finset.univ : Finset (Fin 13)), T a k = 0 :=
      fun k _ => (hT a k).resolve_right fun h1 => hne ⟨k, h1⟩
    rw [Finset.sum_eq_zero hz] at h
    exact lt_irrefl _ h
  · rintro ⟨k, hk⟩
    have hnn : ∀ j ∈ (Finset.univ : Finset (Fin 13)), 0 ≤ T a j := by
      intro j _
      rcases hT a j with h | h
      · exact le_of_eq h.symm
      · rw [h]; exact zero_le_one
    have hle := Finset.single_le_sum hnn (Finset.mem_univ k)
    rw [hk] at hle
    exact lt_of_lt_of_le zero_lt_one hle

end Table

end Cert.LabelMath

end
-- ==== Proof.TileMath.lean ====
import Idealize.ShloMosaic.PureOps.Ideal
import Mathlib.Order.CompleteLattice.Basic
import Mathlib.Data.EReal.Basic

noncomputable section

namespace Cert.TileMath

def rowOf (b : Fin 8) (r : Fin 1024) : Fin 8192 := ⟨1024 * b.val + r.val, by omega⟩

def rowBlk (i : Fin 8192) : Fin 8 := ⟨i.val / 1024, by omega⟩

def rowIn (i : Fin 8192) : Fin 1024 := ⟨i.val % 1024, by omega⟩

theorem rowOf_val (b : Fin 8) (r : Fin 1024) : (rowOf b r).val = 1024 * b.val + r.val := rfl

theorem rowBlk_val (i : Fin 8192) : (rowBlk i).val = i.val / 1024 := rfl

theorem rowIn_val (i : Fin 8192) : (rowIn i).val = i.val % 1024 := rfl

theorem row_split (i : Fin 8192) : i.val = 1024 * (rowBlk i).val + (rowIn i).val := by
  show i.val = 1024 * (i.val / 1024) + i.val % 1024
  omega

theorem rowOf_rowBlk_rowIn (i : Fin 8192) : rowOf (rowBlk i) (rowIn i) = i :=
  Fin.ext (row_split i).symm

theorem rowBlk_rowOf (b : Fin 8) (r : Fin 1024) : rowBlk (rowOf b r) = b :=
  Fin.ext (by show (1024 * b.val + r.val) / 1024 = b.val; omega)

theorem rowIn_rowOf (b : Fin 8) (r : Fin 1024) : rowIn (rowOf b r) = r :=
  Fin.ext (by show (1024 * b.val + r.val) % 1024 = r.val; omega)

theorem rowOf_inj {b b' : Fin 8} {r r' : Fin 1024} : rowOf b r = rowOf b' r' ↔ b = b' ∧ r = r' := by
  constructor
  · intro h
    exact ⟨by rw [← rowBlk_rowOf b r, h, rowBlk_rowOf], by rw [← rowIn_rowOf b r, h, rowIn_rowOf]⟩
  · rintro ⟨rfl, rfl⟩; rfl

def tileEquiv : Fin 8 × Fin 1024 ≃ Fin 8192 where
  toFun p := rowOf p.1 p.2
  invFun i := (rowBlk i, rowIn i)
  left_inv p := Prod.ext (rowBlk_rowOf p.1 p.2) (rowIn_rowOf p.1 p.2)
  right_inv i := rowOf_rowBlk_rowIn i

def ptOf (b j : Fin 8) : Fin 64 := ⟨8 * b.val + j.val, by omega⟩

def ptRow (t : Fin 64) : Fin 8 := ⟨t.val / 8, by omega⟩

def ptCol (t : Fin 64) : Fin 8 := ⟨t.val % 8, by omega⟩

theorem ptOf_val (b j : Fin 8) : (ptOf b j).val = 8 * b.val + j.val := rfl

theorem ptRow_val (t : Fin 64) : (ptRow t).val = t.val / 8 := rfl

theorem ptCol_val (t : Fin 64) : (ptCol t).val = t.val % 8 := rfl

theorem pt_split (t : Fin 64) : t.val = 8 * (ptRow t).val + (ptCol t).val := by
  show t.val = 8 * (t.val / 8) + t.val % 8
  omega

theorem ptOf_ptRow_ptCol (t : Fin 64) : ptOf (ptRow t) (ptCol t) = t := Fin.ext (pt_split t).symm

theorem ptRow_ptOf (b j : Fin 8) : ptRow (ptOf b j) = b :=
  Fin.ext (by show (8 * b.val + j.val) / 8 = b.val; omega)

theorem ptCol_ptOf (b j : Fin 8) : ptCol (ptOf b j) = j :=
  Fin.ext (by show (8 * b.val + j.val) % 8 = j.val; omega)

theorem ptOf_succ (b j : Fin 8) (hj : j.val < 7) :
    (ptOf b j).val + 1 = (ptOf b ⟨j.val + 1, by omega⟩).val := by
  show 8 * b.val + j.val + 1 = 8 * b.val + (j.val + 1)
  omega

theorem lt_ptOf_zero (b : Fin 8) (t : Fin 64) : t.val < (ptOf b 0).val ↔ (ptRow t).val < b.val := by
  show t.val < 8 * b.val + 0 ↔ t.val / 8 < b.val
  omega

theorem iInf_tiles (f : Fin 8192 → EReal) :
    (⨅ c : Fin 8192, f c) = ⨅ j : Fin 8, ⨅ c : Fin 1024, f ⟨1024 * j.val + c.val, by omega⟩ := by
  rw [← Equiv.iInf_comp tileEquiv, iInf_prod]
  rfl

theorem iSup_tiles (f : Fin 8192 → EReal) :
    (⨆ c : Fin 8192, f c) = ⨆ j : Fin 8, ⨆ c : Fin 1024, f ⟨1024 * j.val + c.val, by omega⟩ := by
  rw [← Equiv.iSup_comp tileEquiv, iSup_prod]
  rfl

theorem exists_tiles (p : Fin 8192 → Prop) :
    (∃ c, p c) ↔ ∃ (j : Fin 8) (c : Fin 1024), p ⟨1024 * j.val + c.val, by omega⟩ := by
  constructor
  · rintro ⟨c, hc⟩
    refine ⟨rowBlk c, rowIn c, ?_⟩
    have e : (⟨1024 * (rowBlk c).val + (rowIn c).val, by omega⟩ : Fin 8192) = c := rowOf_rowBlk_rowIn c
    rw [e]
    exact hc
  · rintro ⟨j, c, h⟩
    exact ⟨_, h⟩

theorem iInf_rowOf (f : Fin 8192 → EReal) : (⨅ c : Fin 8192, f c) = ⨅ j : Fin 8, ⨅ c : Fin 1024, f (rowOf j c) :=
  iInf_tiles f

theorem iSup_rowOf (f : Fin 8192 → EReal) : (⨆ c : Fin 8192, f c) = ⨆ j : Fin 8, ⨆ c : Fin 1024, f (rowOf j c) :=
  iSup_tiles f

theorem exists_rowOf (p : Fin 8192 → Prop) : (∃ c, p c) ↔ ∃ (j : Fin 8) (c : Fin 1024), p (rowOf j c) :=
  exists_tiles p

theorem pred_mk (n : Nat) (h : n + 1 < 8) : (⟨(⟨n + 1, h⟩ : Fin 8).val - 1, by omega⟩ : Fin 8) = ⟨n, by omega⟩ :=
  Fin.ext (by show n + 1 - 1 = n; omega)

theorem run_min (big : EReal) (g : Fin 8 → EReal) (s : Fin 8 → EReal) (h0 : s 0 = min big (g 0))
    (hs : ∀ j : Fin 8, (hj : 0 < j.val) → s j = min (s ⟨j.val - 1, by omega⟩) (g j)) :
    s 7 = min big (⨅ j, g j) := by
  have lower : ∀ (n : Nat) (hn : n < 8), min big (⨅ j, g j) ≤ s ⟨n, hn⟩ := by
    intro n
    induction n with
    | zero =>
      intro hn
      show _ ≤ s 0
      rw [h0]
      exact min_le_min_left big (iInf_le g 0)
    | succ n ih =>
      intro hn
      rw [hs ⟨n + 1, hn⟩ (Nat.succ_pos n), pred_mk n hn]
      exact le_min (ih (by omega)) ((min_le_right _ _).trans (iInf_le g _))
  have upper : ∀ (n : Nat) (hn : n < 8), s ⟨n, hn⟩ ≤ big ∧ ∀ j : Fin 8, j.val ≤ n → s ⟨n, hn⟩ ≤ g j := by
    intro n
    induction n with
    | zero =>
      intro hn
      show s 0 ≤ big ∧ ∀ j : Fin 8, j.val ≤ 0 → s 0 ≤ g j
      rw [h0]
      refine ⟨min_le_left _ _, fun j hj => ?_⟩
      have : j = 0 := Fin.ext (by show j.val = 0; omega)
      rw [this]
      exact min_le_right _ _
    | succ n ih =>
      intro hn
      rw [hs ⟨n + 1, hn⟩ (Nat.succ_pos n), pred_mk n hn]
      obtain ⟨ih1, ih2⟩ := ih (by omega)
      refine ⟨(min_le_left _ _).trans ih1, fun j hj => ?_⟩
      by_cases hjn : j.val ≤ n
      · exact (min_le_left _ _).trans (ih2 j hjn)
      · have : j = ⟨n + 1, hn⟩ := Fin.ext (by show j.val = n + 1; omega)
        rw [this]
        exact min_le_right _ _
  refine le_antisymm ?_ (lower 7 (by omega))
  obtain ⟨u1, u2⟩ := upper 7 (by omega)
  exact le_min u1 (le_iInf fun j => u2 j (by omega))

theorem run_max (nbig : EReal) (g : Fin 8 → EReal) (s : Fin 8 → EReal) (h0 : s 0 = max nbig (g 0))
    (hs : ∀ j : Fin 8, (hj : 0 < j.val) → s j = max (s ⟨j.val - 1, by omega⟩) (g j)) :
    s 7 = max nbig (⨆ j, g j) := by
  have upper : ∀ (n : Nat) (hn : n < 8), s ⟨n, hn⟩ ≤ max nbig (⨆ j, g j) := by
    intro n
    induction n with
    | zero =>
      intro hn
      show s 0 ≤ _
      rw [h0]
      exact max_le_max_left nbig (le_iSup g 0)
    | succ n ih =>
      intro hn
      rw [hs ⟨n + 1, hn⟩ (Nat.succ_pos n), pred_mk n hn]
      exact max_le (ih (by omega)) ((le_iSup g _).trans (le_max_right _ _))
  have lower : ∀ (n : Nat) (hn : n < 8), nbig ≤ s ⟨n, hn⟩ ∧ ∀ j : Fin 8, j.val ≤ n → g j ≤ s ⟨n, hn⟩ := by
    intro n
    induction n with
    | zero =>
      intro hn
      show nbig ≤ s 0 ∧ ∀ j : Fin 8, j.val ≤ 0 → g j ≤ s 0
      rw [h0]
      refine ⟨le_max_left _ _, fun j hj => ?_⟩
      have : j = 0 := Fin.ext (by show j.val = 0; omega)
      rw [this]
      exact le_max_right _ _
    | succ n ih =>
      intro hn
      rw [hs ⟨n + 1, hn⟩ (Nat.succ_pos n), pred_mk n hn]
      obtain ⟨ih1, ih2⟩ := ih (by omega)
      refine ⟨ih1.trans (le_max_left _ _), fun j hj => ?_⟩
      by_cases hjn : j.val ≤ n
      · exact (ih2 j hjn).trans (le_max_left _ _)
      · have : j = ⟨n + 1, hn⟩ := Fin.ext (by show j.val = n + 1; omega)
        rw [this]
        exact le_max_right _ _
  refine le_antisymm (upper 7 (by omega)) ?_
  obtain ⟨l1, l2⟩ := lower 7 (by omega)
  exact max_le l1 (iSup_le fun j => l2 j (by omega))

theorem max_zero_iSup_flag {ι : Type*} (b : ι → Prop) [DecidablePred b] [Decidable (∃ j, b j)] :
    max (0 : EReal) (⨆ j, if b j then (1 : EReal) else 0) = if ∃ j, b j then 1 else 0 := by
  by_cases h : ∃ j, b j
  · rw [if_pos h]
    obtain ⟨j, hj⟩ := h
    have e : (⨆ j, if b j then (1 : EReal) else 0) = 1 := by
      refine le_antisymm (iSup_le fun k => ?_) (le_iSup_of_le j (by rw [if_pos hj]))
      by_cases hk : b k
      · rw [if_pos hk]
      · rw [if_neg hk]; exact zero_le_one
    rw [e]
    exact max_eq_right zero_le_one
  · rw [if_neg h]
    have e : (⨆ j, if b j then (1 : EReal) else 0) ≤ 0 :=
      iSup_le fun k => by rw [if_neg (fun hk => h ⟨k, hk⟩)]
    exact max_eq_left e

theorem run_flag (b : Fin 8 → Prop) [DecidablePred b] [Decidable (∃ j, b j)] (s : Fin 8 → EReal)
    (h0 : s 0 = max 0 (if b 0 then 1 else 0))
    (hs : ∀ j : Fin 8, (hj : 0 < j.val) → s j = max (s ⟨j.val - 1, by omega⟩) (if b j then 1 else 0)) :
    s 7 = if ∃ j, b j then 1 else 0 := by
  rw [run_max 0 (fun j => if b j then (1 : EReal) else 0) s h0 hs]
  exact max_zero_iSup_flag b

theorem min_big_iInf (big : EReal) (f : Fin 8192 → EReal) (h : ∃ c, f c = big) :
    min big (⨅ c, f c) = ⨅ c, f c := by
  obtain ⟨c, hc⟩ := h
  exact min_eq_right (hc ▸ iInf_le f c)

theorem max_nbig_iSup (nbig : EReal) (f : Fin 8192 → EReal) (h : ∃ c, f c = nbig) :
    max nbig (⨆ c, f c) = ⨆ c, f c := by
  obtain ⟨c, hc⟩ := h
  exact max_eq_right (hc ▸ le_iSup f c)

end Cert.TileMath

end
-- ==== Proof.Masks.lean ====
import proofs.«429954_j35948876268191_2_alg».proof.Proof.KIHead
import proofs.«429954_j35948876268191_2_alg».proof.Proof.RefHead
import proofs.«429954_j35948876268191_2_alg».proof.Proof.LabelMath
import proofs.«429954_j35948876268191_2_alg».proof.Proof.TileMath

noncomputable section

open scoped BigOperators

namespace Cert.Masks

open Idealize.ShloMosaic Idealize.ShloMosaic.ValueIdx Cert.LabelMath

variable [Cert.KernelIdeal.Facts] [Cert.ReferenceIdeal.Facts]

def pos (a b : Fin 13) : Fin 169 := ⟨a.val * 13 + b.val, by omega⟩

theorem rowMajor_pos (a b : Fin 13) : (⟨2, ![13, 13]⟩ : Shape).rowMajor (ix2 a b) = pos a b :=
  Fin.ext (Shape.rowMajor_val_two (ix2 a b))

def TK (a b : Fin 13) : EReal :=
  Ideal.ofBits .f32 (Cert.KernelIdeal.lit0 (Cert.KernelIdeal.S13x13.rowMajor (ix2 a b)))

theorem TK_pos (a b : Fin 13) : TK a b = Ideal.ofBits .f32 (Cert.KernelIdeal.lit0 (pos a b)) :=
  congrArg (fun p => Ideal.ofBits .f32 (Cert.KernelIdeal.lit0 p)) (rowMajor_pos a b)

theorem wordK_01 : ∀ a b : Fin 13,
    Cert.KernelIdeal.lit0 (pos a b) = 0x00000000#32 ∨ Cert.KernelIdeal.lit0 (pos a b) = 0x3F800000#32 := by
  decide +kernel

theorem wordK_diag : ∀ a : Fin 13, Cert.KernelIdeal.lit0 (pos a a) = 0x00000000#32 := by
  decide +kernel

theorem wordK_row : ∀ a b : Fin 13, Cert.KernelIdeal.lit0 (pos a b) = 0x3F800000#32 → a.val ≠ 0 ∧ a.val ≠ 12 := by
  decide +kernel

theorem wordK_iff_R : ∀ a b : Fin 13,
    Cert.KernelIdeal.lit0 (pos a b) = 0x3F800000#32 ↔ Cert.ReferenceIdeal.lit0 (pos a b) = 1#1 := by
  decide +kernel

theorem TK_eq_one_iff (a b : Fin 13) : TK a b = 1 ↔ Cert.KernelIdeal.lit0 (pos a b) = 0x3F800000#32 := by
  rw [TK_pos]
  constructor
  · intro h
    rcases wordK_01 a b with h0 | h1
    · rw [h0, ofBits_zero] at h
      exact absurd h zero_ne_one
    · exact h1
  · intro h
    rw [h, ofBits_one]

theorem TK_01 : ∀ a b : Fin 13, TK a b = 0 ∨ TK a b = 1 := by
  intro a b
  rcases wordK_01 a b with h | h
  · left; rw [TK_pos, h, ofBits_zero]
  · right; rw [TK_pos, h, ofBits_one]

theorem TK_diag : ∀ a : Fin 13, TK a a = 0 := by
  intro a
  rw [TK_pos, wordK_diag a, ofBits_zero]

theorem TK_row : ∀ a : Fin 13, (∃ b, TK a b = 1) → a.val ≠ 0 ∧ a.val ≠ 12 := by
  rintro a ⟨b, hb⟩
  exact wordK_row a b ((TK_eq_one_iff a b).mp hb)

theorem TK_iff_R : ∀ a b : Fin 13,
    TK a b = 1 ↔ Cert.ReferenceIdeal.lit0 (Cert.ReferenceIdeal.S13x13.rowMajor (ix2 a b)) = 1#1 := by
  intro a b
  have e : Cert.ReferenceIdeal.S13x13.rowMajor (ix2 a b) = pos a b := rowMajor_pos a b
  rw [e, TK_eq_one_iff]
  exact wordK_iff_R a b

section Kernel
variable (lb : (⟨Cert.KernelIdeal.S8192, .i32⟩ : BufTy).Contents (Elt Ideal)) (i j : Fin 8192)

open Cert.KernelIdeal.Hand in

theorem v11_cidx (k : Fin 13) :
    (stage_v11 lb (ix2 i k) : EReal) = if cidx (lb (ix1 i)) = k then (1 : EReal) else 0 := by
  rw [v11_apply, v10_apply]
  exact oh_eq (lb (ix1 i)) k

open Cert.KernelIdeal.Hand in

theorem v12_cidx (k : Fin 13) : (stage_v12 lb (ix2 i k) : EReal) = TK (cidx (lb (ix1 i))) k := by
  rw [v12_apply, ← row_pick TK (cidx (lb (ix1 i))) k]
  exact Finset.sum_congr rfl fun k' _ => congrArg (· * TK k' k) (v11_cidx lb i k')

def vK : EReal :=
  ∑ k : Fin 13, (Cert.KernelIdeal.Hand.stage_v20 lb (ix2 i k) : EReal) * (Cert.KernelIdeal.Hand.stage_v21 lb (ix2 j k) : EReal)

open Cert.KernelIdeal.Hand in
theorem vK_eq :
    vK lb i j = (if cidx (lb (ix1 i)) = cidx (lb (ix1 j)) then (1 : EReal) else 0)
      + Ideal.ofBits .f32 0x40000000#32 * TK (cidx (lb (ix1 i))) (cidx (lb (ix1 j))) := by
  have e : ∀ k : Fin 13, (stage_v20 lb (ix2 i k) : EReal) * (stage_v21 lb (ix2 j k) : EReal)
      = ((if cidx (lb (ix1 i)) = k then (1 : EReal) else 0) + Ideal.ofBits .f32 0x40000000#32 * TK (cidx (lb (ix1 i))) k)
        * (if cidx (lb (ix1 j)) = k then (1 : EReal) else 0) := by
    intro k
    rw [v20_apply, v21_apply, v11_cidx lb i k, v11_cidx lb j k, v12_cidx lb i k]
  unfold vK
  rw [Finset.sum_congr rfl fun k _ => e k]
  simp only [mul_ite, mul_one, mul_zero, Finset.sum_ite_eq, Finset.mem_univ, if_true]

theorem same_K :
    (Ideal.ofBits .f32 0x3F000000#32 < vK lb i j ∧ vK lb i j < Ideal.ofBits .f32 0x3FC00000#32)
      ↔ cidx (lb (ix1 i)) = cidx (lb (ix1 j)) := by
  rw [vK_eq]
  exact same_iff TK _ _ TK_01 TK_diag

theorem conf_K :
    Ideal.ofBits .f32 0x3FC00000#32 < vK lb i j ↔ TK (cidx (lb (ix1 i))) (cidx (lb (ix1 j))) = 1 := by
  rw [vK_eq]
  exact conf_iff TK _ _ TK_01 TK_diag

theorem valid_K :
    Ideal.ofBits .f32 0x3F000000#32 < (Cert.KernelIdeal.Hand.stage_v23 lb (ix2 (0 : Fin 1) j) : EReal)
      ↔ lb (ix1 j) ≠ 4294967196#32 := by
  rw [Cert.KernelIdeal.Hand.v23_apply]
  exact flag_gt_half _

theorem anchor_K :
    Cert.KernelIdeal.Hand.stage_v16 lb (ix1 i) = 1#1
      ↔ (lb (ix1 i) ≠ 4294967196#32 ∧ ∃ b, TK (cidx (lb (ix1 i))) b = 1) := by
  rw [Cert.KernelIdeal.Hand.v16_apply]
  refine and_congr Iff.rfl ?_
  rw [Finset.sum_congr rfl fun c _ => v12_cidx lb i c]
  exact anchor_iff TK _ TK_01

theorem anchor_mid (ha : Cert.KernelIdeal.Hand.stage_v16 lb (ix1 i) = 1#1) :
    (cidx (lb (ix1 i))).val ≠ 0 ∧ (cidx (lb (ix1 i))).val ≠ 12 :=
  TK_row _ ((anchor_K lb i).mp ha).2

theorem neg_diag : ¬ Ideal.ofBits .f32 0x3FC00000#32 < vK lb i i := by
  rw [conf_K, TK_diag]
  exact zero_ne_one

theorem pos_diag :
    ¬ ((Ideal.ofBits .f32 0x3F000000#32 < vK lb i i ∧ vK lb i i < Ideal.ofBits .f32 0x3FC00000#32)
      ∧ Ideal.ofBits .f32 0x3F000000#32 < (Cert.KernelIdeal.Hand.stage_v23 lb (ix2 (0 : Fin 1) i) : EReal) ∧ i ≠ i) :=
  fun h => h.2.2 rfl

end Kernel

section Bridge
variable (lb : (⟨Cert.KernelIdeal.S8192, .i32⟩ : BufTy).Contents (Elt Ideal)) (i j : Fin 8192)

theorem clamp_toInt_toNat (l : BitVec 32) : (clamp l).toInt.toNat = (clamp l).toNat := by
  have h := clamp_toNat_le l
  have e := BitVec.toInt_eq_toNat_cond (clamp l)
  split at e <;> omega

theorem clipIdx_eq : Cert.ReferenceIdeal.Hand.clipIdx lb i = cidx (lb (ix1 i)) :=
  Fin.ext (clamp_toInt_toNat (lb (ix1 i)))

theorem anchor_bridge :
    Cert.KernelIdeal.Hand.stage_v16 lb (ix1 i) = 1#1 ↔ Cert.ReferenceIdeal.Hand.stage_v20 lb (ix1 i) = 1#1 := by
  rw [anchor_K, Cert.ReferenceIdeal.Hand.v20_apply, clipIdx_eq]
  exact and_congr Iff.rfl (exists_congr fun b => TK_iff_R _ b)

theorem neg_bridge :
    (Ideal.ofBits .f32 0x3FC00000#32 < vK lb i j
      ∧ Ideal.ofBits .f32 0x3F000000#32 < (Cert.KernelIdeal.Hand.stage_v23 lb (ix2 (0 : Fin 1) j) : EReal))
      ↔ Cert.ReferenceIdeal.Hand.stage_v56 lb (ix2 i j) = 1#1 := by
  rw [conf_K, valid_K, Cert.ReferenceIdeal.Hand.v56_apply, clipIdx_eq, clipIdx_eq]
  exact and_congr (TK_iff_R _ _) Iff.rfl

theorem pos_bridge (ha : Cert.KernelIdeal.Hand.stage_v16 lb (ix1 i) = 1#1) :
    ((Ideal.ofBits .f32 0x3F000000#32 < vK lb i j ∧ vK lb i j < Ideal.ofBits .f32 0x3FC00000#32)
      ∧ Ideal.ofBits .f32 0x3F000000#32 < (Cert.KernelIdeal.Hand.stage_v23 lb (ix2 (0 : Fin 1) j) : EReal) ∧ i ≠ j)
      ↔ Cert.ReferenceIdeal.Hand.stage_v35 lb (ix2 i j) = 1#1 := by
  rw [same_K, valid_K, Cert.ReferenceIdeal.Hand.v35_apply]
  obtain ⟨h0, h12⟩ := anchor_mid lb i ha
  refine and_congr ⟨fun h => clamp_inj_mid _ _ h h0 h12, fun h => congrArg cidx h⟩ Iff.rfl

end Bridge

end Cert.Masks

end
-- ==== Proof.KIPayA.lean ====
import proofs.«429954_j35948876268191_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.WordArith

noncomputable section

open scoped BigOperators

namespace Cert.KernelIdeal.Hand

open Cert.KernelIdeal Cert.KernelIdeal.Gen Idealize.ShloMosaic ValueIdx

def tsim (x0 x1 : Vec Ideal S1024x256 .bf16) (r c : Fin 1024) : EReal :=
  ∑ k : Fin 256, x0 (ix2 r k) * x1 (ix2 c k)

def tv (x2 x3 : Vec Ideal S1024x13 .bf16) (r c : Fin 1024) : EReal :=
  ∑ k : Fin 13, x2 (ix2 r k) * x3 (ix2 c k)

theorem lhs_sim_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl

theorem lhs_sim_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q

theorem rhs_sim_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q

theorem rhs_sim_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

theorem pay8_apply (x0 x1 : Vec Ideal S1024x256 .bf16) (r c : Fin 1024) :
    k0_pay8 (F := Ideal) x0 x1 (ix2 r c) = tsim x0 x1 r c := by
  unfold k0_pay8 tsim
  refine (Ideal.matmul_constant_zero_apply dot_S1024x256_S256x1024_S1024x1024_1_0_0_1_n_n none _ _ (ix2 r c)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c)
      ((contrEquiv1 dot_S1024x256_S256x1024_S1024x1024_1_0_0_1_n_n 256 rfl rfl).symm k) = ix2 r k :=
    funext fun a => Fin.ext (by
      match a with
      | ⟨0, _⟩ => exact lhs_sim_0 _ _
      | ⟨1, _⟩ => exact (lhs_sim_1 _ _).trans hk)
  have er : dot_S1024x256_S256x1024_S1024x1024_1_0_0_1_n_n.rhsIdx (ix2 r c)
      ((contrEquiv1 dot_S1024x256_S256x1024_S1024x1024_1_0_0_1_n_n 256 rfl rfl).symm k) = ix2 k c :=
    funext fun a => Fin.ext (by
      match a with
      | ⟨0, _⟩ => exact (rhs_sim_0 _ _).trans hk
      | ⟨1, _⟩ => exact rhs_sim_1 _ _)
  rw [el, er, shapeCast_self, shapeCast_self, transpose_ix2_apply]

theorem lhs_lab_0 (i : S1024x1024.Idx) (q : dot_S1024x13_S13x1024_S1024x1024_1_0_0_1_n_n.contr.Idx) :
    (dot_S1024x13_S13x1024_S1024x1024_1_0_0_1_n_n.lhsIdx i q 0).val = (i 0).val := by
  unfold DotDims.lhsIdx
  rw [dif_neg (show ¬(0 : Fin S1024x13.rank) ∈ dot_S1024x13_S13x1024_S1024x1024_1_0_0_1_n_n.lhsBatch by decide),
    dif_pos (show (0 : Fin S1024x13.rank) ∈ dot_S1024x13_S13x1024_S1024x1024_1_0_0_1_n_n.lhsNonContracting by decide)]
  rfl

theorem lhs_lab_1 (i : S1024x1024.Idx) (q : dot_S1024x13_S13x1024_S1024x1024_1_0_0_1_n_n.contr.Idx) :
    (dot_S1024x13_S13x1024_S1024x1024_1_0_0_1_n_n.lhsIdx i q 1).val = (q ⟨0, by decide⟩).val :=
  dot_S1024x13_S13x1024_S1024x1024_1_0_0_1_n_n.lhsIdx_val_of_single rfl i q

theorem rhs_lab_0 (i : S1024x1024.Idx) (q : dot_S1024x13_S13x1024_S1024x1024_1_0_0_1_n_n.contr.Idx) :
    (dot_S1024x13_S13x1024_S1024x1024_1_0_0_1_n_n.rhsIdx i q 0).val = (q ⟨0, by decide⟩).val :=
  dot_S1024x13_S13x1024_S1024x1024_1_0_0_1_n_n.rhsIdx_val_of_single rfl i q

theorem rhs_lab_1 (i : S1024x1024.Idx) (q : dot_S1024x13_S13x1024_S1024x1024_1_0_0_1_n_n.contr.Idx) :
    (dot_S1024x13_S13x1024_S1024x1024_1_0_0_1_n_n.rhsIdx i q 1).val = (i 1).val := by
  unfold DotDims.rhsIdx
  rw [dif_neg (show ¬(1 : Fin S13x1024.rank) ∈ dot_S1024x13_S13x1024_S1024x1024_1_0_0_1_n_n.rhsBatch by decide),
    dif_pos (show (1 : Fin S13x1024.rank) ∈ dot_S1024x13_S13x1024_S1024x1024_1_0_0_1_n_n.rhsNonContracting by decide)]
  rfl

theorem pay9_apply (x2 x3 : Vec Ideal S1024x13 .bf16) (r c : Fin 1024) :
    k0_pay9 (F := Ideal) x2 x3 (ix2 r c) = tv x2 x3 r c := by
  unfold k0_pay9 tv
  refine (Ideal.matmul_constant_zero_apply dot_S1024x13_S13x1024_S1024x1024_1_0_0_1_n_n none _ _ (ix2 r c)).trans ?_
  rw [← Equiv.sum_comp (contrEquiv1 dot_S1024x13_S13x1024_S1024x1024_1_0_0_1_n_n 13 rfl rfl).symm]
  refine Finset.sum_congr rfl fun k _ => ?_
  have hk := contrEquiv1_symm_val dot_S1024x13_S13x1024_S1024x1024_1_0_0_1_n_n 13 rfl rfl k
  have el : dot_S1024x13_S13x1024_S1024x1024_1_0_0_1_n_n.lhsIdx (ix2 r c)
      ((contrEquiv1 dot_S1024x13_S13x1024_S1024x1024_1_0_0_1_n_n 13 rfl rfl).symm k) = ix2 r k :=
    funext fun a => Fin.ext (by
      match a with
      | ⟨0, _⟩ => exact lhs_lab_0 _ _
      | ⟨1, _⟩ => exact (lhs_lab_1 _ _).trans hk)
  have er : dot_S1024x13_S13x1024_S1024x1024_1_0_0_1_n_n.rhsIdx (ix2 r c)
      ((contrEquiv1 dot_S1024x13_S13x1024_S1024x1024_1_0_0_1_n_n 13 rfl rfl).symm k) = ix2 k c :=
    funext fun a => Fin.ext (by
      match a with
      | ⟨0, _⟩ => exact (rhs_lab_0 _ _).trans hk
      | ⟨1, _⟩ => exact rhs_lab_1 _ _)
  rw [el, er, shapeCast_self, shapeCast_self, transpose_ix2_apply]

theorem pay10_apply (x2 x3 : Vec Ideal S1024x13 .bf16) (r c : Fin 1024) :
    k0_pay10 (F := Ideal) x2 x3 (ix2 r c) = 1#1 ↔
      (Ideal.ofBits .f32 0x3F000000#32 < tv x2 x3 r c ∧ tv x2 x3 r c < Ideal.ofBits .f32 0x3FC00000#32) := by
  have e : k0_pay10 (F := Ideal) x2 x3 (ix2 r c) =
      IntOp.andi (Ideal.cmp .ogt (tv x2 x3 r c) (Ideal.ofBits .f32 0x3F000000#32))
        (Ideal.cmp .olt (tv x2 x3 r c) (Ideal.ofBits .f32 0x3FC00000#32)) := by
    rw [← pay9_apply]; rfl
  rw [e]
  simp only [Ideal.cmp, WordArith.andi_ofBool, WordArith.ofBool_eq_one_iff, Bool.and_eq_true, decide_eq_true_eq]

theorem pay11_apply (x2 x3 : Vec Ideal S1024x13 .bf16) (r c : Fin 1024) :
    k0_pay11 (F := Ideal) x2 x3 (ix2 r c) = 1#1 ↔ Ideal.ofBits .f32 0x3FC00000#32 < tv x2 x3 r c := by
  have e : k0_pay11 (F := Ideal) x2 x3 (ix2 r c) =
      Ideal.cmp .ogt (tv x2 x3 r c) (Ideal.ofBits .f32 0x3FC00000#32) := by
    rw [← pay9_apply]; rfl
  rw [e]
  simp only [Ideal.cmp, WordArith.ofBool_eq_one_iff, decide_eq_true_eq]

theorem word_lin (a r : Nat) (ha : a < 8) (hr : r < 1024) :
    (IntOp.addi (IntOp.muli (BitVec.ofNat 32 a) 1024#32) (BitVec.ofNat 32 r)).toNat = 1024 * a + r := by
  simp only [IntOp.addi, IntOp.muli, BitVec.toNat_add, BitVec.toNat_mul, BitVec.toNat_ofNat, Nat.reducePow]
  omega

theorem pay12_apply (i : grid0.Coords) (r c : Fin 1024) :
    k0_pay12 i (ix2 r c) = 1#1 ↔ 1024 * (i 0).val + r.val = 1024 * (i 1).val + c.val := by
  have h0 : iota .tc S1024x1024 32 [0] iota_S1024x1024_d0_w32 (ix2 r c) = BitVec.ofNat 32 r.val :=
    iota_single_apply .tc S1024x1024 32 0 _ (ix2 r c)
  have h1 : iota .tc S1024x1024 32 [1] iota_S1024x1024_d1_w32 (ix2 r c) = BitVec.ofNat 32 c.val :=
    iota_single_apply .tc S1024x1024 32 1 _ (ix2 r c)
  have e : k0_pay12 i (ix2 r c) = IntOp.cmpi .eq
      (IntOp.addi (IntOp.muli (BitVec.ofNat 32 (i 0).val) 1024#32) (BitVec.ofNat 32 r.val))
      (IntOp.addi (IntOp.muli (BitVec.ofNat 32 (i 1).val) 1024#32) (BitVec.ofNat 32 c.val)) := by
    rw [← h0, ← h1]; rfl
  have ha : (i 0).val < 8 := (i 0).isLt
  have hb : (i 1).val < 8 := (i 1).isLt
  rw [e]
  simp only [IntOp.cmpi, WordArith.ofBool_eq_one_iff, beq_iff_eq]
  constructor
  · intro h
    have h' := congrArg BitVec.toNat h
    rw [word_lin _ _ ha r.isLt, word_lin _ _ hb c.isLt] at h'
    exact h'
  · intro h
    apply BitVec.eq_of_toNat_eq
    rw [word_lin _ _ ha r.isLt, word_lin _ _ hb c.isLt]
    exact h

theorem pay13_apply (x4 : Vec Ideal S1x1024 .f32) (r c : Fin 1024) :
    k0_pay13 (F := Ideal) x4 (ix2 r c) = 1#1 ↔ Ideal.ofBits .f32 0x3F000000#32 < x4 (ix2 (0 : Fin 1) c) := by
  have hb : broadcastTo S1024x1024
      (shapeCast S1x1024 (shapeCast S1x1024 x4 shapeCasts_S1x1024_S1x1024) shapeCasts_S1x1024_S1x1024)
      broadcasts_S1x1024_S1024x1024 (ix2 r c) = x4 (ix2 (0 : Fin 1) c) := by
    rw [broadcastTo_1b_ab_apply, shapeCast_self, shapeCast_self]
  have e : k0_pay13 (F := Ideal) x4 (ix2 r c) =
      Ideal.cmp .ogt (x4 (ix2 (0 : Fin 1) c)) (Ideal.ofBits .f32 0x3F000000#32) := by
    rw [← hb]; rfl
  rw [e]
  simp only [Ideal.cmp, WordArith.ofBool_eq_one_iff, decide_eq_true_eq]

end Cert.KernelIdeal.Hand

end
-- ==== Proof.KIPayB.lean ====
import proofs.«429954_j35948876268191_2_alg».proof.Proof.Gen.KernelIdeal.Skeleton
import Idealize.ShloMosaic.Lib.ValueIdx
import Idealize.ShloMosaic.Lib.Pipeline.Value
import Idealize.ShloMosaic.PureOps.Ideal.Laws
import Mathlib.Data.Fintype.Lattice

noncomputable section

namespace Cert.KernelIdeal.Hand

open Cert.KernelIdeal Cert.KernelIdeal.Gen Idealize.ShloMosaic ValueIdx

private theorem ofBits_posInf : Ideal.ofBits .f32 0x7F800000#32 = ⊤ := by simp [Ideal.ofBits, Ideal.ieee]

private theorem ofBits_negInf : Ideal.ofBits .f32 0xFF800000#32 = ⊥ := by simp [Ideal.ofBits, Ideal.ieee]

private theorem ofBits_one : Ideal.ofBits .f32 0x3F800000#32 = 1 := by
  simp [Ideal.ofBits, Ideal.ieee, -EReal.coe_mul]; norm_num

private theorem fold_min_top {n : Nat} (f : Fin n → EReal) (z : EReal) (hz : z = ⊤) :
    (Finset.univ : Finset (Fin n)).fold min z f = ⨅ c, f c := by
  subst hz; exact Finset.inf_univ_eq_iInf f

private theorem fold_max_bot {n : Nat} (f : Fin n → EReal) (z : EReal) (hz : z = ⊥) :
    (Finset.univ : Finset (Fin n)).fold max z f = ⨆ c, f c := by
  subst hz; exact Finset.sup_univ_eq_iSup f

private theorem lift_row (r c : Fin 1024) : reduces_S1024x1024_S1024.lift (ix1 r) c = ix2 r c := by
  funext d; match d with | ⟨0, _⟩ => rfl | ⟨1, _⟩ => rfl

private theorem castCol_apply {α : Type} (x : S1024.Idx → α) (r : Fin 1024) :
    shapeCast S1024x1 x shapeCasts_S1024_S1024x1 (ix2 r (0 : Fin 1)) = x (ix1 r) :=
  shapeCast_apply x _ _ _ (by
    rw [Shape.rowMajor_val_one, Shape.rowMajor_val_two]
    show r.val = r.val * 1 + 0
    omega)

private theorem rowMin_apply (x : FVec Ideal S1024x1024 .f32) (r : Fin 1024) :
    multiReduction (F := Ideal) .minimumf [1] S1024 x 0x7F800000#32 reduces_S1024x1024_S1024 (.inl rfl) rfl (ix1 r)
      = ⨅ c : Fin 1024, x (ix2 r c) := by
  refine (multiReduction_minimumf_eq_fold x _ reduces_S1024x1024_S1024 _ _ (ix1 r)).trans ?_
  refine (reduces_S1024x1024_S1024.fold_filter_drop_single _ _ x (ix1 r)).trans ?_
  show (Finset.univ : Finset (Fin 1024)).fold min (Ideal.ofBits .f32 0x7F800000#32)
      (fun c => x (reduces_S1024x1024_S1024.lift (ix1 r) c)) = _
  exact (fold_min_top _ _ ofBits_posInf).trans (iInf_congr fun c => congrArg x (lift_row r c))

private theorem rowMax_apply (x : FVec Ideal S1024x1024 .f32) (r : Fin 1024) :
    multiReduction (F := Ideal) .maximumf [1] S1024 x 0xFF800000#32 reduces_S1024x1024_S1024 (.inl rfl) rfl (ix1 r)
      = ⨆ c : Fin 1024, x (ix2 r c) := by
  refine (Ideal.multiReduction_maximumf_single x _ reduces_S1024x1024_S1024 _ _ (ix1 r)).trans ?_
  show (Finset.univ : Finset (Fin 1024)).fold max (Ideal.ofBits .f32 0xFF800000#32)
      (fun c => x (reduces_S1024x1024_S1024.lift (ix1 r) c)) = _
  exact (fold_max_bot _ _ ofBits_negInf).trans (iSup_congr fun c => congrArg x (lift_row r c))

def mpos (v19 v30 v36 : IVec S1024x1024 1) (r c : Fin 1024) : Bool :=
  decide (v19 (ix2 r c) = 1#1) && decide (v36 (ix2 r c) = 1#1) && !decide (v30 (ix2 r c) = 1#1)

def mneg (v21 v36 : IVec S1024x1024 1) (r c : Fin 1024) : Bool :=
  decide (v21 (ix2 r c) = 1#1) && decide (v36 (ix2 r c) = 1#1)

private theorem bit_pos (a b c : BitVec 1) :
    IntOp.andi (IntOp.andi a b) (IntOp.xori c 1#1) = 1#1
      ↔ (decide (a = 1#1) && decide (b = 1#1) && !decide (c = 1#1)) = true := by
  rcases BitVec.eq_zero_or_eq_one a with rfl | rfl <;> rcases BitVec.eq_zero_or_eq_one b with rfl | rfl <;>
    rcases BitVec.eq_zero_or_eq_one c with rfl | rfl <;> decide

private theorem bit_neg (a b : BitVec 1) :
    IntOp.andi a b = 1#1 ↔ (decide (a = 1#1) && decide (b = 1#1)) = true := by
  rcases BitVec.eq_zero_or_eq_one a with rfl | rfl <;> rcases BitVec.eq_zero_or_eq_one b with rfl | rfl <;> decide

theorem select_pay14 {α : Type} (v19 v30 v36 : IVec S1024x1024 1) (r c : Fin 1024) (a b : α) :
    Scalar.select (k0_pay14 v19 v30 v36 (ix2 r c)) a b = if mpos v19 v30 v36 r c then a else b := by
  have h := bit_pos (v19 (ix2 r c)) (v36 (ix2 r c)) (v30 (ix2 r c))
  show (if IntOp.andi (IntOp.andi (v19 (ix2 r c)) (v36 (ix2 r c))) (IntOp.xori (v30 (ix2 r c)) 1#1) = 1#1
    then a else b) = _
  by_cases hm : mpos v19 v30 v36 r c = true
  · rw [if_pos hm, if_pos (h.mpr hm)]
  · rw [if_neg hm, if_neg (fun e => hm (h.mp e))]

theorem select_pay15 {α : Type} (v21 v36 : IVec S1024x1024 1) (r c : Fin 1024) (a b : α) :
    Scalar.select (k0_pay15 v21 v36 (ix2 r c)) a b = if mneg v21 v36 r c then a else b := by
  have h := bit_neg (v21 (ix2 r c)) (v36 (ix2 r c))
  show (if IntOp.andi (v21 (ix2 r c)) (v36 (ix2 r c)) = 1#1 then a else b) = _
  by_cases hm : mneg v21 v36 r c = true
  · rw [if_pos hm, if_pos (h.mpr hm)]
  · rw [if_neg hm, if_neg (fun e => hm (h.mp e))]

private theorem sitofp_bit (p : Prop) [Decidable p] :
    FloatOps.sitofp (F := Ideal) .f32 (BitVec.setWidth 32 (BitVec.ofBool (decide p))) = if p then (1 : EReal) else 0 := by
  by_cases h : p
  · rw [if_pos h, decide_eq_true h]
    show (((BitVec.setWidth 32 (BitVec.ofBool true)).toInt : ℝ) : EReal) = 1
    have e : (BitVec.setWidth 32 (BitVec.ofBool true)).toInt = 1 := by decide
    rw [e]; simp
  · rw [if_neg h, decide_eq_false h]
    show (((BitVec.setWidth 32 (BitVec.ofBool false)).toInt : ℝ) : EReal) = 0
    have e : (BitVec.setWidth 32 (BitVec.ofBool false)).toInt = 0 := by decide
    rw [e]; simp

private theorem anyRow (m : Fin 1024 → Bool) (f : Fin 1024 → EReal)
    (hf : ∀ c, f c = if m c then Ideal.ofBits .f32 0x3F800000#32 else Ideal.ofBits .f32 0x00000000#32) :
    FloatOps.sitofp (F := Ideal) .f32 (BitVec.setWidth 32
        (Ideal.cmp .ogt (⨆ c : Fin 1024, f c) (Ideal.ofBits .f32 0x00000000#32)))
      = if ∃ c, m c = true then (1 : EReal) else 0 := by
  rw [show f = fun c => if m c then Ideal.ofBits .f32 0x3F800000#32 else Ideal.ofBits .f32 0x00000000#32 from funext hf,
    ofBits_one, Ideal.ofBits_zero_f32]
  have hlt : (0 : EReal) < (⨆ c : Fin 1024, if m c then (1 : EReal) else 0) ↔ ∃ c, m c = true := by
    rw [lt_iSup_iff]
    refine exists_congr fun c => ?_
    cases m c <;> simp
  refine (sitofp_bit _).trans ?_
  exact if_congr hlt rfl rfl

private theorem flag_apply (x : FVec Ideal S1024x1024 .f32) (r : Fin 1024) :
    (sitofp .f32 (extui 32 (shapeCast S1024x1
        (cmpf .ogt
          (multiReduction (F := Ideal) .maximumf [1] S1024 x 0xFF800000#32 reduces_S1024x1024_S1024 (.inl rfl) rfl)
          (broadcast S1024 (Scalar.ofBits (F := Ideal) .f32 0x00000000#32)))
        shapeCasts_S1024_S1024x1) natLt_1_32) : FVec Ideal S1024x1 .f32) (ix2 r 0)
      = FloatOps.sitofp (F := Ideal) .f32 (BitVec.setWidth 32
          (Ideal.cmp .ogt (⨆ c : Fin 1024, x (ix2 r c)) (Ideal.ofBits .f32 0x00000000#32))) := by
  show FloatOps.sitofp (F := Ideal) .f32 (BitVec.setWidth 32 (shapeCast S1024x1
      (cmpf .ogt
        (multiReduction (F := Ideal) .maximumf [1] S1024 x 0xFF800000#32 reduces_S1024x1024_S1024 (.inl rfl) rfl)
        (broadcast S1024 (Scalar.ofBits (F := Ideal) .f32 0x00000000#32)))
      shapeCasts_S1024_S1024x1 (ix2 r 0))) = _
  rw [castCol_apply, cmpf_apply, Ideal.cmpf_def, rowMax_apply, broadcast_apply, Ideal.ofBits_def]

theorem pay18_apply (v8 : FVec Ideal S1024x1024 .f32) (v19 v30 v36 : IVec S1024x1024 1) (s : Vec Ideal S1024x1 .f32)
    (r : Fin 1024) :
    k0_pay18 (F := Ideal) v8 v19 v30 v36 s (ix2 r 0)
      = min (s (ix2 r 0))
          (⨅ c : Fin 1024, if mpos v19 v30 v36 r c then v8 (ix2 r c) else Ideal.ofBits .f32 0x4E6E6B28#32) := by
  unfold k0_pay18
  refine (congrFun (shapeCast_self _ _) (ix2 r 0)).trans ?_
  refine congrArg (min (s (ix2 r 0))) ?_
  refine (castCol_apply _ r).trans ?_
  refine (rowMin_apply _ r).trans ?_
  exact iInf_congr fun c => select_pay14 v19 v30 v36 r c _ _

theorem pay19_apply (v8 : FVec Ideal S1024x1024 .f32) (v21 v36 : IVec S1024x1024 1) (s : Vec Ideal S1024x1 .f32)
    (r : Fin 1024) :
    k0_pay1 (F := Ideal) (k0_pay19 (F := Ideal) v8 v21 v36 s) (ix2 r 0)
      = max (s (ix2 r 0))
          (⨆ c : Fin 1024, if mneg v21 v36 r c then v8 (ix2 r c) else Ideal.ofBits .f32 0xCE6E6B28#32) := by
  unfold k0_pay1 k0_pay19
  refine (congrFun (shapeCast_self _ _) (ix2 r 0)).trans ?_
  refine congrArg (max (s (ix2 r 0))) ?_
  refine (castCol_apply _ r).trans ?_
  refine (rowMax_apply _ r).trans ?_
  exact iSup_congr fun c => select_pay15 v21 v36 r c _ _

theorem pay16_apply (v19 v30 v36 : IVec S1024x1024 1) (s : Vec Ideal S1024x1 .f32) (r : Fin 1024) :
    k0_pay2 (F := Ideal) (k0_pay16 (F := Ideal) v19 v30 v36) s (ix2 r 0)
      = max (s (ix2 r 0)) (if ∃ c : Fin 1024, mpos v19 v30 v36 r c = true then (1 : EReal) else 0) := by
  unfold k0_pay2 k0_pay16
  refine (congrFun (shapeCast_self _ _) (ix2 r 0)).trans ?_
  refine congrArg (max (s (ix2 r 0))) ?_
  refine (flag_apply _ r).trans ?_
  exact anyRow (fun c => mpos v19 v30 v36 r c) _ (fun c => select_pay14 v19 v30 v36 r c _ _)

theorem pay17_apply (v21 v36 : IVec S1024x1024 1) (s : Vec Ideal S1024x1 .f32) (r : Fin 1024) :
    k0_pay3 (F := Ideal) (k0_pay17 (F := Ideal) v21 v36) s (ix2 r 0)
      = max (s (ix2 r 0)) (if ∃ c : Fin 1024, mneg v21 v36 r c = true then (1 : EReal) else 0) := by
  unfold k0_pay3 k0_pay17
  refine (congrFun (shapeCast_self _ _) (ix2 r 0)).trans ?_
  refine congrArg (max (s (ix2 r 0))) ?_
  refine (flag_apply _ r).trans ?_
  exact anyRow (fun c => mneg v21 v36 r c) _ (fun c => select_pay15 v21 v36 r c _ _)

theorem pay4_apply (r : Fin 1024) : k0_pay4 (F := Ideal) (ix2 r 0) = Ideal.ofBits .f32 0x4E6E6B28#32 := by
  unfold k0_pay4
  exact congrFun (shapeCast_self _ _) (ix2 r 0)

theorem pay5_apply (r : Fin 1024) : k0_pay5 (F := Ideal) (ix2 r 0) = Ideal.ofBits .f32 0xCE6E6B28#32 := by
  unfold k0_pay5
  exact congrFun (shapeCast_self _ _) (ix2 r 0)

theorem pay6_apply (r : Fin 1024) : k0_pay6 (F := Ideal) (ix2 r 0) = 0 := by
  unfold k0_pay6
  exact (congrFun (shapeCast_self _ _) (ix2 r 0)).trans Ideal.ofBits_zero_f32

theorem pay7_apply (r : Fin 1024) : k0_pay7 (F := Ideal) (ix2 r 0) = 0 := by
  unfold k0_pay7
  exact (congrFun (shapeCast_self _ _) (ix2 r 0)).trans Ideal.ofBits_zero_f32

end Cert.KernelIdeal.Hand

end
-- ==== Proof.KIBlocks.lean ====
import proofs.«429954_j35948876268191_2_alg».proof.Proof.KIRuns
import proofs.«429954_j35948876268191_2_alg».proof.Proof.TileMath
import Idealize.ShloMosaic.Lib.ValueIdx
import Idealize.ShloMosaic.Lib.Pipeline.Value

noncomputable section

namespace Cert.KernelIdeal.Hand

open Cert.KernelIdeal Cert.KernelIdeal.Gen Cert.TileMath
open Idealize.ShloMosaic Idealize.ShloMosaic.TcCoe Idealize.SL.Sem ValueIdx

variable {F : FTy → Type} [FloatOps F]
variable (m : (ℓ : Loc nD τ sig) → Buf (Elt F) ℓ)

def pt (t : Fin cfg0.N) : Fin 64 := ⟨t.val, by have h : cfg0.N = 64 := N_0; have := t.isLt; omega⟩

theorem pt_val (t : Fin cfg0.N) : (pt t).val = t.val := rfl

theorem idx_in0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

theorem idx_in1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

theorem idx_in2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

theorem idx_in3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)

theorem idx_in4 : ∀ t : Fin cfg0.N, win0_4.index t (0 : Fin 2) = 0 ∧ win0_4.index t (1 : Fin 2) = t.val % 8 :=
  (by decide +kernel : ∀ t : Fin grid0.N, win0_4.index t (0 : Fin 2) = 0 ∧ win0_4.index t (1 : Fin 2) = t.val % 8)

theorem idx_out5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

theorem idx_out6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

theorem idx_out7 : ∀ t : Fin cfg0.N, win0_7.index t (0 : Fin 2) = t.val / 8 ∧ win0_7.index t (1 : Fin 2) = 0 :=
  (by decide +kernel : ∀ t : Fin grid0.N, win0_7.index t (0 : Fin 2) = t.val / 8 ∧ win0_7.index t (1 : Fin 2) = 0)

theorem idx_out8 : ∀ t : Fin cfg0.N, win0_8.index t (0 : Fin 2) = t.val / 8 ∧ win0_8.index t (1 : Fin 2) = 0 :=
  (by decide +kernel : ∀ t : Fin grid0.N, win0_8.index t (0 : Fin 2) = t.val / 8 ∧ win0_8.index t (1 : Fin 2) = 0)

abbrev xblk0 (c : Dev nD) (t : Fin cfg0.N) : Vec F S1024x256 .bf16 := iblk m c 0 t

abbrev xblk1 (c : Dev nD) (t : Fin cfg0.N) : Vec F S1024x256 .bf16 := iblk m c 1 t

abbrev xblk2 (c : Dev nD) (t : Fin cfg0.N) : Vec F S1024x13 .bf16 := iblk m c 2 t

abbrev xblk3 (c : Dev nD) (t : Fin cfg0.N) : Vec F S1024x13 .bf16 := iblk m c 3 t

abbrev xblk4 (c : Dev nD) (t : Fin cfg0.N) : Vec F S1x1024 .f32 := iblk m c 4 t

abbrev arr9 (c : Dev nD) : Vec F S8192x256 .bf16 := V m c main_v9

abbrev arr20 (c : Dev nD) : Vec F S8192x13 .bf16 := V m c main_v20

abbrev arr21 (c : Dev nD) : Vec F S8192x13 .bf16 := V m c main_v21

abbrev arr23 (c : Dev nD) : Vec F S1x8192 .f32 := V m c main_v23

theorem iblk0_apply (c : Dev nD) (t : Fin cfg0.N) (r : Fin 1024) (k : Fin 256) :
    xblk0 m c t (ix2 r k) = arr9 m c (ix2 (rowOf (ptRow (pt t)) r) k) := by
  have hi := idx_in0 t
  unfold xblk0 arr9 iblk
  rw [View.read_apply]
  show V m c main_v9 _ = V m c main_v9 _
  congr 1
  funext a
  apply Fin.ext
  match a with
  | ⟨0, _⟩ => show win0_0.index t 0 * 1024 + 1 * r.val = 1024 * (t.val / 8) + r.val; rw [hi.1]; omega
  | ⟨1, _⟩ => show win0_0.index t 1 * 256 + 1 * k.val = k.val; rw [hi.2]; omega

theorem iblk1_apply (c : Dev nD) (t : Fin cfg0.N) (r : Fin 1024) (k : Fin 256) :
    xblk1 m c t (ix2 r k) = arr9 m c (ix2 (rowOf (ptCol (pt t)) r) k) := by
  have hi := idx_in1 t
  unfold xblk1 arr9 iblk
  rw [View.read_apply]
  show V m c main_v9 _ = V m c main_v9 _
  congr 1
  funext a
  apply Fin.ext
  match a with
  | ⟨0, _⟩ => show win0_1.index t 0 * 1024 + 1 * r.val = 1024 * (t.val % 8) + r.val; rw [hi.1]; omega
  | ⟨1, _⟩ => show win0_1.index t 1 * 256 + 1 * k.val = k.val; rw [hi.2]; omega

theorem iblk2_apply (c : Dev nD) (t : Fin cfg0.N) (r : Fin 1024) (k : Fin 13) :
    xblk2 m c t (ix2 r k) = arr20 m c (ix2 (rowOf (ptRow (pt t)) r) k) := by
  have hi := idx_in2 t
  unfold xblk2 arr20 iblk
  rw [View.read_apply]
  show V m c main_v20 _ = V m c main_v20 _
  congr 1
  funext a
  apply Fin.ext
  match a with
  | ⟨0, _⟩ => show win0_2.index t 0 * 1024 + 1 * r.val = 1024 * (t.val / 8) + r.val; rw [hi.1]; omega
  | ⟨1, _⟩ => show win0_2.index t 1 * 13 + 1 * k.val = k.val; rw [hi.2]; omega

theorem iblk3_apply (c : Dev nD) (t : Fin cfg0.N) (r : Fin 1024) (k : Fin 13) :
    xblk3 m c t (ix2 r k) = arr21 m c (ix2 (rowOf (ptCol (pt t)) r) k) := by
  have hi := idx_in3 t
  unfold xblk3 arr21 iblk
  rw [View.read_apply]
  show V m c main_v21 _ = V m c main_v21 _
  congr 1
  funext a
  apply Fin.ext
  match a with
  | ⟨0, _⟩ => show win0_3.index t 0 * 1024 + 1 * r.val = 1024 * (t.val % 8) + r.val; rw [hi.1]; omega
  | ⟨1, _⟩ => show win0_3.index t 1 * 13 + 1 * k.val = k.val; rw [hi.2]; omega

theorem iblk4_apply (c : Dev nD) (t : Fin cfg0.N) (cc : Fin 1024) :
    xblk4 m c t (ix2 (0 : Fin 1) cc) = arr23 m c (ix2 (0 : Fin 1) (rowOf (ptCol (pt t)) cc)) := by
  have hi := idx_in4 t
  unfold xblk4 arr23 iblk
  rw [View.read_apply]
  show V m c main_v23 _ = V m c main_v23 _
  congr 1
  funext a
  apply Fin.ext
  match a with
  | ⟨0, _⟩ => show win0_4.index t 0 * 1 + 1 * 0 = 0; rw [hi.1]
  | ⟨1, _⟩ => show win0_4.index t 1 * 1024 + 1 * cc.val = 1024 * (t.val % 8) + cc.val; rw [hi.2]; omega

-- An index lies in the block of rows of a point exactly when its row lies in that block of 1024 rows.
theorem blk_rows_iff (ix : Fin 2 → ℕ) (n : ℕ) (e0 : ix 0 = n) (e1 : ix 1 = 0) (i : S8192x1.Idx) :
    (∀ a : Fin 2, ix a * S1024x1.size a ≤ (i a).val ∧ (i a).val < ix a * S1024x1.size a + S1024x1.size a) ↔ (i 0).val / 1024 = n := by
  have hi1 : (i 1).val < 1 := (i 1).isLt
  constructor
  · intro h
    have b0 : ix 0 * 1024 ≤ (i 0).val ∧ (i 0).val < ix 0 * 1024 + 1024 := h 0
    omega
  · intro h a
    match a with
    | ⟨0, _⟩ =>
      show ix 0 * 1024 ≤ (i 0).val ∧ (i 0).val < ix 0 * 1024 + 1024
      omega
    | ⟨1, _⟩ =>
      show ix 1 * 1 ≤ (i 1).val ∧ (i 1).val < ix 1 * 1 + 1
      omega

theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v24_0).slice (win0_5.rect t)).set ↔ _
  rw [View.set_slice_whole, Rect.mem_set_unit]
  exact Iff.rfl

theorem mem_blk5_iff (t : Fin cfg0.N) (i : S8192x1.Idx) :
    i ∈ ((cfg0.win 5).blk t).view.set ↔ (i 0).val / 1024 = t.val / 8 :=
  (mem_blk5 t i).trans (blk_rows_iff _ _ (idx_out5 t).1 (idx_out5 t).2 i)

theorem mem_blk6 (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v24_1).slice (win0_6.rect t)).set ↔ _
  rw [View.set_slice_whole, Rect.mem_set_unit]
  exact Iff.rfl

theorem mem_blk6_iff (t : Fin cfg0.N) (i : S8192x1.Idx) :
    i ∈ ((cfg0.win 6).blk t).view.set ↔ (i 0).val / 1024 = t.val / 8 :=
  (mem_blk6 t i).trans (blk_rows_iff _ _ (idx_out6 t).1 (idx_out6 t).2 i)

theorem mem_blk7 (t : Fin cfg0.N) (i : S8192x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_v24_2).slice (win0_7.rect t)).set ↔ _
  rw [View.set_slice_whole, Rect.mem_set_unit]
  exact Iff.rfl

theorem mem_blk7_iff (t : Fin cfg0.N) (i : S8192x1.Idx) :
    i ∈ ((cfg0.win 7).blk t).view.set ↔ (i 0).val / 1024 = t.val / 8 :=
  (mem_blk7 t i).trans (blk_rows_iff _ _ (idx_out7 t).1 (idx_out7 t).2 i)

theorem mem_blk8 (t : Fin cfg0.N) (i : S8192x1.Idx) :
    i ∈ ((cfg0.win 8).blk t).view.set ↔ ∀ a : Fin 2, win0_8.index t a * S1024x1.size a ≤ (i a).val
      ∧ (i a).val < win0_8.index t a * S1024x1.size a + S1024x1.size a := by
  show i ∈ ((View.whole main_v24_3).slice (win0_8.rect t)).set ↔ _
  rw [View.set_slice_whole, Rect.mem_set_unit]
  exact Iff.rfl

theorem mem_blk8_iff (t : Fin cfg0.N) (i : S8192x1.Idx) :
    i ∈ ((cfg0.win 8).blk t).view.set ↔ (i 0).val / 1024 = t.val / 8 :=
  (mem_blk8 t i).trans (blk_rows_iff _ _ (idx_out8 t).1 (idx_out8 t).2 i)

end Cert.KernelIdeal.Hand

end
-- ==== Proof.Spec.lean ====
import Idealize.ShloMosaic.PureOps.Ideal

noncomputable section

namespace Cert.Spec

open Idealize.ShloMosaic

abbrev NA : Nat := 8192

variable (big nbig half : EReal)

def hardestPos (sim : Fin NA → Fin NA → EReal) (pos : Fin NA → Fin NA → Bool) (i : Fin NA) : EReal :=
  ⨅ j : Fin NA, if pos i j then sim i j else big

def hardestNeg (sim : Fin NA → Fin NA → EReal) (neg : Fin NA → Fin NA → Bool) (i : Fin NA) : EReal :=
  ⨆ j : Fin NA, if neg i j then sim i j else nbig

def hasAny (p : Fin NA → Fin NA → Bool) (i : Fin NA) : Bool := decide (∃ j : Fin NA, p i j = true)

def counts (anchor : Fin NA → Bool) (pos neg : Fin NA → Fin NA → Bool) (i : Fin NA) : Bool :=
  anchor i && hasAny pos i && hasAny neg i

def triplet (sim : Fin NA → Fin NA → EReal) (anchor : Fin NA → Bool) (pos neg : Fin NA → Fin NA → Bool) (i : Fin NA) : EReal :=
  if counts anchor pos neg i then max (half + hardestNeg nbig sim neg i - hardestPos big sim pos i) 0 else 0

def numTriplets (anchor : Fin NA → Bool) (pos neg : Fin NA → Fin NA → Bool) : EReal :=
  ∑ i : Fin NA, if counts anchor pos neg i then (1 : EReal) else 0

def loss (sim : Fin NA → Fin NA → EReal) (anchor : Fin NA → Bool) (pos neg : Fin NA → Fin NA → Bool) : EReal :=
  if 0 < numTriplets anchor pos neg then
    Ideal.div (∑ i : Fin NA, triplet big nbig half sim anchor pos neg i) (max (numTriplets anchor pos neg) 1)
  else 0

theorem loss_congr_pos (sim : Fin NA → Fin NA → EReal) (anchor : Fin NA → Bool) (pos pos' neg : Fin NA → Fin NA → Bool)
    (h : ∀ i, anchor i = true → ∀ j, pos i j = pos' i j) :
    loss big nbig half sim anchor pos neg = loss big nbig half sim anchor pos' neg := by
  have hc : ∀ i, counts anchor pos neg i = counts anchor pos' neg i := by
    intro i
    unfold counts hasAny
    cases ha : anchor i with
    | false => simp
    | true => simp only [h i ha]
  have ht : ∀ i, triplet big nbig half sim anchor pos neg i = triplet big nbig half sim anchor pos' neg i := by
    intro i
    unfold triplet
    rw [← hc i]
    by_cases hci : counts anchor pos neg i = true
    · have ha : anchor i = true := by
        unfold counts at hci
        cases ha : anchor i with
        | false => simp [ha] at hci
        | true => rfl
      simp only [hci, if_true]
      unfold hardestPos
      simp only [h i ha]
    · simp [hci]
  unfold loss numTriplets
  simp only [hc, ht]

end Cert.Spec

end
-- ==== Proof.KIRegionDefs.lean ====
import proofs.«429954_j35948876268191_2_alg».proof.Proof.KIPayA
import proofs.«429954_j35948876268191_2_alg».proof.Proof.KIPayB
import proofs.«429954_j35948876268191_2_alg».proof.Proof.KIBlocks
import proofs.«429954_j35948876268191_2_alg».proof.Proof.TileMath
import proofs.«429954_j35948876268191_2_alg».proof.Proof.Spec

noncomputable section

open scoped BigOperators

namespace Cert.KernelIdeal.Hand

open Cert.KernelIdeal Cert.KernelIdeal.Gen Cert.TileMath
open Idealize.ShloMosaic Idealize.ShloMosaic.TcCoe Idealize.SL.Sem ValueIdx

variable (m : (ℓ : Loc nD τ sig) → Buf (Elt Ideal) ℓ)

def simK (c : Dev nD) (i j : Fin 8192) : EReal := ∑ k : Fin 256, arr9 m c (ix2 i k) * arr9 m c (ix2 j k)

def vK (c : Dev nD) (i j : Fin 8192) : EReal := ∑ k : Fin 13, arr20 m c (ix2 i k) * arr21 m c (ix2 j k)

def posK (c : Dev nD) (i j : Fin 8192) : Bool :=
  decide (Ideal.ofBits .f32 0x3F000000#32 < vK m c i j ∧ vK m c i j < Ideal.ofBits .f32 0x3FC00000#32)
    && decide (Ideal.ofBits .f32 0x3F000000#32 < arr23 m c (ix2 (0 : Fin 1) j)) && !decide (i = j)

def negK (c : Dev nD) (i j : Fin 8192) : Bool :=
  decide (Ideal.ofBits .f32 0x3FC00000#32 < vK m c i j)
    && decide (Ideal.ofBits .f32 0x3F000000#32 < arr23 m c (ix2 (0 : Fin 1) j))

theorem coords_pt : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

variable (c : Dev nD) (t : Fin cfg0.N)

theorem tile_sim (r cc : Fin 1024) :
    tsim (xblk0 m c t) (xblk1 m c t) r cc = simK m c (rowOf (ptRow (pt t)) r) (rowOf (ptCol (pt t)) cc) := by
  unfold tsim simK
  exact Finset.sum_congr rfl fun k _ => by rw [iblk0_apply, iblk1_apply]

theorem tile_v (r cc : Fin 1024) :
    tv (xblk2 m c t) (xblk3 m c t) r cc = vK m c (rowOf (ptRow (pt t)) r) (rowOf (ptCol (pt t)) cc) := by
  unfold tv vK
  exact Finset.sum_congr rfl fun k _ => by rw [iblk2_apply, iblk3_apply]

theorem tile_pos (r cc : Fin 1024) :
    mpos (k0_pay10 (F := Ideal) (xblk2 m c t) (xblk3 m c t)) (k0_pay12 (grid0.coords t))
        (k0_pay13 (F := Ideal) (xblk4 m c t)) r cc
      = posK m c (rowOf (ptRow (pt t)) r) (rowOf (ptCol (pt t)) cc) := by
  have h1 : decide (k0_pay10 (F := Ideal) (xblk2 m c t) (xblk3 m c t) (ix2 r cc) = 1#1)
      = decide (Ideal.ofBits .f32 0x3F000000#32 < vK m c (rowOf (ptRow (pt t)) r) (rowOf (ptCol (pt t)) cc)
          ∧ vK m c (rowOf (ptRow (pt t)) r) (rowOf (ptCol (pt t)) cc) < Ideal.ofBits .f32 0x3FC00000#32) :=
    decide_eq_decide.mpr (by rw [pay10_apply, tile_v])
  have h2 : decide (k0_pay13 (F := Ideal) (xblk4 m c t) (ix2 r cc) = 1#1)
      = decide (Ideal.ofBits .f32 0x3F000000#32 < arr23 m c (ix2 (0 : Fin 1) (rowOf (ptCol (pt t)) cc))) :=
    decide_eq_decide.mpr (by rw [pay13_apply, iblk4_apply])
  have h3 : decide (k0_pay12 (grid0.coords t) (ix2 r cc) = 1#1)
      = decide (rowOf (ptRow (pt t)) r = rowOf (ptCol (pt t)) cc) :=
    decide_eq_decide.mpr (by
      obtain ⟨e0, e1⟩ := coords_pt t
      rw [pay12_apply, e0, e1]
      show (rowOf (ptRow (pt t)) r).val = (rowOf (ptCol (pt t)) cc).val ↔ _
      exact Fin.ext_iff.symm)
  unfold mpos posK
  rw [h1, h2, h3]

theorem tile_neg (r cc : Fin 1024) :
    mneg (k0_pay11 (F := Ideal) (xblk2 m c t) (xblk3 m c t)) (k0_pay13 (F := Ideal) (xblk4 m c t)) r cc
      = negK m c (rowOf (ptRow (pt t)) r) (rowOf (ptCol (pt t)) cc) := by
  have h1 : decide (k0_pay11 (F := Ideal) (xblk2 m c t) (xblk3 m c t) (ix2 r cc) = 1#1)
      = decide (Ideal.ofBits .f32 0x3FC00000#32 < vK m c (rowOf (ptRow (pt t)) r) (rowOf (ptCol (pt t)) cc)) :=
    decide_eq_decide.mpr (by rw [pay11_apply, tile_v])
  have h2 : decide (k0_pay13 (F := Ideal) (xblk4 m c t) (ix2 r cc) = 1#1)
      = decide (Ideal.ofBits .f32 0x3F000000#32 < arr23 m c (ix2 (0 : Fin 1) (rowOf (ptCol (pt t)) cc))) :=
    decide_eq_decide.mpr (by rw [pay13_apply, iblk4_apply])
  unfold mneg negK
  rw [h1, h2]

def tilePos (i : Fin 8192) (j : Fin 8) : EReal :=
  ⨅ cc : Fin 1024, if posK m c i (rowOf j cc) then simK m c i (rowOf j cc) else Ideal.ofBits .f32 0x4E6E6B28#32

def tileNeg (i : Fin 8192) (j : Fin 8) : EReal :=
  ⨆ cc : Fin 1024, if negK m c i (rowOf j cc) then simK m c i (rowOf j cc) else Ideal.ofBits .f32 0xCE6E6B28#32

theorem tile18 (s : Vec Ideal S1024x1 .f32) (r : Fin 1024) :
    k0_pay18 (F := Ideal) (k0_pay8 (F := Ideal) (xblk0 m c t) (xblk1 m c t))
        (k0_pay10 (F := Ideal) (xblk2 m c t) (xblk3 m c t)) (k0_pay12 (grid0.coords t))
        (k0_pay13 (F := Ideal) (xblk4 m c t)) s (ix2 r 0)
      = min (s (ix2 r 0)) (tilePos m c (rowOf (ptRow (pt t)) r) (ptCol (pt t))) := by
  rw [pay18_apply]
  refine congrArg (min (s (ix2 r 0))) (iInf_congr fun cc => ?_)
  rw [tile_pos, pay8_apply, tile_sim]

theorem tile19 (s : Vec Ideal S1024x1 .f32) (r : Fin 1024) :
    k0_pay1 (F := Ideal) (k0_pay19 (F := Ideal) (k0_pay8 (F := Ideal) (xblk0 m c t) (xblk1 m c t))
        (k0_pay11 (F := Ideal) (xblk2 m c t) (xblk3 m c t)) (k0_pay13 (F := Ideal) (xblk4 m c t)) s) (ix2 r 0)
      = max (s (ix2 r 0)) (tileNeg m c (rowOf (ptRow (pt t)) r) (ptCol (pt t))) := by
  rw [pay19_apply]
  refine congrArg (max (s (ix2 r 0))) (iSup_congr fun cc => ?_)
  rw [tile_neg, pay8_apply, tile_sim]

theorem tile16 (s : Vec Ideal S1024x1 .f32) (r : Fin 1024) :
    k0_pay2 (F := Ideal) (k0_pay16 (F := Ideal) (k0_pay10 (F := Ideal) (xblk2 m c t) (xblk3 m c t))
        (k0_pay12 (grid0.coords t)) (k0_pay13 (F := Ideal) (xblk4 m c t))) s (ix2 r 0)
      = max (s (ix2 r 0))
          (if ∃ cc : Fin 1024, posK m c (rowOf (ptRow (pt t)) r) (rowOf (ptCol (pt t)) cc) = true then (1 : EReal) else 0) := by
  rw [pay16_apply]
  refine congrArg (max (s (ix2 r 0))) (if_congr (exists_congr fun cc => ?_) rfl rfl)
  rw [tile_pos]

theorem tile17 (s : Vec Ideal S1024x1 .f32) (r : Fin 1024) :
    k0_pay3 (F := Ideal) (k0_pay17 (F := Ideal) (k0_pay11 (F := Ideal) (xblk2 m c t) (xblk3 m c t))
        (k0_pay13 (F := Ideal) (xblk4 m c t))) s (ix2 r 0)
      = max (s (ix2 r 0))
          (if ∃ cc : Fin 1024, negK m c (rowOf (ptRow (pt t)) r) (rowOf (ptCol (pt t)) cc) = true then (1 : EReal) else 0) := by
  rw [pay17_apply]
  refine congrArg (max (s (ix2 r 0))) (if_congr (exists_congr fun cc => ?_) rfl rfl)
  rw [tile_neg]

theorem iInf_tilePos (i : Fin 8192) :
    (⨅ j : Fin 8, tilePos m c i j) = Cert.Spec.hardestPos (Ideal.ofBits .f32 0x4E6E6B28#32) (simK m c) (posK m c) i := by
  unfold tilePos Cert.Spec.hardestPos
  exact (iInf_rowOf fun j => if posK m c i j then simK m c i j else Ideal.ofBits .f32 0x4E6E6B28#32).symm

theorem iSup_tileNeg (i : Fin 8192) :
    (⨆ j : Fin 8, tileNeg m c i j) = Cert.Spec.hardestNeg (Ideal.ofBits .f32 0xCE6E6B28#32) (simK m c) (negK m c) i := by
  unfold tileNeg Cert.Spec.hardestNeg
  exact (iSup_rowOf fun j => if negK m c i j then simK m c i j else Ideal.ofBits .f32 0xCE6E6B28#32).symm

end Cert.KernelIdeal.Hand

end
-- ==== Proof.KIHeadV.lean ====
import proofs.«429954_j35948876268191_2_alg».proof.Proof.KIRuns
import proofs.«429954_j35948876268191_2_alg».proof.Proof.KIHead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

def lbOf (c : Dev nD) : (⟨S8192, .i32⟩ : BufTy).Contents (Elt Ideal) :=
  shapeCast S8192 (m ((c : Thread nD τ).loc main_arg1) : S16x512.Idx → BitVec 32) Facts₀.shapeCasts_S16x512_S8192

set_option maxHeartbeats 1000000 in

theorem V_v1 (c : Dev nD) : (V m c main_v1 : S8192.Idx → BitVec 32) = lbOf m c := by
  dsimp only [V, V0]
  simp only [hostOps0, hostOps0_1, hostOps0_2, hostOps0_3, hostOps0_4, hostOps0_5, List.flatten_cons, List.flatten_nil, List.append_nil, List.cons_append, List.nil_append]
  after_results
  rfl

set_option maxHeartbeats 1000000 in

theorem V_v9 (c : Dev nD) : (V m c main_v9 : S8192x256.Idx → EReal) = stage_v9 (m ((c : Thread nD τ).loc main_arg0)) := by
  dsimp only [V, V0]
  simp only [hostOps0, hostOps0_1, hostOps0_2, hostOps0_3, hostOps0_4, hostOps0_5, List.flatten_cons, List.flatten_nil, List.append_nil, List.cons_append, List.nil_append]
  after_results
  rfl

set_option maxHeartbeats 1000000 in

theorem V_v16 (c : Dev nD) : (V m c main_v16 : S8192.Idx → BitVec 1) = stage_v16 (lbOf m c) := by
  dsimp only [V, V0]
  simp only [hostOps0, hostOps0_1, hostOps0_2, hostOps0_3, hostOps0_4, hostOps0_5, List.flatten_cons, List.flatten_nil, List.append_nil, List.cons_append, List.nil_append]
  after_results
  rfl

set_option maxHeartbeats 1000000 in

theorem V_v20 (c : Dev nD) : (V m c main_v20 : S8192x13.Idx → EReal) = stage_v20 (lbOf m c) := by
  dsimp only [V, V0]
  simp only [hostOps0, hostOps0_1, hostOps0_2, hostOps0_3, hostOps0_4, hostOps0_5, List.flatten_cons, List.flatten_nil, List.append_nil, List.cons_append, List.nil_append]
  after_results
  rfl

set_option maxHeartbeats 1000000 in

theorem V_v21 (c : Dev nD) : (V m c main_v21 : S8192x13.Idx → EReal) = stage_v21 (lbOf m c) := by
  dsimp only [V, V0]
  simp only [hostOps0, hostOps0_1, hostOps0_2, hostOps0_3, hostOps0_4, hostOps0_5, List.flatten_cons, List.flatten_nil, List.append_nil, List.cons_append, List.nil_append]
  after_results
  rfl

set_option maxHeartbeats 1000000 in

theorem V_v23 (c : Dev nD) : (V m c main_v23 : S1x8192.Idx → EReal) = stage_v23 (lbOf m c) := by
  dsimp only [V, V0]
  simp only [hostOps0, hostOps0_1, hostOps0_2, hostOps0_3, hostOps0_4, hostOps0_5, List.flatten_cons, List.flatten_nil, List.append_nil, List.cons_append, List.nil_append]
  after_results
  rfl

end Cert.KernelIdeal.Hand

end
-- ==== Proof.Bridge.lean ====
import proofs.«429954_j35948876268191_2_alg».proof.Proof.Masks
import proofs.«429954_j35948876268191_2_alg».proof.Proof.KIRegionDefs
import proofs.«429954_j35948876268191_2_alg».proof.Proof.KIHeadV
import proofs.«429954_j35948876268191_2_alg».proof.Proof.RefHead
import proofs.«429954_j35948876268191_2_alg».proof.Proof.Spec

noncomputable section

open scoped BigOperators

namespace Cert.Bridge

open Cert.KernelIdeal Cert.KernelIdeal.Gen
open Cert.KernelIdeal.Hand (V simK posK negK lbOf arr9 arr20 arr21 arr23 V_v9 V_v16 V_v20 V_v21 V_v23 v9_eq_v8)
open Idealize.ShloMosaic Idealize.ShloMosaic.TcCoe Idealize.SL.Sem ValueIdx

variable [Cert.ReferenceIdeal.Facts]

theorem rows_eq (x : (⟨S16x512x256, .f32⟩ : BufTy).Contents (Elt Ideal)) :
    (Cert.KernelIdeal.Hand.stage_v8 x : S8192x256.Idx → EReal) = Cert.ReferenceIdeal.Hand.stage_v8 x := by
  unfold Cert.KernelIdeal.Hand.stage_v8 Cert.KernelIdeal.Hand.stage_v4 Cert.KernelIdeal.Hand.stage_v0
    Cert.ReferenceIdeal.Hand.stage_v8
  rfl

theorem labels_eq (l : S16x512.Idx → BitVec 32) :
    shapeCast S8192 l Cert.KernelIdeal.Facts₀.shapeCasts_S16x512_S8192
      = shapeCast Cert.ReferenceIdeal.S8192 l Cert.ReferenceIdeal.Facts₀.shapeCasts_S16x512_S8192 := rfl

section Memory
variable (m : (ℓ : Loc nD τ sig) → Buf (Elt Ideal) ℓ) (c : Dev nD)

theorem arr9_eq :
    (arr9 m c : S8192x256.Idx → EReal) = Cert.ReferenceIdeal.Hand.stage_v8 (m ((c : Thread nD τ).loc main_arg0)) :=
  (V_v9 m c).trans ((v9_eq_v8 _).trans (rows_eq _))

theorem simK_eq (i j : Fin 8192) :
    simK m c i j
      = Cert.ReferenceIdeal.Hand.stage_v10 (Cert.ReferenceIdeal.Hand.stage_v8 (m ((c : Thread nD τ).loc main_arg0))) (ix2 i j) := by
  rw [Cert.ReferenceIdeal.Hand.v10_apply]
  unfold Cert.KernelIdeal.Hand.simK
  have e := congrFun (arr9_eq m c)
  exact Finset.sum_congr rfl fun k _ => congrArg₂ (· * ·) (e (ix2 i k)) (e (ix2 j k))

theorem anchor_eq (i : Fin 8192) :
    decide ((V m c main_v16 : S8192.Idx → BitVec 1) (ix1 i) = 1#1)
      = decide (Cert.ReferenceIdeal.Hand.stage_v20 (lbOf m c) (ix1 i) = 1#1) := by
  have e : (V m c main_v16 : S8192.Idx → BitVec 1) (ix1 i) = Cert.KernelIdeal.Hand.stage_v16 (lbOf m c) (ix1 i) :=
    congrFun (V_v16 m c) (ix1 i)
  exact decide_eq_decide.mpr ((iff_of_eq (congrArg (· = 1#1) e)).trans (Cert.Masks.anchor_bridge (lbOf m c) i))

theorem vK_masks (i j : Fin 8192) : Cert.KernelIdeal.Hand.vK m c i j = Cert.Masks.vK (lbOf m c) i j := by
  unfold Cert.KernelIdeal.Hand.vK Cert.Masks.vK
  exact Finset.sum_congr rfl fun k _ =>
    congrArg₂ (· * ·) (congrFun (V_v20 m c) (ix2 i k)) (congrFun (V_v21 m c) (ix2 j k))

theorem arr23_eq (j : Fin 8192) :
    (arr23 m c (ix2 (0 : Fin 1) j) : EReal) = Cert.KernelIdeal.Hand.stage_v23 (lbOf m c) (ix2 (0 : Fin 1) j) :=
  congrFun (V_v23 m c) (ix2 (0 : Fin 1) j)

theorem negK_iff (i j : Fin 8192) :
    negK m c i j = true ↔
      (Ideal.ofBits .f32 0x3FC00000#32 < Cert.Masks.vK (lbOf m c) i j
        ∧ Ideal.ofBits .f32 0x3F000000#32 < (Cert.KernelIdeal.Hand.stage_v23 (lbOf m c) (ix2 (0 : Fin 1) j) : EReal)) := by
  unfold Cert.KernelIdeal.Hand.negK
  rw [Bool.and_eq_true, decide_eq_true_eq, decide_eq_true_eq, vK_masks, arr23_eq]

theorem posK_iff (i j : Fin 8192) :
    posK m c i j = true ↔
      ((Ideal.ofBits .f32 0x3F000000#32 < Cert.Masks.vK (lbOf m c) i j
          ∧ Cert.Masks.vK (lbOf m c) i j < Ideal.ofBits .f32 0x3FC00000#32)
        ∧ Ideal.ofBits .f32 0x3F000000#32 < (Cert.KernelIdeal.Hand.stage_v23 (lbOf m c) (ix2 (0 : Fin 1) j) : EReal)
        ∧ i ≠ j) := by
  unfold Cert.KernelIdeal.Hand.posK
  rw [Bool.and_eq_true, Bool.and_eq_true, decide_eq_true_eq, decide_eq_true_eq, Bool.not_eq_true',
    decide_eq_false_iff_not, vK_masks, arr23_eq, and_assoc]

theorem neg_eq (i j : Fin 8192) :
    negK m c i j = decide (Cert.ReferenceIdeal.Hand.stage_v56 (lbOf m c) (ix2 i j) = 1#1) :=
  Bool.eq_iff_iff.mpr (((negK_iff m c i j).trans (Cert.Masks.neg_bridge (lbOf m c) i j)).trans decide_eq_true_iff.symm)

theorem pos_eq (i j : Fin 8192) (ha : Cert.KernelIdeal.Hand.stage_v16 (lbOf m c) (ix1 i) = 1#1) :
    posK m c i j = decide (Cert.ReferenceIdeal.Hand.stage_v35 (lbOf m c) (ix2 i j) = 1#1) :=
  Bool.eq_iff_iff.mpr (((posK_iff m c i j).trans (Cert.Masks.pos_bridge (lbOf m c) i j ha)).trans decide_eq_true_iff.symm)

theorem negK_diag (i : Fin 8192) : negK m c i i = false :=
  Bool.eq_false_iff.mpr fun h => Cert.Masks.neg_diag (lbOf m c) i ((negK_iff m c i i).mp h).1

theorem posK_diag (i : Fin 8192) : posK m c i i = false :=
  Bool.eq_false_iff.mpr fun h => ((posK_iff m c i i).mp h).2.2 rfl

theorem loss_bridge :
    Cert.Spec.loss (Ideal.ofBits .f32 0x4E6E6B28#32) (Ideal.ofBits .f32 0xCE6E6B28#32) (Ideal.ofBits .f32 0x3F000000#32)
        (simK m c) (fun i => decide ((V m c main_v16 : S8192.Idx → BitVec 1) (ix1 i) = 1#1)) (posK m c) (negK m c)
      = Cert.Spec.loss (Ideal.ofBits .f32 0x4E6E6B28#32) (Ideal.ofBits .f32 0xCE6E6B28#32) (Ideal.ofBits .f32 0x3F000000#32)
        (fun i j => Cert.ReferenceIdeal.Hand.stage_v10
          (Cert.ReferenceIdeal.Hand.stage_v8 (m ((c : Thread nD τ).loc main_arg0))) (ix2 i j))
        (fun i => decide (Cert.ReferenceIdeal.Hand.stage_v20 (lbOf m c) (ix1 i) = 1#1))
        (fun i j => decide (Cert.ReferenceIdeal.Hand.stage_v35 (lbOf m c) (ix2 i j) = 1#1))
        (fun i j => decide (Cert.ReferenceIdeal.Hand.stage_v56 (lbOf m c) (ix2 i j) = 1#1)) := by
  have hs : simK m c = fun i j => Cert.ReferenceIdeal.Hand.stage_v10
      (Cert.ReferenceIdeal.Hand.stage_v8 (m ((c : Thread nD τ).loc main_arg0))) (ix2 i j) :=
    funext fun i => funext fun j => simK_eq m c i j
  have ha : (fun i : Fin 8192 => decide ((V m c main_v16 : S8192.Idx → BitVec 1) (ix1 i) = 1#1))
      = fun i => decide (Cert.ReferenceIdeal.Hand.stage_v20 (lbOf m c) (ix1 i) = 1#1) :=
    funext fun i => anchor_eq m c i
  have hn : negK m c = fun i j => decide (Cert.ReferenceIdeal.Hand.stage_v56 (lbOf m c) (ix2 i j) = 1#1) :=
    funext fun i => funext fun j => neg_eq m c i j
  refine (congr (congrFun (congr (congrArg (Cert.Spec.loss (Ideal.ofBits .f32 0x4E6E6B28#32)
    (Ideal.ofBits .f32 0xCE6E6B28#32) (Ideal.ofBits .f32 0x3F000000#32)) hs) ha) (posK m c)) hn).trans ?_
  refine Cert.Spec.loss_congr_pos _ _ _ _ _ _ _ _ fun i hi j => ?_
  exact pos_eq m c i j ((Cert.Masks.anchor_bridge (lbOf m c) i).mpr (of_decide_eq_true hi))

end Memory

end Cert.Bridge

end
-- ==== Proof.KITail.lean ====
import proofs.«429954_j35948876268191_2_alg».proof.KernelIdeal
import proofs.«429954_j35948876268191_2_alg».proof.Proof.Spec
import Idealize.ShloMosaic.Lib.IdealHost
import Idealize.ShloMosaic.Lib.WordArith
import Idealize.ShloMosaic.Lib.Pipeline.Value

noncomputable section

namespace Cert.KernelIdeal.Hand

open Idealize.ShloMosaic Idealize.ShloMosaic.ValueIdx Idealize.ShloMosaic.WordArith
open Cert.KernelIdeal Cert.KernelIdeal.Facts₀
open scoped BigOperators

variable [Cert.KernelIdeal.Facts]

abbrev TailColF : Type := (⟨S8192x1, .f32⟩ : BufTy).Contents (Elt Ideal)

abbrev TailColB : Type := (⟨S8192x1, .i1⟩ : BufTy).Contents (Elt Ideal)

abbrev TailRowB : Type := (⟨S8192, .i1⟩ : BufTy).Contents (Elt Ideal)

abbrev TailScaF : Type := (⟨S_, .f32⟩ : BufTy).Contents (Elt Ideal)

abbrev TailScaB : Type := (⟨S_, .i1⟩ : BufTy).Contents (Elt Ideal)

def stage_tail_half : TailColF :=
  (broadcastInDim S8192x1 ![] bcast_S_S8192x1 : TailScaF → TailColF) (constant (F := Ideal) S_ .f32 0x3F000000#32)

def stage_tail_zero : TailColF :=
  (broadcastInDim S8192x1 ![] bcast_S_S8192x1 : TailScaF → TailColF) (constant (F := Ideal) S_ .f32 0x00000000#32)

def stage_v26 (a7 : TailColF) : TailColB :=
  (cmpf (F := Ideal) (φ := .f32) .ogt : TailColF → TailColF → TailColB) a7 stage_tail_half

def stage_v28 (a8 : TailColF) : TailColB :=
  (cmpf (F := Ideal) (φ := .f32) .ogt : TailColF → TailColF → TailColB) a8 stage_tail_half

def stage_v29 (anchor : TailRowB) : TailColB :=
  (broadcastInDim S8192x1 ![0] bcast_S8192_S8192x1_0 : TailRowB → TailColB) anchor

def stage_v30 (a7 : TailColF) (anchor : TailRowB) : TailColB :=
  (andi : TailColB → TailColB → TailColB) (stage_v29 anchor) (stage_v26 a7)

def stage_v31 (a7 a8 : TailColF) (anchor : TailRowB) : TailColB :=
  (andi : TailColB → TailColB → TailColB) (stage_v30 a7 anchor) (stage_v28 a8)

def stage_v33 (a6 : TailColF) : TailColF :=
  (addf (F := Ideal) (φ := .f32) : TailColF → TailColF → TailColF) stage_tail_half a6

def stage_v34 (a5 a6 : TailColF) : TailColF :=
  (subf (F := Ideal) (φ := .f32) : TailColF → TailColF → TailColF) (stage_v33 a6) a5

def stage_v35 (a5 a6 : TailColF) : TailColF :=
  (maximumf (F := Ideal) (φ := .f32) : TailColF → TailColF → TailColF) (stage_v34 a5 a6) stage_tail_zero

def stage_v36 (a5 a6 a7 a8 : TailColF) (anchor : TailRowB) : TailColF :=
  (select : TailColB → TailColF → TailColF → TailColF) (stage_v31 a7 a8 anchor) (stage_v35 a5 a6)
    ((broadcastInDim S8192x1 ![] bcast_S_S8192x1 : TailScaF → TailColF) ((id : TailScaF → TailScaF) (constant (F := Ideal) S_ .f32 0x00000000#32)))

def stage_v37 (a7 a8 : TailColF) (anchor : TailRowB) : TailColF :=
  (uitofp (F := Ideal) .f32 : TailColB → TailColF) (stage_v31 a7 a8 anchor)

def stage_v38 (a7 a8 : TailColF) (anchor : TailRowB) : TailScaF :=
  ((fun x v => Host.reduceAdd (F := Ideal) (φ := .f32) x v reducesTo_S8192x1_S_d0_1 h_S_) : TailColF → TailScaF → TailScaF)
    (stage_v37 a7 a8 anchor) (constant (F := Ideal) S_ .f32 0x00000000#32)

def stage_v39 (a5 a6 a7 a8 : TailColF) (anchor : TailRowB) : TailScaF :=
  ((fun x v => Host.reduceAdd (F := Ideal) (φ := .f32) x v reducesTo_S8192x1_S_d0_1 h_S_) : TailColF → TailScaF → TailScaF)
    (stage_v36 a5 a6 a7 a8 anchor) (constant (F := Ideal) S_ .f32 0x00000000#32)

def stage_v40 (a7 a8 : TailColF) (anchor : TailRowB) : TailScaB :=
  (cmpf (F := Ideal) (φ := .f32) .ogt : TailScaF → TailScaF → TailScaB) (stage_v38 a7 a8 anchor) (constant (F := Ideal) S_ .f32 0x00000000#32)

def stage_v41 (a7 a8 : TailColF) (anchor : TailRowB) : TailScaF :=
  (maximumf (F := Ideal) (φ := .f32) : TailScaF → TailScaF → TailScaF) (stage_v38 a7 a8 anchor) (constant (F := Ideal) S_ .f32 0x3F800000#32)

def stage_v42 (a5 a6 a7 a8 : TailColF) (anchor : TailRowB) : TailScaF :=
  (Host.divf (F := Ideal) (φ := .f32) : TailScaF → TailScaF → TailScaF) (stage_v39 a5 a6 a7 a8 anchor) (stage_v41 a7 a8 anchor)

def kTail (a5 a6 a7 a8 : TailColF) (anchor : TailRowB) : TailScaF :=
  (select : TailScaB → TailScaF → TailScaF → TailScaF) (stage_v40 a7 a8 anchor) (stage_v42 a5 a6 a7 a8 anchor)
    ((id : TailScaF → TailScaF) (constant (F := Ideal) S_ .f32 0x00000000#32))

theorem tail_half_word : Ideal.ofBits .f32 0x3F000000#32 = (((1 : ℝ) / 2 : ℝ) : EReal) := by
  simp [Ideal.ofBits, Ideal.ieee, -EReal.coe_mul]; norm_num

theorem tail_half_lt_one : Ideal.ofBits .f32 0x3F000000#32 < 1 := by
  rw [tail_half_word, ← EReal.coe_one]
  exact EReal.coe_lt_coe_iff.mpr (by norm_num)

theorem tail_half_not_lt_zero : ¬ Ideal.ofBits .f32 0x3F000000#32 < 0 := by
  rw [tail_half_word, not_lt, ← EReal.coe_zero]
  exact EReal.coe_le_coe_iff.mpr (by norm_num)

theorem tail_flag_gt_half (b : Bool) :
    Ideal.cmp .ogt (if b = true then (1 : EReal) else 0) (Ideal.ofBits .f32 0x3F000000#32) = BitVec.ofBool b := by
  unfold Ideal.cmp
  cases b
  · simp [tail_half_not_lt_zero]
  · simp [tail_half_lt_one]

theorem tail_bit_eq_ofBool (b : BitVec 1) : b = BitVec.ofBool (decide (b = 1#1)) := by
  by_cases h : b = 1#1
  · subst h; rfl
  · have h0 := eq_zero_of_ne_one h; subst h0; rfl

section Rows

variable (sim : Fin 8192 → Fin 8192 → EReal) (pos neg : Fin 8192 → Fin 8192 → Bool)
variable (a5 a6 a7 a8 : (⟨S8192x1, .f32⟩ : BufTy).Contents (Elt Ideal)) (anchor : (⟨S8192, .i1⟩ : BufTy).Contents (Elt Ideal))

abbrev tailAnchorBit (anchor : (⟨S8192, .i1⟩ : BufTy).Contents (Elt Ideal)) : Fin 8192 → Bool :=
  fun i => decide (anchor (ValueIdx.ix1 i) = 1#1)

theorem stage_v26_apply (i : Fin 8192) (h7 : a7 (ix2 i 0) = if Cert.Spec.hasAny pos i then 1 else 0) :
    stage_v26 a7 (ix2 i 0) = BitVec.ofBool (Cert.Spec.hasAny pos i) := by
  show Ideal.cmp .ogt (a7 (ix2 i 0)) (Ideal.ofBits .f32 0x3F000000#32) = _
  rw [h7]; exact tail_flag_gt_half _

theorem stage_v28_apply (i : Fin 8192) (h8 : a8 (ix2 i 0) = if Cert.Spec.hasAny neg i then 1 else 0) :
    stage_v28 a8 (ix2 i 0) = BitVec.ofBool (Cert.Spec.hasAny neg i) := by
  show Ideal.cmp .ogt (a8 (ix2 i 0)) (Ideal.ofBits .f32 0x3F000000#32) = _
  rw [h8]; exact tail_flag_gt_half _

theorem stage_v29_apply (i : Fin 8192) : stage_v29 anchor (ix2 i 0) = anchor (ix1 i) :=
  broadcastInDim_apply _ _ anchor (ix2 i 0) (ix1 i) (fun a => match a with | ⟨0, _⟩ => rfl)

theorem stage_v31_apply (i : Fin 8192)
    (h7 : a7 (ix2 i 0) = if Cert.Spec.hasAny pos i then 1 else 0)
    (h8 : a8 (ix2 i 0) = if Cert.Spec.hasAny neg i then 1 else 0) :
    stage_v31 a7 a8 anchor (ix2 i 0) = BitVec.ofBool (Cert.Spec.counts (tailAnchorBit anchor) pos neg i) := by
  show IntOp.andi (IntOp.andi (stage_v29 anchor (ix2 i 0)) (stage_v26 a7 (ix2 i 0))) (stage_v28 a8 (ix2 i 0)) = _
  rw [stage_v26_apply pos a7 i h7, stage_v28_apply neg a8 i h8,
    (stage_v29_apply anchor i).trans (tail_bit_eq_ofBool _), andi_ofBool, andi_ofBool]
  rfl

theorem stage_v35_apply (i : Fin 8192) :
    stage_v35 a5 a6 (ix2 i 0) = max (Ideal.ofBits .f32 0x3F000000#32 + a6 (ix2 i 0) - a5 (ix2 i 0)) 0 := by
  show max (Ideal.ofBits .f32 0x3F000000#32 + a6 (ix2 i 0) - a5 (ix2 i 0)) (Ideal.ofBits .f32 0x00000000#32) = _
  rw [Ideal.ofBits_zero_f32]

theorem stage_v36_apply (i : Fin 8192)
    (h5 : a5 (ix2 i 0) = Cert.Spec.hardestPos (Ideal.ofBits .f32 0x4E6E6B28#32) sim pos i)
    (h6 : a6 (ix2 i 0) = Cert.Spec.hardestNeg (Ideal.ofBits .f32 0xCE6E6B28#32) sim neg i)
    (h7 : a7 (ix2 i 0) = if Cert.Spec.hasAny pos i then 1 else 0)
    (h8 : a8 (ix2 i 0) = if Cert.Spec.hasAny neg i then 1 else 0) :
    stage_v36 a5 a6 a7 a8 anchor (ix2 i 0)
      = Cert.Spec.triplet (Ideal.ofBits .f32 0x4E6E6B28#32) (Ideal.ofBits .f32 0xCE6E6B28#32) (Ideal.ofBits .f32 0x3F000000#32)
          sim (tailAnchorBit anchor) pos neg i := by
  show Scalar.select (stage_v31 a7 a8 anchor (ix2 i 0)) (stage_v35 a5 a6 (ix2 i 0)) (Ideal.ofBits .f32 0x00000000#32) = _
  rw [stage_v31_apply pos neg a7 a8 anchor i h7 h8, stage_v35_apply a5 a6 i, h5, h6, Ideal.ofBits_zero_f32]
  unfold Cert.Spec.triplet
  cases Cert.Spec.counts (tailAnchorBit anchor) pos neg i
  · exact select_zero _ _
  · exact select_one _ _

theorem stage_v37_apply (i : Fin 8192)
    (h7 : a7 (ix2 i 0) = if Cert.Spec.hasAny pos i then 1 else 0)
    (h8 : a8 (ix2 i 0) = if Cert.Spec.hasAny neg i then 1 else 0) :
    stage_v37 a7 a8 anchor (ix2 i 0) = if Cert.Spec.counts (tailAnchorBit anchor) pos neg i then (1 : EReal) else 0 := by
  show ((((stage_v31 a7 a8 anchor (ix2 i 0)).toNat : ℝ)) : EReal) = _
  rw [stage_v31_apply pos neg a7 a8 anchor i h7 h8]
  cases Cert.Spec.counts (tailAnchorBit anchor) pos neg i <;> simp

end Rows

theorem tail_sum_col (f : S8192x1.Idx → EReal) : ∑ j : S8192x1.Idx, f j = ∑ i : Fin 8192, f (ix2 i 0) := by
  rw [sum_idx2]
  exact Finset.sum_congr rfl fun i _ => Fin.sum_univ_one _

theorem tail_reduce_col (x : (⟨S8192x1, .f32⟩ : BufTy).Contents (Elt Ideal)) :
    ((fun x v => Host.reduceAdd (F := Ideal) (φ := .f32) x v reducesTo_S8192x1_S_d0_1 h_S_) :
        (⟨S8192x1, .f32⟩ : BufTy).Contents (Elt Ideal) → (⟨S_, .f32⟩ : BufTy).Contents (Elt Ideal) → (⟨S_, .f32⟩ : BufTy).Contents (Elt Ideal))
      x (constant (F := Ideal) S_ .f32 0x00000000#32) ix0 = ∑ i : Fin 8192, x (ix2 i 0) := by
  show Ideal.hostReduceAdd reducesTo_S8192x1_S_d0_1 x (Ideal.ofBits .f32 0x00000000#32) ix0 = _
  rw [Ideal.hostReduceAdd_total reducesTo_S8192x1_S_d0_1 (fun b => b.elim0) x _ ix0, Ideal.ofBits_zero_f32, zero_add]
  exact tail_sum_col x

theorem kTail_eq (sim : Fin 8192 → Fin 8192 → EReal) (pos neg : Fin 8192 → Fin 8192 → Bool)
    (a5 a6 a7 a8 : (⟨S8192x1, .f32⟩ : BufTy).Contents (Elt Ideal)) (anchor : (⟨S8192, .i1⟩ : BufTy).Contents (Elt Ideal))
    (h5 : ∀ i : Fin 8192, a5 (ValueIdx.ix2 i 0) = Cert.Spec.hardestPos (Ideal.ofBits .f32 0x4E6E6B28#32) sim pos i)
    (h6 : ∀ i : Fin 8192, a6 (ValueIdx.ix2 i 0) = Cert.Spec.hardestNeg (Ideal.ofBits .f32 0xCE6E6B28#32) sim neg i)
    (h7 : ∀ i : Fin 8192, a7 (ValueIdx.ix2 i 0) = if Cert.Spec.hasAny pos i then 1 else 0)
    (h8 : ∀ i : Fin 8192, a8 (ValueIdx.ix2 i 0) = if Cert.Spec.hasAny neg i then 1 else 0) :
    kTail a5 a6 a7 a8 anchor ValueIdx.ix0
      = Cert.Spec.loss (Ideal.ofBits .f32 0x4E6E6B28#32) (Ideal.ofBits .f32 0xCE6E6B28#32) (Ideal.ofBits .f32 0x3F000000#32)
          sim (fun i => decide (anchor (ValueIdx.ix1 i) = 1#1)) pos neg := by
  have hcount : stage_v38 a7 a8 anchor ix0 = Cert.Spec.numTriplets (tailAnchorBit anchor) pos neg := by
    refine (tail_reduce_col (stage_v37 a7 a8 anchor)).trans ?_
    unfold Cert.Spec.numTriplets
    exact Finset.sum_congr rfl fun i _ => stage_v37_apply pos neg a7 a8 anchor i (h7 i) (h8 i)
  have htotal : stage_v39 a5 a6 a7 a8 anchor ix0
      = ∑ i : Fin 8192, Cert.Spec.triplet (Ideal.ofBits .f32 0x4E6E6B28#32) (Ideal.ofBits .f32 0xCE6E6B28#32)
          (Ideal.ofBits .f32 0x3F000000#32) sim (tailAnchorBit anchor) pos neg i := by
    refine (tail_reduce_col (stage_v36 a5 a6 a7 a8 anchor)).trans ?_
    exact Finset.sum_congr rfl fun i _ => stage_v36_apply sim pos neg a5 a6 a7 a8 anchor i (h5 i) (h6 i) (h7 i) (h8 i)
  unfold kTail stage_v42 stage_v41 stage_v40
  simp only [select_apply, hostDivf_apply, maximumf_apply, cmpf_apply, constant_apply, Ideal.cmpf_def, id_eq]
  rw [hcount, htotal, Ideal.ofBits_zero_f32, Ideal.ofBits_one_f32]
  unfold Cert.Spec.loss Ideal.cmp
  by_cases hpos : 0 < Cert.Spec.numTriplets (tailAnchorBit anchor) pos neg
  · rw [if_pos hpos, decide_eq_true hpos]; exact select_one _ _
  · rw [if_neg hpos, decide_eq_false hpos]; exact select_zero _ _

end Cert.KernelIdeal.Hand

end
-- ==== Proof.KIEnd.lean ====
import proofs.«429954_j35948876268191_2_alg».proof.Proof.KIRuns
import proofs.«429954_j35948876268191_2_alg».proof.Proof.KILaunch
import proofs.«429954_j35948876268191_2_alg».proof.Proof.KITail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

section AtIdeal

set_option maxHeartbeats 2000000 in

theorem tail_after (W : Valuation τ sig (Elt Ideal)) :
    (StableHlo.after (sfx (F := Ideal)).flatten W (Proc.devRef .tc main_v43) : S_.Idx → EReal)
      = kTail (W (Proc.devRef .tc main_v24_0)) (W (Proc.devRef .tc main_v24_1)) (W (Proc.devRef .tc main_v24_2))
          (W (Proc.devRef .tc main_v24_3)) (W (Proc.devRef .tc main_v16)) := by
  simp only [sfx, hostOps1, hostOps1_1, hostOps1_2, hostOps1_3, hostOps1_4, hostOps1_5, List.flatten_cons, List.flatten_nil, List.append_nil, List.cons_append, List.nil_append]
  after_results
  simp only [StableHlo.TRef.ofBuf, StableHlo.TRef.toBuf, cast_eq]
  unfold kTail stage_v42 stage_v41 stage_v40 stage_v39 stage_v38 stage_v37 stage_v36 stage_v35 stage_v34 stage_v33 stage_v31 stage_v30
    stage_v29 stage_v28 stage_v26 stage_tail_half stage_tail_zero
  rfl

variable (m : (ℓ : Loc nD τ sig) → Buf (Elt Ideal) ℓ)
variable (dats : (p : Fin 1) → (c : Dev nD) → Dat τ (Elt Ideal) Unit ℕ (UR sig nD τ) ℕ (cfgs p) c)
  (hA : ∀ c w, (dats 0 c).A w = V m c (Pipeline.arrRef spec0 w))
include hA

theorem Wx_v24_0 (c : Dev nD) : Wx (V0 m) dats c (Proc.devRef .tc main_v24_0) = (dats 0 c).arrAt 5 cfg0.N :=
  Wx_arr (V0 m) dats hA c 5

theorem Wx_v24_1 (c : Dev nD) : Wx (V0 m) dats c (Proc.devRef .tc main_v24_1) = (dats 0 c).arrAt 6 cfg0.N :=
  Wx_arr (V0 m) dats hA c 6

theorem Wx_v24_2 (c : Dev nD) : Wx (V0 m) dats c (Proc.devRef .tc main_v24_2) = (dats 0 c).arrAt 7 cfg0.N :=
  Wx_arr (V0 m) dats hA c 7

theorem Wx_v24_3 (c : Dev nD) : Wx (V0 m) dats c (Proc.devRef .tc main_v24_3) = (dats 0 c).arrAt 8 cfg0.N :=
  Wx_arr (V0 m) dats hA c 8

omit hA in

theorem Wx_v16 (c : Dev nD) : Wx (V0 m) dats c (Proc.devRef .tc main_v16) = V m c main_v16 :=
  Wx_of_ne (V0 m) dats c main_v16 (by decide)

theorem Wend_v43 (c : Dev nD) :
    (Wend (V0 m) dats c (Proc.devRef .tc main_v43) : S_.Idx → EReal)
      = kTail ((dats 0 c).arrAt 5 cfg0.N) ((dats 0 c).arrAt 6 cfg0.N) ((dats 0 c).arrAt 7 cfg0.N) ((dats 0 c).arrAt 8 cfg0.N) (V m c main_v16) := by
  unfold Wend
  rw [tail_after (Wx (V0 m) dats c), Wx_v24_0 m dats hA c, Wx_v24_1 m dats hA c, Wx_v24_2 m dats hA c, Wx_v24_3 m dats hA c, Wx_v16 m dats c]

end AtIdeal

end Cert.KernelIdeal.Hand

end
-- ==== Proof.KIPieces.lean ====
import proofs.«429954_j35948876268191_2_alg».proof.Proof.KIFrameDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

private theorem hz0 : (![0, 0] : Fin 2 → Nat) = fun _ => 0 := funext fun a => by fin_cases a <;> rfl

variable (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x13 .bf16) (harg4 : arg4.IsWhole) (arg5 : Memref sig .tc .vmem S1024x13 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole)
  (x0 x1 : Vec F S1024x256 .bf16) (x2 x3 : Vec F S1024x13 .bf16) (x4 : Vec F S1x1024 .f32) (xs0 xs1 xs2 xs3 : Vec F S1024x1 .f32)

-- One tile taken into the four carried columns: a running minimum, a running maximum and two running flags.
def steps (s : C4 F) : C4 F :=
  (k0_pay18 (k0_pay8 x0 x1) (k0_pay10 x2 x3) (k0_pay12 i) (k0_pay13 x4) s.1,
   k0_pay1 (k0_pay19 (k0_pay8 x0 x1) (k0_pay11 x2 x3) (k0_pay13 x4) s.2.1),
   k0_pay2 (k0_pay16 (F := F) (k0_pay10 x2 x3) (k0_pay12 i) (k0_pay13 x4)) s.2.2.1,
   k0_pay3 (k0_pay17 (F := F) (k0_pay11 x2 x3) (k0_pay13 x4)) s.2.2.2)

-- Inner coordinate 0: each column's reset constant is stored, read back and folded; the later store covers the column.
theorem piecesA (hc0 : cond0_0 i) (hc1 : ¬cond0_1 i) :
    (outs (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)).2
      = steps i x0 x1 x2 x3 x4 (k0_pay4 (F := F), k0_pay5 (F := F), k0_pay6 (F := F), k0_pay7 (F := F)) := by
  unfold outs steps; dsimp only
  refine Prod.ext ?_ (Prod.ext ?_ (Prod.ext ?_ ?_)) <;> dsimp only <;>
    (rw [View.read_writes_eq_canon _ _ _ (View.cover_of_tiledL _ S1024x1.size (by sl_kernel_rfl))]
     unfold kernelRun0_A
     dsimp only
     sl_unfold_words
     rw [View.canon_cons_unit_zero (S := S1024x1) hz0, View.readCov_unit_zero (S := S1024x1) _ hz0]
     simp only [View.readAt_eq_ld, harg2.read_unread, harg3.read_unread, harg4.read_unread, harg5.read_unread, harg6.read_unread,
       harg11.read_unread, harg12.read_unread, harg13.read_unread, harg14.read_unread, View.readCov_unit_zero (S := S1024x1) _ hz0,
       View.ld_unit_zero (S := S1024x256) hz0, View.ld_unit_zero (S := S1024x13) hz0, View.ld_unit_zero (S := S1x1024) hz0, View.ld_unit_zero (S := S1024x1) hz0])

-- Inner coordinate 1 … 6: the one store of each column covers it.
theorem piecesB (hc0 : ¬cond0_0 i) (hc1 : ¬cond0_1 i) :
    (outs (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)).2
      = steps i x0 x1 x2 x3 x4 (xs0, xs1, xs2, xs3) := by
  unfold outs steps; dsimp only
  refine Prod.ext ?_ (Prod.ext ?_ (Prod.ext ?_ ?_)) <;> dsimp only <;>
    (rw [View.read_writes_eq_canon _ _ _ (View.cover_of_tiledL _ S1024x1.size (by sl_kernel_rfl))]
     unfold kernelRun0_B
     dsimp only
     sl_unfold_words
     rw [View.canon_unit_zero hz0]
     simp only [View.readAt_eq_ld, harg2.read_unread, harg3.read_unread, harg4.read_unread, harg5.read_unread, harg6.read_unread,
       harg11.read_unread, harg12.read_unread, harg13.read_unread, harg14.read_unread, View.readCov_unit_zero (S := S1024x1) _ hz0,
       View.ld_unit_zero (S := S1024x256) hz0, View.ld_unit_zero (S := S1024x13) hz0, View.ld_unit_zero (S := S1x1024) hz0, View.ld_unit_zero (S := S1024x1) hz0])

-- Inner coordinate 7: likewise, and each updated column is stored over the whole of its output block.
theorem piecesC (hc0 : ¬cond0_0 i) (hc1 : cond0_1 i) :
    outs (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3)
      = (steps i x0 x1 x2 x3 x4 (xs0, xs1, xs2, xs3), steps i x0 x1 x2 x3 x4 (xs0, xs1, xs2, xs3)) := by
  unfold outs steps; dsimp only
  refine Prod.ext (Prod.ext ?_ (Prod.ext ?_ (Prod.ext ?_ ?_))) (Prod.ext ?_ (Prod.ext ?_ (Prod.ext ?_ ?_))) <;> dsimp only <;>
    (rw [View.read_writes_eq_canon _ _ _ (View.cover_of_tiledL _ S1024x1.size (by sl_kernel_rfl))]
     unfold kernelRun0_C
     dsimp only
     sl_unfold_words
     rw [View.canon_unit_zero hz0]
     simp only [View.readAt_eq_ld, harg2.read_unread, harg3.read_unread, harg4.read_unread, harg5.read_unread, harg6.read_unread,
       harg11.read_unread, harg12.read_unread, harg13.read_unread, harg14.read_unread, View.readCov_unit_zero (S := S1024x1) _ hz0,
       View.ld_unit_zero (S := S1024x256) hz0, View.ld_unit_zero (S := S1024x13) hz0, View.ld_unit_zero (S := S1x1024) hz0, View.ld_unit_zero (S := S1024x1) hz0])

end Cert.KernelIdeal.Hand

end
-- ==== Proof.KIRegionSteps.lean ====
import proofs.«429954_j35948876268191_2_alg».proof.Proof.KIPieces
import proofs.«429954_j35948876268191_2_alg».proof.Proof.KIRegionDefs

set_option maxRecDepth 16384

noncomputable section

open scoped BigOperators

namespace Cert.KernelIdeal.Hand

open Cert.KernelIdeal Cert.KernelIdeal.Gen Cert.TileMath
open Idealize.ShloMosaic Idealize.ShloMosaic.TcCoe Idealize.SL.Sem ValueIdx
open Idealize.ShloMosaic.Pipeline (Dat)

variable (m : (ℓ : Loc nD τ sig) → Buf (Elt Ideal) ℓ) (c : Dev nD)

def ptN (b j : Fin 8) : Fin cfg0.N :=
  ⟨8 * b.val + j.val, by have h : cfg0.N = 64 := N_0; have := b.isLt; have := j.isLt; omega⟩

theorem ptN_val (b j : Fin 8) : (ptN b j).val = 8 * b.val + j.val := rfl

theorem ptRow_ptN (b j : Fin 8) : ptRow (pt (ptN b j)) = b :=
  Fin.ext (by show (8 * b.val + j.val) / 8 = b.val; have := j.isLt; omega)

theorem ptCol_ptN (b j : Fin 8) : ptCol (pt (ptN b j)) = j :=
  Fin.ext (by show (8 * b.val + j.val) % 8 = j.val; have := j.isLt; omega)

theorem outsAt0_congr (n n' : ℕ) (h : n < cfg0.N) (h' : n' < cfg0.N) (e : n = n') :
    outsAt0 m c n h = outsAt0 m c n' h' := by
  subst e; rfl

variable (t : Fin cfg0.N)

-- Point t's tile taken into four columns.
abbrev stepsAt (s : C4 Ideal) : C4 Ideal := steps (grid0.coords t) (xblk0 m c t) (xblk1 m c t) (xblk2 m c t) (xblk3 m c t) (xblk4 m c t) s

-- The first point of a row block restarts the columns from 1e9, -1e9, 0 and 0.
theorem scrA (h0 : t.val % 8 = 0) (h1 : ¬t.val % 8 = 7) :
    (outsAt0 m c t.val t.isLt).2 = stepsAt m c t (k0_pay4 (F := Ideal), k0_pay5 (F := Ideal), k0_pay6 (F := Ideal), k0_pay7 (F := Ideal)) := by
  rw [outsAt0_A m c t h0 h1]; unfold runA
  exact piecesA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) _ _

-- Every later point takes its tile into what the point before left.
theorem scrN (h0 : ¬t.val % 8 = 0) : (outsAt0 m c t.val t.isLt).2 = stepsAt m c t (prevS m c t) := by
  by_cases h1 : t.val % 8 = 7
  · rw [outsAt0_C m c t h0 h1]; unfold runC
    exact congrArg Prod.snd (piecesC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) _ _ _ _ _ _)
  · rw [outsAt0_B m c t h0 h1]; unfold runB
    exact piecesB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) _ _ _ _ _ _

-- At the last point of a row block the four result blocks are the four columns.
theorem out_eq_scr (h0 : ¬t.val % 8 = 0) (h1 : t.val % 8 = 7) : (outsAt0 m c t.val t.isLt).1 = (outsAt0 m c t.val t.isLt).2 := by
  rw [outsAt0_C m c t h0 h1]; unfold runC
  rw [piecesC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) _ _ _ _ _ _]

end Cert.KernelIdeal.Hand

end
-- ==== Proof.SpecFacts.lean ====
import proofs.«429954_j35948876268191_2_alg».proof.Proof.Spec

namespace Cert.Spec

theorem hasAny_iff (p : Fin NA → Fin NA → Bool) (i : Fin NA) :
    hasAny p i = true ↔ ∃ j, p i j = true := by
  unfold hasAny
  exact @decide_eq_true_iff _ _

end Cert.Spec
-- ==== Proof.KIRegion.lean ====
import proofs.«429954_j35948876268191_2_alg».proof.Proof.KIRegionSteps
import proofs.«429954_j35948876268191_2_alg».proof.Proof.SpecFacts

set_option maxRecDepth 16384

noncomputable section

open scoped BigOperators

namespace Cert.KernelIdeal.Hand

open Cert.KernelIdeal Cert.KernelIdeal.Gen Cert.TileMath
open Idealize.ShloMosaic Idealize.ShloMosaic.TcCoe Idealize.SL.Sem ValueIdx
open Idealize.ShloMosaic.Pipeline (Dat)

variable (m : (ℓ : Loc nD τ sig) → Buf (Elt Ideal) ℓ) (c : Dev nD)

def col0 (b : Fin 8) (r : Fin 1024) (j : Fin 8) : EReal :=
  (outsAt0 m c (ptN b j).val (ptN b j).isLt).2.1 (ix2 r 0)

def col1 (b : Fin 8) (r : Fin 1024) (j : Fin 8) : EReal :=
  (outsAt0 m c (ptN b j).val (ptN b j).isLt).2.2.1 (ix2 r 0)

def col2 (b : Fin 8) (r : Fin 1024) (j : Fin 8) : EReal :=
  (outsAt0 m c (ptN b j).val (ptN b j).isLt).2.2.2.1 (ix2 r 0)

def col3 (b : Fin 8) (r : Fin 1024) (j : Fin 8) : EReal :=
  (outsAt0 m c (ptN b j).val (ptN b j).isLt).2.2.2.2 (ix2 r 0)

theorem first_mod (b : Fin 8) : (ptN b 0).val % 8 = 0 ∧ ¬(ptN b 0).val % 8 = 7 := by
  have e : (ptN b 0).val = 8 * b.val + 0 := rfl
  omega

theorem later_mod (b j : Fin 8) (hj : 0 < j.val) : ¬(ptN b j).val % 8 = 0 := by
  have e : (ptN b j).val = 8 * b.val + j.val := rfl
  have := j.isLt
  omega

theorem prevS_ptN (b j : Fin 8) (hj : 0 < j.val) :
    prevS m c (ptN b j) = (outsAt0 m c (ptN b ⟨j.val - 1, by omega⟩).val (ptN b ⟨j.val - 1, by omega⟩).isLt).2 :=
  congrArg Prod.snd (outsAt0_congr m c _ _ _ _ (by
    show 8 * b.val + j.val - 1 = 8 * b.val + (j.val - 1)
    omega))

theorem col0_zero (b : Fin 8) (r : Fin 1024) :
    col0 m c b r 0 = min (Ideal.ofBits .f32 0x4E6E6B28#32) (tilePos m c (rowOf b r) 0) := by
  have e := congrFun (congrArg Prod.fst (scrA m c (ptN b 0) (first_mod b).1 (first_mod b).2)) (ix2 r 0)
  refine e.trans ?_
  refine (tile18 m c (ptN b 0) (k0_pay4 (F := Ideal)) r).trans ?_
  rw [pay4_apply, ptRow_ptN, ptCol_ptN]

theorem col0_succ (b : Fin 8) (r : Fin 1024) (j : Fin 8) (hj : 0 < j.val) :
    col0 m c b r j = min (col0 m c b r ⟨j.val - 1, by omega⟩) (tilePos m c (rowOf b r) j) := by
  have e := congrFun (congrArg Prod.fst (scrN m c (ptN b j) (later_mod b j hj))) (ix2 r 0)
  refine e.trans ?_
  refine (tile18 m c (ptN b j) (prevS m c (ptN b j)).1 r).trans ?_
  rw [ptRow_ptN, ptCol_ptN, prevS_ptN m c b j hj]
  rfl

theorem col0_last (b : Fin 8) (r : Fin 1024) :
    col0 m c b r 7 = min (Ideal.ofBits .f32 0x4E6E6B28#32)
      (Cert.Spec.hardestPos (Ideal.ofBits .f32 0x4E6E6B28#32) (simK m c) (posK m c) (rowOf b r)) := by
  rw [run_min (Ideal.ofBits .f32 0x4E6E6B28#32) (fun j => tilePos m c (rowOf b r) j) (col0 m c b r)
    (col0_zero m c b r) (fun j hj => col0_succ m c b r j hj), iInf_tilePos]

theorem col1_zero (b : Fin 8) (r : Fin 1024) :
    col1 m c b r 0 = max (Ideal.ofBits .f32 0xCE6E6B28#32) (tileNeg m c (rowOf b r) 0) := by
  have e := congrFun (congrArg (fun p : C4 Ideal => p.2.1) (scrA m c (ptN b 0) (first_mod b).1 (first_mod b).2)) (ix2 r 0)
  refine e.trans ?_
  refine (tile19 m c (ptN b 0) (k0_pay5 (F := Ideal)) r).trans ?_
  rw [pay5_apply, ptRow_ptN, ptCol_ptN]

theorem col1_succ (b : Fin 8) (r : Fin 1024) (j : Fin 8) (hj : 0 < j.val) :
    col1 m c b r j = max (col1 m c b r ⟨j.val - 1, by omega⟩) (tileNeg m c (rowOf b r) j) := by
  have e := congrFun (congrArg (fun p : C4 Ideal => p.2.1) (scrN m c (ptN b j) (later_mod b j hj))) (ix2 r 0)
  refine e.trans ?_
  refine (tile19 m c (ptN b j) (prevS m c (ptN b j)).2.1 r).trans ?_
  rw [ptRow_ptN, ptCol_ptN, prevS_ptN m c b j hj]
  rfl

theorem col1_last (b : Fin 8) (r : Fin 1024) :
    col1 m c b r 7 = max (Ideal.ofBits .f32 0xCE6E6B28#32)
      (Cert.Spec.hardestNeg (Ideal.ofBits .f32 0xCE6E6B28#32) (simK m c) (negK m c) (rowOf b r)) := by
  rw [run_max (Ideal.ofBits .f32 0xCE6E6B28#32) (fun j => tileNeg m c (rowOf b r) j) (col1 m c b r)
    (col1_zero m c b r) (fun j hj => col1_succ m c b r j hj), iSup_tileNeg]

theorem col2_zero (b : Fin 8) (r : Fin 1024) :
    col2 m c b r 0
      = max 0 (if ∃ cc : Fin 1024, posK m c (rowOf b r) (rowOf 0 cc) = true then (1 : EReal) else 0) := by
  have e := congrFun (congrArg (fun p : C4 Ideal => p.2.2.1) (scrA m c (ptN b 0) (first_mod b).1 (first_mod b).2)) (ix2 r 0)
  refine e.trans ?_
  refine (tile16 m c (ptN b 0) (k0_pay6 (F := Ideal)) r).trans ?_
  rw [pay6_apply, ptRow_ptN, ptCol_ptN]

theorem col2_succ (b : Fin 8) (r : Fin 1024) (j : Fin 8) (hj : 0 < j.val) :
    col2 m c b r j = max (col2 m c b r ⟨j.val - 1, by omega⟩)
      (if ∃ cc : Fin 1024, posK m c (rowOf b r) (rowOf j cc) = true then (1 : EReal) else 0) := by
  have e := congrFun (congrArg (fun p : C4 Ideal => p.2.2.1) (scrN m c (ptN b j) (later_mod b j hj))) (ix2 r 0)
  refine e.trans ?_
  refine (tile16 m c (ptN b j) (prevS m c (ptN b j)).2.2.1 r).trans ?_
  rw [ptRow_ptN, ptCol_ptN, prevS_ptN m c b j hj]
  rfl

theorem col2_last (b : Fin 8) (r : Fin 1024) :
    col2 m c b r 7 = if Cert.Spec.hasAny (posK m c) (rowOf b r) then 1 else 0 := by
  rw [run_flag (fun j => ∃ cc : Fin 1024, posK m c (rowOf b r) (rowOf j cc) = true) (col2 m c b r)
    (col2_zero m c b r) (fun j hj => col2_succ m c b r j hj)]
  refine if_congr ?_ rfl rfl
  exact (exists_rowOf fun col => posK m c (rowOf b r) col = true).symm.trans (Cert.Spec.hasAny_iff (posK m c) (rowOf b r)).symm

theorem col3_zero (b : Fin 8) (r : Fin 1024) :
    col3 m c b r 0
      = max 0 (if ∃ cc : Fin 1024, negK m c (rowOf b r) (rowOf 0 cc) = true then (1 : EReal) else 0) := by
  have e := congrFun (congrArg (fun p : C4 Ideal => p.2.2.2) (scrA m c (ptN b 0) (first_mod b).1 (first_mod b).2)) (ix2 r 0)
  refine e.trans ?_
  refine (tile17 m c (ptN b 0) (k0_pay7 (F := Ideal)) r).trans ?_
  rw [pay7_apply, ptRow_ptN, ptCol_ptN]

theorem col3_succ (b : Fin 8) (r : Fin 1024) (j : Fin 8) (hj : 0 < j.val) :
    col3 m c b r j = max (col3 m c b r ⟨j.val - 1, by omega⟩)
      (if ∃ cc : Fin 1024, negK m c (rowOf b r) (rowOf j cc) = true then (1 : EReal) else 0) := by
  have e := congrFun (congrArg (fun p : C4 Ideal => p.2.2.2) (scrN m c (ptN b j) (later_mod b j hj))) (ix2 r 0)
  refine e.trans ?_
  refine (tile17 m c (ptN b j) (prevS m c (ptN b j)).2.2.2 r).trans ?_
  rw [ptRow_ptN, ptCol_ptN, prevS_ptN m c b j hj]
  rfl

theorem col3_last (b : Fin 8) (r : Fin 1024) :
    col3 m c b r 7 = if Cert.Spec.hasAny (negK m c) (rowOf b r) then 1 else 0 := by
  rw [run_flag (fun j => ∃ cc : Fin 1024, negK m c (rowOf b r) (rowOf j cc) = true) (col3 m c b r)
    (col3_zero m c b r) (fun j hj => col3_succ m c b r j hj)]
  refine if_congr ?_ rfl rfl
  exact (exists_rowOf fun col => negK m c (rowOf b r) col = true).symm.trans (Cert.Spec.hasAny_iff (negK m c) (rowOf b r)).symm

def g5 (i : Fin 8192) : EReal :=
  min (Ideal.ofBits .f32 0x4E6E6B28#32)
    (Cert.Spec.hardestPos (Ideal.ofBits .f32 0x4E6E6B28#32) (simK m c) (posK m c) i)

def g6 (i : Fin 8192) : EReal :=
  max (Ideal.ofBits .f32 0xCE6E6B28#32)
    (Cert.Spec.hardestNeg (Ideal.ofBits .f32 0xCE6E6B28#32) (simK m c) (negK m c) i)

def g7 (i : Fin 8192) : EReal := if Cert.Spec.hasAny (posK m c) i then 1 else 0

def g8 (i : Fin 8192) : EReal := if Cert.Spec.hasAny (negK m c) i then 1 else 0

def colOf (g : Fin 8192 → EReal) : S8192x1.Idx → Elt Ideal .f32 := fun idx => g (idx 0)

theorem colOf_apply (g : Fin 8192 → EReal) (i : Fin 8192) (u : Fin 1) : colOf g (ix2 i u) = g i := rfl

theorem last_eq (t : Fin cfg0.N) (h7 : t.val % 8 = 7) : t = ptN (ptRow (pt t)) 7 :=
  Fin.ext (by show t.val = 8 * (t.val / 8) + 7; omega)

theorem blk_of_rows (o : Vec Ideal S1024x1 .f32) (g : Fin 8192 → EReal) (b : Fin 8)
    (h : ∀ r : Fin 1024, o (ix2 r 0) = g (rowOf b r)) :
    o = fun y : S1024x1.Idx => colOf g (ix2 (rowOf b (y 0)) (0 : Fin 1)) := by
  funext y
  obtain ⟨r, u, rfl⟩ : ∃ (r : Fin 1024) (u : Fin 1), y = ix2 r u := ⟨y 0, y 1, eq_ix2 y⟩
  obtain rfl : u = 0 := Subsingleton.elim _ _
  exact h r

theorem out5_vec (t : Fin cfg0.N) (h7 : t.val % 8 = 7) :
    (outsAt0 m c t.val t.isLt).1.1
      = fun y : S1024x1.Idx => colOf (g5 m c) (ix2 (rowOf (ptRow (pt t)) (y 0)) (0 : Fin 1)) := by
  obtain ⟨b, rfl⟩ : ∃ b : Fin 8, t = ptN b 7 := ⟨ptRow (pt t), last_eq t h7⟩
  rw [ptRow_ptN]
  refine blk_of_rows _ (g5 m c) b fun r => ?_
  exact (congrFun (congrArg Prod.fst (out_eq_scr m c (ptN b 7) (later_mod b 7 (by decide)) h7)) (ix2 r 0)).trans (col0_last m c b r)

theorem out6_vec (t : Fin cfg0.N) (h7 : t.val % 8 = 7) :
    (outsAt0 m c t.val t.isLt).1.2.1
      = fun y : S1024x1.Idx => colOf (g6 m c) (ix2 (rowOf (ptRow (pt t)) (y 0)) (0 : Fin 1)) := by
  obtain ⟨b, rfl⟩ : ∃ b : Fin 8, t = ptN b 7 := ⟨ptRow (pt t), last_eq t h7⟩
  rw [ptRow_ptN]
  refine blk_of_rows _ (g6 m c) b fun r => ?_
  exact (congrFun (congrArg (fun p : C4 Ideal => p.2.1) (out_eq_scr m c (ptN b 7) (later_mod b 7 (by decide)) h7)) (ix2 r 0)).trans (col1_last m c b r)

theorem out7_vec (t : Fin cfg0.N) (h7 : t.val % 8 = 7) :
    (outsAt0 m c t.val t.isLt).1.2.2.1
      = fun y : S1024x1.Idx => colOf (g7 m c) (ix2 (rowOf (ptRow (pt t)) (y 0)) (0 : Fin 1)) := by
  obtain ⟨b, rfl⟩ : ∃ b : Fin 8, t = ptN b 7 := ⟨ptRow (pt t), last_eq t h7⟩
  rw [ptRow_ptN]
  refine blk_of_rows _ (g7 m c) b fun r => ?_
  exact (congrFun (congrArg (fun p : C4 Ideal => p.2.2.1) (out_eq_scr m c (ptN b 7) (later_mod b 7 (by decide)) h7)) (ix2 r 0)).trans (col2_last m c b r)

theorem out8_vec (t : Fin cfg0.N) (h7 : t.val % 8 = 7) :
    (outsAt0 m c t.val t.isLt).1.2.2.2
      = fun y : S1024x1.Idx => colOf (g8 m c) (ix2 (rowOf (ptRow (pt t)) (y 0)) (0 : Fin 1)) := by
  obtain ⟨b, rfl⟩ : ∃ b : Fin 8, t = ptN b 7 := ⟨ptRow (pt t), last_eq t h7⟩
  rw [ptRow_ptN]
  refine blk_of_rows _ (g8 m c) b fun r => ?_
  exact (congrFun (congrArg (fun p : C4 Ideal => p.2.2.2) (out_eq_scr m c (ptN b 7) (later_mod b 7 (by decide)) h7)) (ix2 r 0)).trans (col3_last m c b r)

theorem cut5_of_rows (g : Fin 8192 → EReal) (t : Fin cfg0.N) :
    (cfg0.win 5).cut (grid0.coords t) (fun y : S1024x1.Idx => colOf g (ix2 (rowOf (ptRow (pt t)) (y 0)) (0 : Fin 1)))
      = ((cfg0.win 5).blk t).view.read (Elt Ideal) (colOf g) := by
  obtain ⟨e0, e1⟩ := idx_out5 t
  funext y
  show colOf g (ix2 (rowOf (ptRow (pt t)) (y 0)) (0 : Fin 1)) = colOf g (((cfg0.win 5).blk t).view.emb y)
  congr 1
  funext a
  apply Fin.ext
  match a with
  | ⟨0, _⟩ => show 1024 * (t.val / 8) + (y 0).val = win0_5.index t 0 * 1024 + 1 * (y 0).val; rw [e0]; omega
  | ⟨1, _⟩ =>
    show 0 = win0_5.index t 1 * 1 + 1 * (y 1).val
    have hy : (y 1).val < 1 := (y 1).isLt
    rw [e1]; omega

theorem cut6_of_rows (g : Fin 8192 → EReal) (t : Fin cfg0.N) :
    (cfg0.win 6).cut (grid0.coords t) (fun y : S1024x1.Idx => colOf g (ix2 (rowOf (ptRow (pt t)) (y 0)) (0 : Fin 1)))
      = ((cfg0.win 6).blk t).view.read (Elt Ideal) (colOf g) := by
  obtain ⟨e0, e1⟩ := idx_out6 t
  funext y
  show colOf g (ix2 (rowOf (ptRow (pt t)) (y 0)) (0 : Fin 1)) = colOf g (((cfg0.win 6).blk t).view.emb y)
  congr 1
  funext a
  apply Fin.ext
  match a with
  | ⟨0, _⟩ => show 1024 * (t.val / 8) + (y 0).val = win0_6.index t 0 * 1024 + 1 * (y 0).val; rw [e0]; omega
  | ⟨1, _⟩ =>
    show 0 = win0_6.index t 1 * 1 + 1 * (y 1).val
    have hy : (y 1).val < 1 := (y 1).isLt
    rw [e1]; omega

theorem cut7_of_rows (g : Fin 8192 → EReal) (t : Fin cfg0.N) :
    (cfg0.win 7).cut (grid0.coords t) (fun y : S1024x1.Idx => colOf g (ix2 (rowOf (ptRow (pt t)) (y 0)) (0 : Fin 1)))
      = ((cfg0.win 7).blk t).view.read (Elt Ideal) (colOf g) := by
  obtain ⟨e0, e1⟩ := idx_out7 t
  funext y
  show colOf g (ix2 (rowOf (ptRow (pt t)) (y 0)) (0 : Fin 1)) = colOf g (((cfg0.win 7).blk t).view.emb y)
  congr 1
  funext a
  apply Fin.ext
  match a with
  | ⟨0, _⟩ => show 1024 * (t.val / 8) + (y 0).val = win0_7.index t 0 * 1024 + 1 * (y 0).val; rw [e0]; omega
  | ⟨1, _⟩ =>
    show 0 = win0_7.index t 1 * 1 + 1 * (y 1).val
    have hy : (y 1).val < 1 := (y 1).isLt
    rw [e1]; omega

theorem cut8_of_rows (g : Fin 8192 → EReal) (t : Fin cfg0.N) :
    (cfg0.win 8).cut (grid0.coords t) (fun y : S1024x1.Idx => colOf g (ix2 (rowOf (ptRow (pt t)) (y 0)) (0 : Fin 1)))
      = ((cfg0.win 8).blk t).view.read (Elt Ideal) (colOf g) := by
  obtain ⟨e0, e1⟩ := idx_out8 t
  funext y
  show colOf g (ix2 (rowOf (ptRow (pt t)) (y 0)) (0 : Fin 1)) = colOf g (((cfg0.win 8).blk t).view.emb y)
  congr 1
  funext a
  apply Fin.ext
  match a with
  | ⟨0, _⟩ => show 1024 * (t.val / 8) + (y 0).val = win0_8.index t 0 * 1024 + 1 * (y 0).val; rw [e0]; omega
  | ⟨1, _⟩ =>
    show 0 = win0_8.index t 1 * 1 + 1 * (y 1).val
    have hy : (y 1).val < 1 := (y 1).isLt
    rw [e1]; omega

theorem flushed5_eq (t : Fin cfg0.N) (hf : (cfg0.win 5).flush t = true) :
    (dats m 0 c).flushed 5 t = ((cfg0.win 5).blk t).view.read (Elt Ideal) (colOf (g5 m c)) := by
  show (cfg0.win 5).cut (grid0.coords t) ((dats m 0 c).after 5 t) = _
  rw [after0_5, out5_vec m c t ((flush0_5 t).mp hf)]
  exact cut5_of_rows (g5 m c) t

theorem flushed6_eq (t : Fin cfg0.N) (hf : (cfg0.win 6).flush t = true) :
    (dats m 0 c).flushed 6 t = ((cfg0.win 6).blk t).view.read (Elt Ideal) (colOf (g6 m c)) := by
  show (cfg0.win 6).cut (grid0.coords t) ((dats m 0 c).after 6 t) = _
  rw [after0_6, out6_vec m c t ((flush0_6 t).mp hf)]
  exact cut6_of_rows (g6 m c) t

theorem flushed7_eq (t : Fin cfg0.N) (hf : (cfg0.win 7).flush t = true) :
    (dats m 0 c).flushed 7 t = ((cfg0.win 7).blk t).view.read (Elt Ideal) (colOf (g7 m c)) := by
  show (cfg0.win 7).cut (grid0.coords t) ((dats m 0 c).after 7 t) = _
  rw [after0_7, out7_vec m c t ((flush0_7 t).mp hf)]
  exact cut7_of_rows (g7 m c) t

theorem flushed8_eq (t : Fin cfg0.N) (hf : (cfg0.win 8).flush t = true) :
    (dats m 0 c).flushed 8 t = ((cfg0.win 8).blk t).view.read (Elt Ideal) (colOf (g8 m c)) := by
  show (cfg0.win 8).cut (grid0.coords t) ((dats m 0 c).after 8 t) = _
  rw [after0_8, out8_vec m c t ((flush0_8 t).mp hf)]
  exact cut8_of_rows (g8 m c) t

def coverPt (i : S8192x1.Idx) : Fin cfg0.N :=
  ptN ⟨(i 0).val / 1024, by have h : (i 0).val < 8192 := (i 0).isLt; omega⟩ 7

theorem coverPt_mod (i : S8192x1.Idx) : (coverPt i).val % 8 = 7 := by
  show (8 * ((i 0).val / 1024) + 7) % 8 = 7
  omega

theorem coverPt_row (i : S8192x1.Idx) : (i 0).val / 1024 = (coverPt i).val / 8 := by
  show (i 0).val / 1024 = (8 * ((i 0).val / 1024) + 7) / 8
  omega

theorem cover5 (i : S8192x1.Idx) : ∃ t : Fin cfg0.N, (cfg0.win 5).flush t = true ∧ i ∈ ((cfg0.win 5).blk t).view.set :=
  ⟨coverPt i, (flush0_5 _).mpr (coverPt_mod i), by rw [mem_blk5_iff]; exact coverPt_row i⟩

theorem cover6 (i : S8192x1.Idx) : ∃ t : Fin cfg0.N, (cfg0.win 6).flush t = true ∧ i ∈ ((cfg0.win 6).blk t).view.set :=
  ⟨coverPt i, (flush0_6 _).mpr (coverPt_mod i), by rw [mem_blk6_iff]; exact coverPt_row i⟩

theorem cover7 (i : S8192x1.Idx) : ∃ t : Fin cfg0.N, (cfg0.win 7).flush t = true ∧ i ∈ ((cfg0.win 7).blk t).view.set :=
  ⟨coverPt i, (flush0_7 _).mpr (coverPt_mod i), by rw [mem_blk7_iff]; exact coverPt_row i⟩

theorem cover8 (i : S8192x1.Idx) : ∃ t : Fin cfg0.N, (cfg0.win 8).flush t = true ∧ i ∈ ((cfg0.win 8).blk t).view.set :=
  ⟨coverPt i, (flush0_8 _).mpr (coverPt_mod i), by rw [mem_blk8_iff]; exact coverPt_row i⟩

abbrev out5 : Vec Ideal S8192x1 .f32 := (dats m 0 c).arrAt 5 cfg0.N

abbrev out6 : Vec Ideal S8192x1 .f32 := (dats m 0 c).arrAt 6 cfg0.N

abbrev out7 : Vec Ideal S8192x1 .f32 := (dats m 0 c).arrAt 7 cfg0.N

abbrev out8 : Vec Ideal S8192x1 .f32 := (dats m 0 c).arrAt 8 cfg0.N

theorem out5_eq : out5 m c = colOf (g5 m c) :=
  (dats m 0 c).arrAt_eq_of_cover 5 (colOf (g5 m c)) (flushed5_eq m c) cover5

theorem out6_eq : out6 m c = colOf (g6 m c) :=
  (dats m 0 c).arrAt_eq_of_cover 6 (colOf (g6 m c)) (flushed6_eq m c) cover6

theorem out7_eq : out7 m c = colOf (g7 m c) :=
  (dats m 0 c).arrAt_eq_of_cover 7 (colOf (g7 m c)) (flushed7_eq m c) cover7

theorem out8_eq : out8 m c = colOf (g8 m c) :=
  (dats m 0 c).arrAt_eq_of_cover 8 (colOf (g8 m c)) (flushed8_eq m c) cover8

theorem region5 (i : Fin 8192) :
    out5 m c (ix2 i 0) = min (Ideal.ofBits .f32 0x4E6E6B28#32)
      (Cert.Spec.hardestPos (Ideal.ofBits .f32 0x4E6E6B28#32) (simK m c) (posK m c) i) :=
  congrFun (out5_eq m c) (ix2 i 0)

theorem region6 (i : Fin 8192) :
    out6 m c (ix2 i 0) = max (Ideal.ofBits .f32 0xCE6E6B28#32)
      (Cert.Spec.hardestNeg (Ideal.ofBits .f32 0xCE6E6B28#32) (simK m c) (negK m c) i) :=
  congrFun (out6_eq m c) (ix2 i 0)

theorem region7 (i : Fin 8192) :
    out7 m c (ix2 i 0) = if Cert.Spec.hasAny (posK m c) i then (1 : EReal) else 0 :=
  congrFun (out7_eq m c) (ix2 i 0)

theorem region8 (i : Fin 8192) :
    out8 m c (ix2 i 0) = if Cert.Spec.hasAny (negK m c) i then (1 : EReal) else 0 :=
  congrFun (out8_eq m c) (ix2 i 0)

end Cert.KernelIdeal.Hand

end
-- ==== Proof.KIValue.lean ====
import proofs.«429954_j35948876268191_2_alg».proof.Proof.KIEnd
import proofs.«429954_j35948876268191_2_alg».proof.Proof.KIRegion
import proofs.«429954_j35948876268191_2_alg».proof.Proof.KITail
import proofs.«429954_j35948876268191_2_alg».proof.Proof.TileMath

noncomputable section

namespace Cert.KernelIdeal.Hand

open Cert.KernelIdeal Cert.KernelIdeal.Gen Cert.TileMath
open Idealize.ShloMosaic Idealize.ShloMosaic.TcCoe Idealize.SL.Sem ValueIdx

variable (m : (ℓ : Loc nD τ sig) → Buf (Elt Ideal) ℓ)

theorem posK_diag (c : Dev nD) (i : Fin 8192) : posK m c i i = false := by
  unfold posK; simp

theorem kernel_value (c : Dev nD) (hneg : ∀ i : Fin 8192, negK m c i i = false) :
    (Wend (V0 m) (dats m) c (Proc.devRef .tc main_v43) : S_.Idx → EReal) ValueIdx.ix0
      = Cert.Spec.loss (Ideal.ofBits .f32 0x4E6E6B28#32) (Ideal.ofBits .f32 0xCE6E6B28#32) (Ideal.ofBits .f32 0x3F000000#32)
          (simK m c) (fun i => decide ((V m c main_v16 : S8192.Idx → BitVec 1) (ValueIdx.ix1 i) = 1#1)) (posK m c) (negK m c) := by
  have h5 : ∀ i : Fin 8192, out5 m c (ix2 i 0)
      = Cert.Spec.hardestPos (Ideal.ofBits .f32 0x4E6E6B28#32) (simK m c) (posK m c) i := fun i =>
    (region5 m c i).trans (min_big_iInf (Ideal.ofBits .f32 0x4E6E6B28#32)
      (fun j => if posK m c i j then simK m c i j else Ideal.ofBits .f32 0x4E6E6B28#32)
      ⟨i, by simp only [posK_diag, Bool.false_eq_true, if_false]⟩)
  have h6 : ∀ i : Fin 8192, out6 m c (ix2 i 0)
      = Cert.Spec.hardestNeg (Ideal.ofBits .f32 0xCE6E6B28#32) (simK m c) (negK m c) i := fun i =>
    (region6 m c i).trans (max_nbig_iSup (Ideal.ofBits .f32 0xCE6E6B28#32)
      (fun j => if negK m c i j then simK m c i j else Ideal.ofBits .f32 0xCE6E6B28#32)
      ⟨i, by simp only [hneg i, Bool.false_eq_true, if_false]⟩)
  rw [Wend_v43 m (dats m) (A_eq m) c]
  exact kTail_eq (simK m c) (posK m c) (negK m c) _ _ _ _ (V m c main_v16) h5 h6 (region7 m c) (region8 m c)

end Cert.KernelIdeal.Hand

end
-- ==== Proof.RefTail.lean ====
import proofs.«429954_j35948876268191_2_alg».proof.ReferenceIdeal
import proofs.«429954_j35948876268191_2_alg».proof.Proof.Spec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.IndicatorCount
import Idealize.ShloMosaic.Lib.WordArith

noncomputable section

namespace Cert.ReferenceIdeal.Hand

open Idealize.ShloMosaic Idealize.ShloMosaic.ValueIdx
open Cert.ReferenceIdeal Cert.ReferenceIdeal.Facts₀

section Folds

theorem tail_fold_ori_eq_one_iff {ι : Type} (S : Finset ι) (f : ι → BitVec 1) :
    S.fold IntOp.ori 0#1 f = 1#1 ↔ ∃ k ∈ S, f k = 1#1 := by
  classical
  induction S using Finset.induction_on with
  | empty => simp
  | insert a S ha ih =>
    rw [Finset.fold_insert ha]
    have key : ∀ x y : BitVec 1, IntOp.ori x y = 1#1 ↔ x = 1#1 ∨ y = 1#1 := by decide
    rw [key, ih]
    constructor
    · rintro (h | ⟨k, hk, hf⟩)
      · exact ⟨a, Finset.mem_insert_self a S, h⟩
      · exact ⟨k, Finset.mem_insert_of_mem hk, hf⟩
    · rintro ⟨k, hk, hf⟩
      rcases Finset.mem_insert.1 hk with rfl | hk
      · exact Or.inl hf
      · exact Or.inr ⟨k, hk, hf⟩

theorem fold_min_top_eq_iInf {ι : Type} [Fintype ι] (f : ι → EReal) :
    (Finset.univ : Finset ι).fold min ⊤ f = ⨅ k, f k := by
  rw [← Finset.inf_univ_eq_iInf]; rfl

theorem fold_max_bot_eq_iSup {ι : Type} [Fintype ι] (f : ι → EReal) :
    (Finset.univ : Finset ι).fold max ⊥ f = ⨆ k, f k := by
  rw [← Finset.sup_univ_eq_iSup]; rfl

theorem sum_indicator_eq_card {ι : Type} (S : Finset ι) (p : ι → Prop) [DecidablePred p] :
    (∑ i ∈ S, if p i then (1 : EReal) else 0) = (((S.filter p).card : ℝ) : EReal) := by
  classical
  induction S using Finset.induction_on with
  | empty => simp
  | insert a S ha ih =>
    rw [Finset.sum_insert ha, ih, Finset.filter_insert]
    by_cases h : p a
    · rw [if_pos h, if_pos h, Finset.card_insert_of_notMem (fun hm => ha (Finset.mem_filter.1 hm).1)]
      rw [show (1 : EReal) = ((1 : ℝ) : EReal) from rfl, ← EReal.coe_add]
      congr 1
      push_cast; ring
    · rw [if_neg h, if_neg h, zero_add]

end Folds

section Columns

variable {m n : Nat}

theorem tail_lift_cols (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

theorem reduce_ori_cols (x : IVec ⟨2, ![m, n]⟩ 1) (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (i : Fin m) :
    Host.reduce IntOp.ori x (constantI (⟨0, ![]⟩ : Shape) 1 0#1) h' hu (ix1 i) = 1#1 ↔ ∃ j : Fin n, x (ix2 i j) = 1#1 := by
  rw [Host.reduce_eq_fold_single IntOp.ori x _ h' h hu]
  refine (tail_fold_ori_eq_one_iff _ _).trans ?_
  constructor
  · rintro ⟨k, _, hk⟩
    exact ⟨⟨k.val, k.isLt⟩, (congrArg x (tail_lift_cols h i k)).symm.trans hk⟩
  · rintro ⟨j, hj⟩
    exact ⟨⟨j.val, j.isLt⟩, Finset.mem_univ _, (congrArg x (tail_lift_cols h i ⟨j.val, j.isLt⟩)).trans hj⟩

theorem ofBits_posInf : Ideal.ofBits .f32 0x7F800000#32 = (⊤ : EReal) := by simp [Ideal.ofBits, Ideal.ieee]

theorem ofBits_negInf : Ideal.ofBits .f32 0xFF800000#32 = (⊥ : EReal) := by simp [Ideal.ofBits, Ideal.ieee]

theorem reduce_min_cols (x : FVec Ideal ⟨2, ![m, n]⟩ .f32) (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (i : Fin m) :
    Host.reduce (FloatOps.minimumf (F := Ideal) (φ := .f32)) x (constant (F := Ideal) (⟨0, ![]⟩ : Shape) .f32 0x7F800000#32) h' hu (ix1 i)
      = ⨅ j : Fin n, x (ix2 i j) := by
  rw [Host.reduce_eq_fold_single (FloatOps.minimumf (F := Ideal) (φ := .f32)) x _ h' h hu]
  have e : (Finset.univ : Finset (Fin ((⟨2, ![m, n]⟩ : Shape).size 1))).fold min (Ideal.ofBits .f32 0x7F800000#32) (x ∘ h.lift (ix1 i))
      = ⨅ k : Fin ((⟨2, ![m, n]⟩ : Shape).size 1), x (h.lift (ix1 i) k) := by
    rw [ofBits_posInf]; exact fold_min_top_eq_iInf _
  refine e.trans ?_
  exact iInf_congr fun k => congrArg x (tail_lift_cols h i k)

theorem reduce_max_cols (x : FVec Ideal ⟨2, ![m, n]⟩ .f32) (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (i : Fin m) :
    Host.reduce (FloatOps.maximumf (F := Ideal) (φ := .f32)) x (constant (F := Ideal) (⟨0, ![]⟩ : Shape) .f32 0xFF800000#32) h' hu (ix1 i)
      = ⨆ j : Fin n, x (ix2 i j) := by
  rw [Host.reduce_eq_fold_single (FloatOps.maximumf (F := Ideal) (φ := .f32)) x _ h' h hu]
  have e : (Finset.univ : Finset (Fin ((⟨2, ![m, n]⟩ : Shape).size 1))).fold max (Ideal.ofBits .f32 0xFF800000#32) (x ∘ h.lift (ix1 i))
      = ⨆ k : Fin ((⟨2, ![m, n]⟩ : Shape).size 1), x (h.lift (ix1 i) k) := by
    rw [ofBits_negInf]; exact fold_max_bot_eq_iSup _
  refine e.trans ?_
  exact iSup_congr fun k => congrArg x (tail_lift_cols h i k)

end Columns

section Total

variable {n : Nat}

theorem drop_total (h' : (⟨1, ![n]⟩ : Shape).ReducesTo [0] (⟨0, ![]⟩ : Shape)) (i : (⟨1, ![n]⟩ : Shape).Idx)
    (j : (⟨0, ![]⟩ : Shape).Idx) : h'.drop i = j := funext fun b => b.elim0

theorem reduce_addi_count (p : IVec ⟨1, ![n]⟩ 1) (hw : 1 < 32) (h' : (⟨1, ![n]⟩ : Shape).ReducesTo [0] (⟨0, ![]⟩ : Shape))
    (hu : 0 < (⟨0, ![]⟩ : Shape).numel) (j : (⟨0, ![]⟩ : Shape).Idx) :
    Host.reduce IntOp.addi (extui 32 p hw) (constantI (⟨0, ![]⟩ : Shape) 32 0#32) h' hu j
      = BitVec.ofNat 32 (Finset.univ.filter fun k : Fin n => p (ix1 k) = 1#1).card := by
  classical
  rw [Host.reduce_eq_fold, Finset.filter_true_of_mem (fun i _ => drop_total h' i j)]
  refine (IndicatorCount.fold_addi_setWidth_eq_card p Finset.univ).trans ?_
  congr 1
  refine Finset.card_equiv idxEquiv1 (fun i => ?_)
  simp only [Finset.mem_filter, Finset.mem_univ, true_and]
  exact iff_of_eq (congrArg (fun z => p z = 1#1) (eq_ix1 i))

theorem reduceAdd_all (x : FVec Ideal ⟨1, ![n]⟩ .f32) (h' : (⟨1, ![n]⟩ : Shape).ReducesTo [0] (⟨0, ![]⟩ : Shape))
    (hu : 0 < (⟨0, ![]⟩ : Shape).numel) (j : (⟨0, ![]⟩ : Shape).Idx) :
    Host.reduceAdd (F := Ideal) (φ := .f32) x (constant (F := Ideal) (⟨0, ![]⟩ : Shape) .f32 0x00000000#32) h' hu j
      = ∑ k : Fin n, x (ix1 k) := by
  rw [hostReduceAdd_apply, Ideal.hostReduceAdd_total h' (fun b => b.elim0), constant_apply, Ideal.ofBits_zero_f32, zero_add]
  exact (Equiv.sum_comp (idxEquiv1 (n := n)).symm x).symm

end Total

section Count

open Idealize.ShloMosaic.WordArith

theorem sgt_zero_count (c : Nat) (hc : c < 2 ^ 31) : IntOp.cmpi .sgt (BitVec.ofNat 32 c) 0#32 = 1#1 ↔ 0 < c := by
  unfold IntOp.cmpi
  rw [ofBool_eq_one_iff]
  show BitVec.slt 0#32 (BitVec.ofNat 32 c) = true ↔ 0 < c
  rw [BitVec.slt_iff_toInt_lt, toInt_ofNat_small c hc]
  simp

theorem toInt_maxsi_one_count (c : Nat) (hc : c < 2 ^ 31) :
    (IntOp.maxsi (BitVec.ofNat 32 c) 1#32).toInt = max (c : ℤ) 1 := by
  unfold IntOp.maxsi
  have h1 : (1#32 : BitVec 32).toInt = 1 := by decide
  by_cases h : BitVec.slt 1#32 (BitVec.ofNat 32 c) = true
  · rw [if_pos h, toInt_ofNat_small c hc]
    rw [BitVec.slt_iff_toInt_lt, toInt_ofNat_small c hc, h1] at h
    omega
  · rw [if_neg h, h1]
    rw [BitVec.slt_iff_toInt_lt, toInt_ofNat_small c hc, h1] at h
    omega

end Count

section Closing

theorem tail_arith (c : Nat) (hc : c < 2 ^ 31) (T : EReal) :
    Scalar.select (IntOp.cmpi .sgt (BitVec.ofNat 32 c) 0#32)
        (Ideal.div T ((((IntOp.maxsi (BitVec.ofNat 32 c) 1#32).toInt : ℝ)) : EReal)) (0 : EReal)
      = if 0 < (((c : ℕ) : ℝ) : EReal) then Ideal.div T (max (((c : ℕ) : ℝ) : EReal) 1) else 0 := by
  have hmax : max (((c : ℕ) : ℝ) : EReal) 1 = (((max (c : ℤ) 1 : ℤ) : ℝ) : EReal) := by
    rw [show (1 : EReal) = ((1 : ℝ) : EReal) from rfl, ← EReal.coe_strictMono.monotone.map_max]
    refine congrArg (fun r : ℝ => (r : EReal)) ?_
    push_cast
    rfl
  rw [toInt_maxsi_one_count c hc, hmax]
  unfold Scalar.select
  by_cases h0 : 0 < c
  · have h1 : IntOp.cmpi .sgt (BitVec.ofNat 32 c) 0#32 = 1 := (sgt_zero_count c hc).2 h0
    rw [if_pos h1, if_pos (EReal.coe_pos.2 (Nat.cast_pos.2 h0))]
  · have h1 : ¬ IntOp.cmpi .sgt (BitVec.ofNat 32 c) 0#32 = 1 := fun e => h0 ((sgt_zero_count c hc).1 e)
    rw [if_neg h1, if_neg (fun e => h0 (Nat.cast_pos.1 (EReal.coe_pos.1 e)))]

theorem tail_apply (cnt : IVec (⟨0, ![]⟩ : Shape) 32) (T : FVec Ideal (⟨0, ![]⟩ : Shape) .f32) :
    select (cmpi .sgt cnt (constantI (⟨0, ![]⟩ : Shape) 32 0#32))
        (Host.divf (F := Ideal) (φ := .f32) T (sitofp (F := Ideal) .f32 (maxsi cnt (constantI (⟨0, ![]⟩ : Shape) 32 1#32))))
        (id (constant (F := Ideal) (⟨0, ![]⟩ : Shape) .f32 0x00000000#32)) ix0
      = Scalar.select (IntOp.cmpi .sgt (cnt ix0) 0#32)
          (Ideal.div (T ix0) ((((IntOp.maxsi (cnt ix0) 1#32).toInt : ℝ)) : EReal)) (Ideal.ofBits .f32 0x00000000#32) := rfl

end Closing

variable [Cert.ReferenceIdeal.Facts]

def stage_v57 (pos : (⟨S8192x8192, .i1⟩ : BufTy).Contents (Elt Ideal)) : (⟨S8192, .i1⟩ : BufTy).Contents (Elt Ideal) :=
  Host.reduce IntOp.ori pos (constantI S_ 1 0#1) reducesTo_S8192x8192_S8192_d1 h_S_

def stage_v58 (neg : (⟨S8192x8192, .i1⟩ : BufTy).Contents (Elt Ideal)) : (⟨S8192, .i1⟩ : BufTy).Contents (Elt Ideal) :=
  Host.reduce IntOp.ori neg (constantI S_ 1 0#1) reducesTo_S8192x8192_S8192_d1 h_S_

def stage_v59 (pos : (⟨S8192x8192, .i1⟩ : BufTy).Contents (Elt Ideal)) (anchor : (⟨S8192, .i1⟩ : BufTy).Contents (Elt Ideal)) :
    (⟨S8192, .i1⟩ : BufTy).Contents (Elt Ideal) :=
  andi anchor (stage_v57 pos)

def stage_v60 (pos neg : (⟨S8192x8192, .i1⟩ : BufTy).Contents (Elt Ideal)) (anchor : (⟨S8192, .i1⟩ : BufTy).Contents (Elt Ideal)) :
    (⟨S8192, .i1⟩ : BufTy).Contents (Elt Ideal) :=
  andi (stage_v59 pos anchor) (stage_v58 neg)

def stage_v61 (sim : (⟨S8192x8192, .f32⟩ : BufTy).Contents (Elt Ideal)) (pos : (⟨S8192x8192, .i1⟩ : BufTy).Contents (Elt Ideal)) :
    (⟨S8192x8192, .f32⟩ : BufTy).Contents (Elt Ideal) :=
  select pos sim (broadcastInDim S8192x8192 ![] bcast_S_S8192x8192 (id (constant (F := Ideal) S_ .f32 0x4E6E6B28#32)))

def stage_v62 (sim : (⟨S8192x8192, .f32⟩ : BufTy).Contents (Elt Ideal)) (pos : (⟨S8192x8192, .i1⟩ : BufTy).Contents (Elt Ideal)) :
    (⟨S8192, .f32⟩ : BufTy).Contents (Elt Ideal) :=
  Host.reduce (FloatOps.minimumf (F := Ideal) (φ := .f32)) (stage_v61 sim pos) (constant (F := Ideal) S_ .f32 0x7F800000#32) reducesTo_S8192x8192_S8192_d1 h_S_

def stage_v63 (sim : (⟨S8192x8192, .f32⟩ : BufTy).Contents (Elt Ideal)) (neg : (⟨S8192x8192, .i1⟩ : BufTy).Contents (Elt Ideal)) :
    (⟨S8192x8192, .f32⟩ : BufTy).Contents (Elt Ideal) :=
  select neg sim (broadcastInDim S8192x8192 ![] bcast_S_S8192x8192 (id (constant (F := Ideal) S_ .f32 0xCE6E6B28#32)))

def stage_v64 (sim : (⟨S8192x8192, .f32⟩ : BufTy).Contents (Elt Ideal)) (neg : (⟨S8192x8192, .i1⟩ : BufTy).Contents (Elt Ideal)) :
    (⟨S8192, .f32⟩ : BufTy).Contents (Elt Ideal) :=
  Host.reduce (FloatOps.maximumf (F := Ideal) (φ := .f32)) (stage_v63 sim neg) (constant (F := Ideal) S_ .f32 0xFF800000#32) reducesTo_S8192x8192_S8192_d1 h_S_

def stage_v65 : (⟨S8192, .f32⟩ : BufTy).Contents (Elt Ideal) :=
  broadcastInDim S8192 ![] bcast_S_S8192 (constant (F := Ideal) S_ .f32 0x3F000000#32)

def stage_v66 (sim : (⟨S8192x8192, .f32⟩ : BufTy).Contents (Elt Ideal)) (neg : (⟨S8192x8192, .i1⟩ : BufTy).Contents (Elt Ideal)) :
    (⟨S8192, .f32⟩ : BufTy).Contents (Elt Ideal) :=
  addf (F := Ideal) (φ := .f32) stage_v65 (stage_v64 sim neg)

def stage_v67 (sim : (⟨S8192x8192, .f32⟩ : BufTy).Contents (Elt Ideal)) (pos neg : (⟨S8192x8192, .i1⟩ : BufTy).Contents (Elt Ideal)) :
    (⟨S8192, .f32⟩ : BufTy).Contents (Elt Ideal) :=
  subf (F := Ideal) (φ := .f32) (stage_v66 sim neg) (stage_v62 sim pos)

def stage_v68 (sim : (⟨S8192x8192, .f32⟩ : BufTy).Contents (Elt Ideal)) (pos neg : (⟨S8192x8192, .i1⟩ : BufTy).Contents (Elt Ideal)) :
    (⟨S8192, .f32⟩ : BufTy).Contents (Elt Ideal) :=
  maximumf (F := Ideal) (φ := .f32) (stage_v67 sim pos neg) (broadcastInDim S8192 ![] bcast_S_S8192 (constant (F := Ideal) S_ .f32 0x00000000#32))

def stage_v69 (sim : (⟨S8192x8192, .f32⟩ : BufTy).Contents (Elt Ideal)) (pos neg : (⟨S8192x8192, .i1⟩ : BufTy).Contents (Elt Ideal))
    (anchor : (⟨S8192, .i1⟩ : BufTy).Contents (Elt Ideal)) : (⟨S8192, .f32⟩ : BufTy).Contents (Elt Ideal) :=
  select (stage_v60 pos neg anchor) (stage_v68 sim pos neg)
    (broadcastInDim S8192 ![] bcast_S_S8192 (id (constant (F := Ideal) S_ .f32 0x00000000#32)))

def stage_v70 (pos neg : (⟨S8192x8192, .i1⟩ : BufTy).Contents (Elt Ideal)) (anchor : (⟨S8192, .i1⟩ : BufTy).Contents (Elt Ideal)) :
    (⟨S8192, .i32⟩ : BufTy).Contents (Elt Ideal) :=
  extui 32 (stage_v60 pos neg anchor) natLt_1_32

def stage_v71 (pos neg : (⟨S8192x8192, .i1⟩ : BufTy).Contents (Elt Ideal)) (anchor : (⟨S8192, .i1⟩ : BufTy).Contents (Elt Ideal)) :
    (⟨S_, .i32⟩ : BufTy).Contents (Elt Ideal) :=
  Host.reduce IntOp.addi (stage_v70 pos neg anchor) (constantI S_ 32 0#32) reducesTo_S8192_S_d0 h_S_

def stage_v72 (sim : (⟨S8192x8192, .f32⟩ : BufTy).Contents (Elt Ideal)) (pos neg : (⟨S8192x8192, .i1⟩ : BufTy).Contents (Elt Ideal))
    (anchor : (⟨S8192, .i1⟩ : BufTy).Contents (Elt Ideal)) : (⟨S_, .f32⟩ : BufTy).Contents (Elt Ideal) :=
  Host.reduceAdd (F := Ideal) (φ := .f32) (stage_v69 sim pos neg anchor) (constant (F := Ideal) S_ .f32 0x00000000#32) reducesTo_S8192_S_d0 h_S_

def stage_v73 (pos neg : (⟨S8192x8192, .i1⟩ : BufTy).Contents (Elt Ideal)) (anchor : (⟨S8192, .i1⟩ : BufTy).Contents (Elt Ideal)) :
    (⟨S_, .i32⟩ : BufTy).Contents (Elt Ideal) :=
  maxsi (stage_v71 pos neg anchor) (constantI S_ 32 1#32)

def stage_v74 (pos neg : (⟨S8192x8192, .i1⟩ : BufTy).Contents (Elt Ideal)) (anchor : (⟨S8192, .i1⟩ : BufTy).Contents (Elt Ideal)) :
    (⟨S_, .f32⟩ : BufTy).Contents (Elt Ideal) :=
  sitofp (F := Ideal) .f32 (stage_v73 pos neg anchor)

def stage_v75 (sim : (⟨S8192x8192, .f32⟩ : BufTy).Contents (Elt Ideal)) (pos neg : (⟨S8192x8192, .i1⟩ : BufTy).Contents (Elt Ideal))
    (anchor : (⟨S8192, .i1⟩ : BufTy).Contents (Elt Ideal)) : (⟨S_, .f32⟩ : BufTy).Contents (Elt Ideal) :=
  Host.divf (F := Ideal) (φ := .f32) (stage_v72 sim pos neg anchor) (stage_v74 pos neg anchor)

def stage_v76 (pos neg : (⟨S8192x8192, .i1⟩ : BufTy).Contents (Elt Ideal)) (anchor : (⟨S8192, .i1⟩ : BufTy).Contents (Elt Ideal)) :
    (⟨S_, .i1⟩ : BufTy).Contents (Elt Ideal) :=
  cmpi .sgt (stage_v71 pos neg anchor) (constantI S_ 32 0#32)

def refTail (sim : (⟨S8192x8192, .f32⟩ : BufTy).Contents (Elt Ideal)) (pos neg : (⟨S8192x8192, .i1⟩ : BufTy).Contents (Elt Ideal))
    (anchor : (⟨S8192, .i1⟩ : BufTy).Contents (Elt Ideal)) : (⟨S_, .f32⟩ : BufTy).Contents (Elt Ideal) :=
  select (stage_v76 pos neg anchor) (stage_v75 sim pos neg anchor) (id (constant (F := Ideal) S_ .f32 0x00000000#32))

section Stages

variable (sim : (⟨S8192x8192, .f32⟩ : BufTy).Contents (Elt Ideal)) (pos neg : (⟨S8192x8192, .i1⟩ : BufTy).Contents (Elt Ideal))
  (anchor : (⟨S8192, .i1⟩ : BufTy).Contents (Elt Ideal))

abbrev simF : Fin Cert.Spec.NA → Fin Cert.Spec.NA → EReal := fun i j => sim (ix2 i j)

abbrev maskF (p : (⟨S8192x8192, .i1⟩ : BufTy).Contents (Elt Ideal)) : Fin Cert.Spec.NA → Fin Cert.Spec.NA → Bool :=
  fun i j => decide (p (ix2 i j) = 1#1)

abbrev anchorF : Fin Cert.Spec.NA → Bool := fun i => decide (anchor (ix1 i) = 1#1)

theorem tail_reduces_cols : S8192x8192.Reduces [1] S8192 := by decide

theorem rowAny_iff (p : (⟨S8192x8192, .i1⟩ : BufTy).Contents (Elt Ideal)) (i : Fin Cert.Spec.NA) :
    Host.reduce IntOp.ori p (constantI S_ 1 0#1) reducesTo_S8192x8192_S8192_d1 h_S_ (ix1 i) = 1#1
      ↔ Cert.Spec.hasAny (maskF p) i = true := by
  refine (reduce_ori_cols (m := 8192) (n := 8192) p reducesTo_S8192x8192_S8192_d1 tail_reduces_cols h_S_ i).trans ?_
  unfold Cert.Spec.hasAny
  simp only [decide_eq_true_eq]

theorem stage_v60_iff (i : Fin Cert.Spec.NA) :
    stage_v60 pos neg anchor (ix1 i) = 1#1 ↔ Cert.Spec.counts (anchorF anchor) (maskF pos) (maskF neg) i = true := by
  have key : ∀ x y : BitVec 1, IntOp.andi x y = 1#1 ↔ x = 1#1 ∧ y = 1#1 := by decide
  show IntOp.andi (IntOp.andi (anchor (ix1 i)) (stage_v57 pos (ix1 i))) (stage_v58 neg (ix1 i)) = 1#1 ↔ _
  unfold stage_v57 stage_v58 Cert.Spec.counts
  rw [key, key, rowAny_iff, rowAny_iff, Bool.and_eq_true, Bool.and_eq_true, decide_eq_true_eq]

theorem select_decide {α : Type} (c : BitVec 1) (a b : α) : Scalar.select c a b = if decide (c = 1#1) = true then a else b := by
  unfold Scalar.select
  by_cases h : c = 1#1
  · rw [if_pos (by rw [h]; rfl), if_pos (by simp [h])]
  · rw [if_neg (fun e => h (by rw [e]; rfl)), if_neg (by simp [h])]

theorem stage_v62_eq (i : Fin Cert.Spec.NA) :
    stage_v62 sim pos (ix1 i) = Cert.Spec.hardestPos (Ideal.ofBits .f32 0x4E6E6B28#32) (simF sim) (maskF pos) i := by
  unfold stage_v62
  refine (reduce_min_cols (m := 8192) (n := 8192) (stage_v61 sim pos) reducesTo_S8192x8192_S8192_d1 tail_reduces_cols h_S_ i).trans ?_
  unfold Cert.Spec.hardestPos
  refine iInf_congr fun j => ?_
  show Scalar.select (pos (ix2 i j)) (sim (ix2 i j))
      (broadcastInDim S8192x8192 ![] bcast_S_S8192x8192 (id (constant (F := Ideal) S_ .f32 0x4E6E6B28#32)) (ix2 i j)) = _
  rw [broadcastInDim_scalar_apply, select_decide]
  rfl

theorem stage_v64_eq (i : Fin Cert.Spec.NA) :
    stage_v64 sim neg (ix1 i) = Cert.Spec.hardestNeg (Ideal.ofBits .f32 0xCE6E6B28#32) (simF sim) (maskF neg) i := by
  unfold stage_v64
  refine (reduce_max_cols (m := 8192) (n := 8192) (stage_v63 sim neg) reducesTo_S8192x8192_S8192_d1 tail_reduces_cols h_S_ i).trans ?_
  unfold Cert.Spec.hardestNeg
  refine iSup_congr fun j => ?_
  show Scalar.select (neg (ix2 i j)) (sim (ix2 i j))
      (broadcastInDim S8192x8192 ![] bcast_S_S8192x8192 (id (constant (F := Ideal) S_ .f32 0xCE6E6B28#32)) (ix2 i j)) = _
  rw [broadcastInDim_scalar_apply, select_decide]
  rfl

theorem stage_v69_eq (i : Fin Cert.Spec.NA) :
    stage_v69 sim pos neg anchor (ix1 i)
      = Cert.Spec.triplet (Ideal.ofBits .f32 0x4E6E6B28#32) (Ideal.ofBits .f32 0xCE6E6B28#32) (Ideal.ofBits .f32 0x3F000000#32)
          (simF sim) (anchorF anchor) (maskF pos) (maskF neg) i := by
  have hz : (id (constant (F := Ideal) S_ .f32 0x00000000#32)) ix0 = (0 : EReal) := Ideal.ofBits_zero_f32
  have hz' : (constant (F := Ideal) S_ .f32 0x00000000#32) ix0 = (0 : EReal) := Ideal.ofBits_zero_f32
  have hh : (constant (F := Ideal) S_ .f32 0x3F000000#32) ix0 = Ideal.ofBits .f32 0x3F000000#32 := rfl
  unfold stage_v69
  rw [select_apply, broadcastInDim_scalar_apply, select_decide, hz]
  unfold stage_v68
  rw [maximumf_apply, broadcastInDim_scalar_apply, hz']
  unfold stage_v67
  rw [subf_apply]
  unfold stage_v66
  rw [addf_apply]
  unfold stage_v65
  rw [broadcastInDim_scalar_apply, hh, stage_v64_eq, stage_v62_eq]
  unfold Cert.Spec.triplet
  by_cases hc : Cert.Spec.counts (anchorF anchor) (maskF pos) (maskF neg) i = true
  · rw [if_pos hc, if_pos (decide_eq_true ((stage_v60_iff pos neg anchor i).2 hc))]
  · rw [if_neg hc, if_neg (fun e => hc ((stage_v60_iff pos neg anchor i).1 (of_decide_eq_true e)))]

def nCount : Nat := (Finset.univ.filter fun k : Fin 8192 => stage_v60 pos neg anchor (ix1 k) = 1#1).card

theorem nCount_lt : nCount pos neg anchor < 2 ^ 31 := by
  have h := Finset.card_filter_le (Finset.univ : Finset (Fin 8192)) (fun k => stage_v60 pos neg anchor (ix1 k) = 1#1)
  rw [Finset.card_univ, Fintype.card_fin] at h
  unfold nCount
  omega

theorem stage_v71_eq : stage_v71 pos neg anchor ix0 = BitVec.ofNat 32 (nCount pos neg anchor) := by
  unfold stage_v71 stage_v70 nCount
  exact reduce_addi_count (n := 8192) (stage_v60 pos neg anchor) natLt_1_32 reducesTo_S8192_S_d0 h_S_ ix0

theorem numTriplets_eq :
    Cert.Spec.numTriplets (anchorF anchor) (maskF pos) (maskF neg) = (((nCount pos neg anchor : ℕ) : ℝ) : EReal) := by
  unfold Cert.Spec.numTriplets nCount
  refine (sum_indicator_eq_card Finset.univ (fun i => Cert.Spec.counts (anchorF anchor) (maskF pos) (maskF neg) i = true)).trans ?_
  exact congrArg (fun S : Finset (Fin 8192) => ((S.card : ℝ) : EReal))
    (Finset.filter_congr fun i _ => (stage_v60_iff pos neg anchor i).symm)

theorem stage_v72_eq :
    stage_v72 sim pos neg anchor ix0
      = ∑ i : Fin Cert.Spec.NA, Cert.Spec.triplet (Ideal.ofBits .f32 0x4E6E6B28#32) (Ideal.ofBits .f32 0xCE6E6B28#32)
          (Ideal.ofBits .f32 0x3F000000#32) (simF sim) (anchorF anchor) (maskF pos) (maskF neg) i := by
  unfold stage_v72
  refine (reduceAdd_all (n := 8192) (stage_v69 sim pos neg anchor) reducesTo_S8192_S_d0 h_S_ ix0).trans ?_
  exact Finset.sum_congr rfl fun i _ => stage_v69_eq sim pos neg anchor i

end Stages

theorem refTail_eq (sim : (⟨S8192x8192, .f32⟩ : BufTy).Contents (Elt Ideal)) (pos neg : (⟨S8192x8192, .i1⟩ : BufTy).Contents (Elt Ideal))
    (anchor : (⟨S8192, .i1⟩ : BufTy).Contents (Elt Ideal)) :
    refTail sim pos neg anchor ValueIdx.ix0
      = Cert.Spec.loss (Ideal.ofBits .f32 0x4E6E6B28#32) (Ideal.ofBits .f32 0xCE6E6B28#32) (Ideal.ofBits .f32 0x3F000000#32)
          (fun i j => sim (ValueIdx.ix2 i j)) (fun i => decide (anchor (ValueIdx.ix1 i) = 1#1))
          (fun i j => decide (pos (ValueIdx.ix2 i j) = 1#1)) (fun i j => decide (neg (ValueIdx.ix2 i j) = 1#1)) := by
  change _ = Cert.Spec.loss _ _ _ (simF sim) (anchorF anchor) (maskF pos) (maskF neg)
  unfold refTail stage_v76 stage_v75 stage_v74 stage_v73 Cert.Spec.loss
  rw [tail_apply, stage_v71_eq, stage_v72_eq, numTriplets_eq, Ideal.ofBits_zero_f32]
  exact tail_arith (nCount pos neg anchor) (nCount_lt pos neg anchor) _
end Cert.ReferenceIdeal.Hand

end
-- ==== Proof.RefOut.lean ====
import proofs.«429954_j35948876268191_2_alg».proof.Proof.RefRun
import proofs.«429954_j35948876268191_2_alg».proof.Proof.RefHead
import proofs.«429954_j35948876268191_2_alg».proof.Proof.RefTail

noncomputable section

namespace Cert.ReferenceIdeal.Hand

open Cert.ReferenceIdeal Cert.ReferenceIdeal.Gen Idealize.ShloMosaic Idealize.ShloMosaic.TcCoe Idealize.SL.Sem

theorem after_append {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by
    rw [List.cons_append, StableHlo.after_cons, StableHlo.after_cons, after_append l₁ l₂]

theorem after_take_drop {τ : Topo} {sig : RefSig} {Val : EltTy → Type} (k : Nat) (l : List (HloOp τ sig Val))
    (V : Valuation τ sig Val) :
    StableHlo.after l V = StableHlo.after (l.drop k) (StableHlo.after (l.take k) V) := by
  rw [← after_append, List.take_append_drop]

section AnyFloat

variable {F : FTy → Type} [FloatOps F]

def gen_v8 (x : (⟨S16x512x256, .f32⟩ : BufTy).Contents (Elt F)) :
    (⟨S8192x256, .f32⟩ : BufTy).Contents (Elt F) :=
  Host.divf (F := F) (shapeCast S8192x256 x shapeCasts_S16x512x256_S8192x256)
    (broadcastInDim S8192x256 ![0, 1] bcast_S8192x1_S8192x256_0_1
      (maximumf (F := F)
        (Host.sqrt (F := F)
          (broadcastInDim S8192x1 ![0] bcast_S8192_S8192x1_0
            (Host.reduceAdd (F := F)
              (mulf (F := F) (shapeCast S8192x256 x shapeCasts_S16x512x256_S8192x256)
                (shapeCast S8192x256 x shapeCasts_S16x512x256_S8192x256))
              (constant (F := F) S_ .f32 0x00000000#32) reducesTo_S8192x256_S8192_d1 h_S_)))
        (broadcastInDim S8192x1 ![] bcast_S_S8192x1 (constant (F := F) S_ .f32 0x2B8CBCCC#32))))

def gen_v10 (e : (⟨S8192x256, .f32⟩ : BufTy).Contents (Elt F)) :
    (⟨S8192x8192, .f32⟩ : BufTy).Contents (Elt F) :=
  Host.dotGeneral (F := F) (φ₁ := .f32) (φ₂ := .f32) dot_S8192x256_S256x8192_S8192x8192_1_0_0_1_n_n none e
    (transpose S256x8192 [1, 0] e transposes_S8192x256_S256x8192_1_0)

def gen_v3 (lb : (⟨S8192, .i32⟩ : BufTy).Contents (Elt F)) : (⟨S8192, .i1⟩ : BufTy).Contents (Elt F) :=
  cmpi .ne lb (broadcastInDim S8192 ![] bcast_S_S8192 (constantI S_ 32 4294967196#32))

def gen_v11 (lb : (⟨S8192, .i32⟩ : BufTy).Contents (Elt F)) : (⟨S8192, .i32⟩ : BufTy).Contents (Elt F) :=
  minsi (broadcastInDim S8192 ![] bcast_S_S8192 (id (constantI S_ 32 12#32)))
    (maxsi (broadcastInDim S8192 ![] bcast_S_S8192 (id (constantI S_ 32 0#32))) lb)

def gen_v35 (lb : (⟨S8192, .i32⟩ : BufTy).Contents (Elt F)) : (⟨S8192x8192, .i1⟩ : BufTy).Contents (Elt F) :=
  andi
    (andi
      (cmpi .eq
        (broadcastInDim S8192x8192 ![0, 1] bcast_S8192x1_S8192x8192_0_1
          (broadcastInDim S8192x1 ![0] bcast_S8192_S8192x1_0 lb))
        (broadcastInDim S8192x8192 ![0, 1] bcast_S1x8192_S8192x8192_0_1
          (broadcastInDim S1x8192 ![1] bcast_S8192_S1x8192_1 lb)))
      (broadcastInDim S8192x8192 ![0, 1] bcast_S1x8192_S8192x8192_0_1
        (broadcastInDim S1x8192 ![1] bcast_S8192_S1x8192_1 (gen_v3 lb))))
    (noti
      (cmpi .eq
        (addi (iotaInDim S8192x8192 32 0)
          (broadcastInDim S8192x8192 ![] bcast_S_S8192x8192 (constantI S_ 32 0#32)))
        (iotaInDim S8192x8192 32 1)))

def gen_v36 (lb : (⟨S8192, .i32⟩ : BufTy).Contents (Elt F)) : (⟨S8192x1, .i32⟩ : BufTy).Contents (Elt F) :=
  broadcastInDim S8192x1 ![0] bcast_S8192_S8192x1_0 (gen_v11 lb)

def gen_v37 (lb : (⟨S8192, .i32⟩ : BufTy).Contents (Elt F)) : (⟨S1x8192, .i32⟩ : BufTy).Contents (Elt F) :=
  broadcastInDim S1x8192 ![1] bcast_S8192_S1x8192_1 (gen_v11 lb)

def gen_v42 (lb : (⟨S8192, .i32⟩ : BufTy).Contents (Elt F)) : (⟨S8192x1, .i32⟩ : BufTy).Contents (Elt F) :=
  select
    (cmpi .slt (gen_v36 lb) (broadcastInDim S8192x1 ![] bcast_S_S8192x1 (constantI S_ 32 0#32)))
    (addi (gen_v36 lb) (broadcastInDim S8192x1 ![] bcast_S_S8192x1 (constantI S_ 32 13#32)))
    (gen_v36 lb)

def gen_v47 (lb : (⟨S8192, .i32⟩ : BufTy).Contents (Elt F)) : (⟨S1x8192, .i32⟩ : BufTy).Contents (Elt F) :=
  select
    (cmpi .slt (gen_v37 lb) (broadcastInDim S1x8192 ![] bcast_S_S1x8192 (constantI S_ 32 0#32)))
    (addi (gen_v37 lb) (broadcastInDim S1x8192 ![] bcast_S_S1x8192 (constantI S_ 32 13#32)))
    (gen_v37 lb)

def gen_v52 (lb : (⟨S8192, .i32⟩ : BufTy).Contents (Elt F)) : (⟨S8192x8192x2, .i32⟩ : BufTy).Contents (Elt F) :=
  concatenate S8192x8192x2 2
    [⟨S8192x8192x1, broadcastInDim S8192x8192x1 ![0, 1] bcast_S8192x8192_S8192x8192x1_0_1
        (broadcastInDim S8192x8192 ![0, 1] bcast_S8192x1_S8192x8192_0_1 (gen_v42 lb))⟩,
      ⟨S8192x8192x1, broadcastInDim S8192x8192x1 ![0, 1] bcast_S8192x8192_S8192x8192x1_0_1
        (broadcastInDim S8192x8192 ![0, 1] bcast_S1x8192_S8192x8192_0_1 (gen_v47 lb))⟩]
    concatenates_S8192x8192x1_S8192x8192x1_S8192x8192x2_d2

def gen_v53 (lb : (⟨S8192, .i32⟩ : BufTy).Contents (Elt F)) : (⟨S8192x8192, .i1⟩ : BufTy).Contents (Elt F) :=
  Host.gather gather_S13x13_S8192x8192x2_S8192x8192_n_01_n_n_01_2_11 (fun i : S13x13.Idx => lit0 (S13x13.rowMajor i)) (gen_v52 lb)

def gen_v56 (lb : (⟨S8192, .i32⟩ : BufTy).Contents (Elt F)) : (⟨S8192x8192, .i1⟩ : BufTy).Contents (Elt F) :=
  andi (gen_v53 lb)
    (broadcastInDim S8192x8192 ![0, 1] bcast_S1x8192_S8192x8192_0_1
      (broadcastInDim S1x8192 ![1] bcast_S8192_S1x8192_1 (gen_v3 lb)))

def gen_v16 (lb : (⟨S8192, .i32⟩ : BufTy).Contents (Elt F)) : (⟨S8192, .i32⟩ : BufTy).Contents (Elt F) :=
  select
    (cmpi .slt (gen_v11 lb) (broadcastInDim S8192 ![] bcast_S_S8192 (constantI S_ 32 0#32)))
    (addi (gen_v11 lb) (broadcastInDim S8192 ![] bcast_S_S8192 (constantI S_ 32 13#32)))
    (gen_v11 lb)

def gen_v18 (lb : (⟨S8192, .i32⟩ : BufTy).Contents (Elt F)) : (⟨S8192x13, .i1⟩ : BufTy).Contents (Elt F) :=
  Host.gather gather_S13x13_S8192x1_S8192x13_1_0_n_n_0_1_113 (fun i : S13x13.Idx => lit0 (S13x13.rowMajor i))
    (broadcastInDim S8192x1 ![0] bcast_S8192_S8192x1_0 (gen_v16 lb))

def gen_v19 (lb : (⟨S8192, .i32⟩ : BufTy).Contents (Elt F)) : (⟨S8192, .i1⟩ : BufTy).Contents (Elt F) :=
  Host.reduce IntOp.ori (gen_v18 lb) (constantI S_ 1 0#1) reducesTo_S8192x13_S8192_d1 h_S_

def gen_v20 (lb : (⟨S8192, .i32⟩ : BufTy).Contents (Elt F)) : (⟨S8192, .i1⟩ : BufTy).Contents (Elt F) :=
  andi (gen_v3 lb) (gen_v19 lb)

def gen_v57 (pos : (⟨S8192x8192, .i1⟩ : BufTy).Contents (Elt F)) : (⟨S8192, .i1⟩ : BufTy).Contents (Elt F) :=
  Host.reduce IntOp.ori pos (constantI S_ 1 0#1) reducesTo_S8192x8192_S8192_d1 h_S_

def gen_v58 (neg : (⟨S8192x8192, .i1⟩ : BufTy).Contents (Elt F)) : (⟨S8192, .i1⟩ : BufTy).Contents (Elt F) :=
  Host.reduce IntOp.ori neg (constantI S_ 1 0#1) reducesTo_S8192x8192_S8192_d1 h_S_

def gen_v59 (pos : (⟨S8192x8192, .i1⟩ : BufTy).Contents (Elt F)) (anchor : (⟨S8192, .i1⟩ : BufTy).Contents (Elt F)) :
    (⟨S8192, .i1⟩ : BufTy).Contents (Elt F) :=
  andi anchor (gen_v57 pos)

def gen_v60 (pos neg : (⟨S8192x8192, .i1⟩ : BufTy).Contents (Elt F)) (anchor : (⟨S8192, .i1⟩ : BufTy).Contents (Elt F)) :
    (⟨S8192, .i1⟩ : BufTy).Contents (Elt F) :=
  andi (gen_v59 pos anchor) (gen_v58 neg)

def gen_v61 (sim : (⟨S8192x8192, .f32⟩ : BufTy).Contents (Elt F)) (pos : (⟨S8192x8192, .i1⟩ : BufTy).Contents (Elt F)) :
    (⟨S8192x8192, .f32⟩ : BufTy).Contents (Elt F) :=
  select pos sim (broadcastInDim S8192x8192 ![] bcast_S_S8192x8192 (id (constant (F := F) S_ .f32 0x4E6E6B28#32)))

def gen_v62 (sim : (⟨S8192x8192, .f32⟩ : BufTy).Contents (Elt F)) (pos : (⟨S8192x8192, .i1⟩ : BufTy).Contents (Elt F)) :
    (⟨S8192, .f32⟩ : BufTy).Contents (Elt F) :=
  Host.reduce (FloatOps.minimumf (F := F) (φ := .f32)) (gen_v61 sim pos) (constant (F := F) S_ .f32 0x7F800000#32) reducesTo_S8192x8192_S8192_d1 h_S_

def gen_v63 (sim : (⟨S8192x8192, .f32⟩ : BufTy).Contents (Elt F)) (neg : (⟨S8192x8192, .i1⟩ : BufTy).Contents (Elt F)) :
    (⟨S8192x8192, .f32⟩ : BufTy).Contents (Elt F) :=
  select neg sim (broadcastInDim S8192x8192 ![] bcast_S_S8192x8192 (id (constant (F := F) S_ .f32 0xCE6E6B28#32)))

def gen_v64 (sim : (⟨S8192x8192, .f32⟩ : BufTy).Contents (Elt F)) (neg : (⟨S8192x8192, .i1⟩ : BufTy).Contents (Elt F)) :
    (⟨S8192, .f32⟩ : BufTy).Contents (Elt F) :=
  Host.reduce (FloatOps.maximumf (F := F) (φ := .f32)) (gen_v63 sim neg) (constant (F := F) S_ .f32 0xFF800000#32) reducesTo_S8192x8192_S8192_d1 h_S_

def gen_v65 : (⟨S8192, .f32⟩ : BufTy).Contents (Elt F) :=
  broadcastInDim S8192 ![] bcast_S_S8192 (constant (F := F) S_ .f32 0x3F000000#32)

def gen_v66 (sim : (⟨S8192x8192, .f32⟩ : BufTy).Contents (Elt F)) (neg : (⟨S8192x8192, .i1⟩ : BufTy).Contents (Elt F)) :
    (⟨S8192, .f32⟩ : BufTy).Contents (Elt F) :=
  addf (F := F) (φ := .f32) gen_v65 (gen_v64 sim neg)

def gen_v67 (sim : (⟨S8192x8192, .f32⟩ : BufTy).Contents (Elt F)) (pos neg : (⟨S8192x8192, .i1⟩ : BufTy).Contents (Elt F)) :
    (⟨S8192, .f32⟩ : BufTy).Contents (Elt F) :=
  subf (F := F) (φ := .f32) (gen_v66 sim neg) (gen_v62 sim pos)

def gen_v68 (sim : (⟨S8192x8192, .f32⟩ : BufTy).Contents (Elt F)) (pos neg : (⟨S8192x8192, .i1⟩ : BufTy).Contents (Elt F)) :
    (⟨S8192, .f32⟩ : BufTy).Contents (Elt F) :=
  maximumf (F := F) (φ := .f32) (gen_v67 sim pos neg) (broadcastInDim S8192 ![] bcast_S_S8192 (constant (F := F) S_ .f32 0x00000000#32))

def gen_v69 (sim : (⟨S8192x8192, .f32⟩ : BufTy).Contents (Elt F)) (pos neg : (⟨S8192x8192, .i1⟩ : BufTy).Contents (Elt F))
    (anchor : (⟨S8192, .i1⟩ : BufTy).Contents (Elt F)) : (⟨S8192, .f32⟩ : BufTy).Contents (Elt F) :=
  select (gen_v60 pos neg anchor) (gen_v68 sim pos neg)
    (broadcastInDim S8192 ![] bcast_S_S8192 (id (constant (F := F) S_ .f32 0x00000000#32)))

def gen_v70 (pos neg : (⟨S8192x8192, .i1⟩ : BufTy).Contents (Elt F)) (anchor : (⟨S8192, .i1⟩ : BufTy).Contents (Elt F)) :
    (⟨S8192, .i32⟩ : BufTy).Contents (Elt F) :=
  extui 32 (gen_v60 pos neg anchor) natLt_1_32

def gen_v71 (pos neg : (⟨S8192x8192, .i1⟩ : BufTy).Contents (Elt F)) (anchor : (⟨S8192, .i1⟩ : BufTy).Contents (Elt F)) :
    (⟨S_, .i32⟩ : BufTy).Contents (Elt F) :=
  Host.reduce IntOp.addi (gen_v70 pos neg anchor) (constantI S_ 32 0#32) reducesTo_S8192_S_d0 h_S_

def gen_v72 (sim : (⟨S8192x8192, .f32⟩ : BufTy).Contents (Elt F)) (pos neg : (⟨S8192x8192, .i1⟩ : BufTy).Contents (Elt F))
    (anchor : (⟨S8192, .i1⟩ : BufTy).Contents (Elt F)) : (⟨S_, .f32⟩ : BufTy).Contents (Elt F) :=
  Host.reduceAdd (F := F) (φ := .f32) (gen_v69 sim pos neg anchor) (constant (F := F) S_ .f32 0x00000000#32) reducesTo_S8192_S_d0 h_S_

def gen_v73 (pos neg : (⟨S8192x8192, .i1⟩ : BufTy).Contents (Elt F)) (anchor : (⟨S8192, .i1⟩ : BufTy).Contents (Elt F)) :
    (⟨S_, .i32⟩ : BufTy).Contents (Elt F) :=
  maxsi (gen_v71 pos neg anchor) (constantI S_ 32 1#32)

def gen_v74 (pos neg : (⟨S8192x8192, .i1⟩ : BufTy).Contents (Elt F)) (anchor : (⟨S8192, .i1⟩ : BufTy).Contents (Elt F)) :
    (⟨S_, .f32⟩ : BufTy).Contents (Elt F) :=
  sitofp (F := F) .f32 (gen_v73 pos neg anchor)

def gen_v75 (sim : (⟨S8192x8192, .f32⟩ : BufTy).Contents (Elt F)) (pos neg : (⟨S8192x8192, .i1⟩ : BufTy).Contents (Elt F))
    (anchor : (⟨S8192, .i1⟩ : BufTy).Contents (Elt F)) : (⟨S_, .f32⟩ : BufTy).Contents (Elt F) :=
  Host.divf (F := F) (φ := .f32) (gen_v72 sim pos neg anchor) (gen_v74 pos neg anchor)

def gen_v76 (pos neg : (⟨S8192x8192, .i1⟩ : BufTy).Contents (Elt F)) (anchor : (⟨S8192, .i1⟩ : BufTy).Contents (Elt F)) :
    (⟨S_, .i1⟩ : BufTy).Contents (Elt F) :=
  cmpi .sgt (gen_v71 pos neg anchor) (constantI S_ 32 0#32)

def gen_tail (sim : (⟨S8192x8192, .f32⟩ : BufTy).Contents (Elt F)) (pos neg : (⟨S8192x8192, .i1⟩ : BufTy).Contents (Elt F))
    (anchor : (⟨S8192, .i1⟩ : BufTy).Contents (Elt F)) : (⟨S_, .f32⟩ : BufTy).Contents (Elt F) :=
  select (gen_v76 pos neg anchor) (gen_v75 sim pos neg anchor) (id (constant (F := F) S_ .f32 0x00000000#32))

set_option maxRecDepth 8192 in
set_option maxHeartbeats 4000000 in

theorem head_v10 (V : Valuation τ sig (Elt F)) :
    StableHlo.after ((ops (F := F)).take 79) V (Proc.devRef .tc main_v10)
      = gen_v10 (gen_v8 (V (Proc.devRef .tc main_arg0))) := by
  simp only [ops, List.take_succ_cons, List.take_zero]
  after_results_simp
  simp only [StableHlo.TRef.ofBuf, StableHlo.TRef.toBuf, cast_eq]
  unfold gen_v10 gen_v8
  first | with_reducible rfl | rfl

set_option maxRecDepth 8192 in
set_option maxHeartbeats 4000000 in

theorem head_v35 (V : Valuation τ sig (Elt F)) :
    StableHlo.after ((ops (F := F)).take 79) V (Proc.devRef .tc main_v35)
      = gen_v35 (shapeCast S8192 (V (Proc.devRef .tc main_arg1)) shapeCasts_S16x512_S8192) := by
  simp only [ops, List.take_succ_cons, List.take_zero]
  after_results_simp
  unfold gen_v35 gen_v3
  first | with_reducible rfl | rfl

set_option maxRecDepth 8192 in
set_option maxHeartbeats 4000000 in

theorem head_v20 (V : Valuation τ sig (Elt F)) :
    StableHlo.after ((ops (F := F)).take 79) V (Proc.devRef .tc main_v20)
      = gen_v20 (shapeCast S8192 (V (Proc.devRef .tc main_arg1)) shapeCasts_S16x512_S8192) := by
  simp only [ops, List.take_succ_cons, List.take_zero]
  after_results_simp
  simp only [StableHlo.TRef.ofBuf, StableHlo.TRef.toBuf, cast_eq]
  unfold gen_v20 gen_v19 gen_v18 gen_v16 gen_v11 gen_v3
  first | with_reducible rfl | rfl

set_option maxRecDepth 8192 in
set_option maxHeartbeats 4000000 in

theorem pre_c (V : Valuation τ sig (Elt F)) :
    StableHlo.after (((ops (F := F)).take 79).take 74) V (Proc.devRef .tc main_c)
      = fun i => lit0 (S13x13.rowMajor i) := by
  simp only [ops, List.take_succ_cons, List.take_zero]
  after_results_simp
  first | with_reducible rfl | rfl

set_option maxRecDepth 8192 in
set_option maxHeartbeats 4000000 in

theorem pre_v3 (V : Valuation τ sig (Elt F)) :
    StableHlo.after (((ops (F := F)).take 79).take 74) V (Proc.devRef .tc main_v3)
      = gen_v3 (shapeCast S8192 (V (Proc.devRef .tc main_arg1)) shapeCasts_S16x512_S8192) := by
  simp only [ops, List.take_succ_cons, List.take_zero]
  after_results_simp
  unfold gen_v3
  first | with_reducible rfl | rfl

set_option maxRecDepth 8192 in
set_option maxHeartbeats 4000000 in

theorem pre_v50 (V : Valuation τ sig (Elt F)) :
    StableHlo.after (((ops (F := F)).take 79).take 74) V (Proc.devRef .tc main_v50)
      = broadcastInDim S8192x8192x1 ![0, 1] bcast_S8192x8192_S8192x8192x1_0_1
          (broadcastInDim S8192x8192 ![0, 1] bcast_S8192x1_S8192x8192_0_1 (gen_v42 (shapeCast S8192 (V (Proc.devRef .tc main_arg1)) shapeCasts_S16x512_S8192))) := by
  simp only [ops, List.take_succ_cons, List.take_zero]
  after_results_simp
  simp only [StableHlo.TRef.ofBuf, StableHlo.TRef.toBuf, cast_eq]
  unfold gen_v42 gen_v36 gen_v11
  first | with_reducible rfl | rfl

set_option maxRecDepth 8192 in
set_option maxHeartbeats 4000000 in

theorem pre_v51 (V : Valuation τ sig (Elt F)) :
    StableHlo.after (((ops (F := F)).take 79).take 74) V (Proc.devRef .tc main_v51)
      = broadcastInDim S8192x8192x1 ![0, 1] bcast_S8192x8192_S8192x8192x1_0_1
          (broadcastInDim S8192x8192 ![0, 1] bcast_S1x8192_S8192x8192_0_1 (gen_v47 (shapeCast S8192 (V (Proc.devRef .tc main_arg1)) shapeCasts_S16x512_S8192))) := by
  simp only [ops, List.take_succ_cons, List.take_zero]
  after_results_simp
  simp only [StableHlo.TRef.ofBuf, StableHlo.TRef.toBuf, cast_eq]
  unfold gen_v47 gen_v37 gen_v11
  first | with_reducible rfl | rfl

def gen_mid (tbl : (⟨S13x13, .i1⟩ : BufTy).Contents (Elt F)) (a b : (⟨S8192x8192x1, .i32⟩ : BufTy).Contents (Elt F)) (p : (⟨S8192, .i1⟩ : BufTy).Contents (Elt F)) :
    (⟨S8192x8192, .i1⟩ : BufTy).Contents (Elt F) :=
  andi
    (Host.gather gather_S13x13_S8192x8192x2_S8192x8192_n_01_n_n_01_2_11 tbl
      (concatenate S8192x8192x2 2 [⟨S8192x8192x1, a⟩, ⟨S8192x8192x1, b⟩] concatenates_S8192x8192x1_S8192x8192x1_S8192x8192x2_d2))
    (broadcastInDim S8192x8192 ![0, 1] bcast_S1x8192_S8192x8192_0_1 (broadcastInDim S1x8192 ![1] bcast_S8192_S1x8192_1 p))

set_option maxRecDepth 8192 in
set_option maxHeartbeats 4000000 in

theorem mid_v56 (W : Valuation τ sig (Elt F)) :
    StableHlo.after (((ops (F := F)).take 79).drop 74) W (Proc.devRef .tc main_v56)
      = gen_mid (W (Proc.devRef .tc main_c)) (W (Proc.devRef .tc main_v50)) (W (Proc.devRef .tc main_v51))
          (W (Proc.devRef .tc main_v3)) := by
  simp only [ops, List.take_succ_cons, List.take_zero, List.drop_succ_cons, List.drop_zero]
  after_results
  unfold gen_mid
  first | with_reducible rfl | rfl

theorem head_v56 (V : Valuation τ sig (Elt F)) :
    StableHlo.after ((ops (F := F)).take 79) V (Proc.devRef .tc main_v56) = gen_v56 (shapeCast S8192 (V (Proc.devRef .tc main_arg1)) shapeCasts_S16x512_S8192) := by
  rw [after_take_drop 74 ((ops (F := F)).take 79) V, mid_v56, pre_c, pre_v50, pre_v51, pre_v3]
  unfold gen_mid gen_v56 gen_v53 gen_v52
  first | with_reducible rfl | rfl

set_option maxRecDepth 8192 in
set_option maxHeartbeats 4000000 in

theorem tail_after (W : Valuation τ sig (Elt F)) :
    StableHlo.after ((ops (F := F)).drop 79) W (Proc.devRef .tc main_v77)
      = gen_tail (W (Proc.devRef .tc main_v10)) (W (Proc.devRef .tc main_v35)) (W (Proc.devRef .tc main_v56))
          (W (Proc.devRef .tc main_v20)) := by
  simp only [ops, List.drop_succ_cons, List.drop_zero]
  after_results_simp
  simp only [StableHlo.TRef.ofBuf, StableHlo.TRef.toBuf, cast_eq]
  unfold gen_tail gen_v76 gen_v75 gen_v74 gen_v73 gen_v72 gen_v71 gen_v70 gen_v69 gen_v68 gen_v67 gen_v66 gen_v65 gen_v64 gen_v63 gen_v62 gen_v61 gen_v60 gen_v59 gen_v58 gen_v57
  first | with_reducible rfl | rfl

theorem out_any (V : Valuation τ sig (Elt F)) :
    StableHlo.after (ops (F := F)) V (Proc.devRef .tc main_v77)
      = gen_tail (gen_v10 (gen_v8 (V (Proc.devRef .tc main_arg0)))) (gen_v35 (shapeCast S8192 (V (Proc.devRef .tc main_arg1)) shapeCasts_S16x512_S8192)) (gen_v56 (shapeCast S8192 (V (Proc.devRef .tc main_arg1)) shapeCasts_S16x512_S8192)) (gen_v20 (shapeCast S8192 (V (Proc.devRef .tc main_arg1)) shapeCasts_S16x512_S8192)) := by
  rw [after_take_drop 79 ops V, tail_after, head_v10, head_v35, head_v56, head_v20]

end AnyFloat

theorem gen_v8_ideal (x : (⟨S16x512x256, .f32⟩ : BufTy).Contents (Elt Ideal)) : gen_v8 (F := Ideal) x = stage_v8 x := by
  unfold gen_v8 stage_v8
  first | with_reducible rfl | rfl

theorem gen_v10_ideal (e : (⟨S8192x256, .f32⟩ : BufTy).Contents (Elt Ideal)) : gen_v10 (F := Ideal) e = stage_v10 e := by
  unfold gen_v10 stage_v10
  first | with_reducible rfl | rfl

theorem gen_v35_ideal (lb : (⟨S8192, .i32⟩ : BufTy).Contents (Elt Ideal)) : gen_v35 (F := Ideal) lb = stage_v35 lb := by
  unfold gen_v35 gen_v3 stage_v35 stage_v3
  first | with_reducible rfl | rfl

theorem gen_v56_ideal (lb : (⟨S8192, .i32⟩ : BufTy).Contents (Elt Ideal)) : gen_v56 (F := Ideal) lb = stage_v56 lb := by
  unfold gen_v56 gen_v53 gen_v52 gen_v47 gen_v42 gen_v37 gen_v36 gen_v11 gen_v3 stage_v56 stage_v53 stage_v52 stage_v47 stage_v42 stage_v37 stage_v36 stage_v11 stage_v3
  first | with_reducible rfl | rfl

theorem gen_v20_ideal (lb : (⟨S8192, .i32⟩ : BufTy).Contents (Elt Ideal)) : gen_v20 (F := Ideal) lb = stage_v20 lb := by
  unfold gen_v20 gen_v19 gen_v18 gen_v16 gen_v11 gen_v3 stage_v20 stage_v19 stage_v18 stage_v16 stage_v11 stage_v3
  first | with_reducible rfl | rfl

theorem gen_tail_ideal (sim : (⟨S8192x8192, .f32⟩ : BufTy).Contents (Elt Ideal)) (pos neg : (⟨S8192x8192, .i1⟩ : BufTy).Contents (Elt Ideal))
    (anchor : (⟨S8192, .i1⟩ : BufTy).Contents (Elt Ideal)) : gen_tail (F := Ideal) sim pos neg anchor = refTail sim pos neg anchor := by
  unfold gen_tail gen_v76 gen_v75 gen_v74 gen_v73 gen_v72 gen_v71 gen_v70 gen_v69 gen_v68 gen_v67 gen_v66 gen_v65 gen_v64 gen_v63 gen_v62 gen_v61 gen_v60 gen_v59 gen_v58 gen_v57 refTail stage_v76 stage_v75 stage_v74 stage_v73 stage_v72 stage_v71 stage_v70 stage_v69 stage_v68 stage_v67 stage_v66 stage_v65 stage_v64 stage_v63 stage_v62 stage_v61 stage_v60 stage_v59 stage_v58 stage_v57
  first | with_reducible rfl | rfl

theorem out_eq (V : Valuation τ sig (Elt Ideal)) :
    StableHlo.after (ops (F := Ideal)) V (Proc.devRef .tc main_v77)
      = refTail (stage_v10 (stage_v8 (V (Proc.devRef .tc main_arg0))))
          (stage_v35 (shapeCast S8192 (V (Proc.devRef .tc main_arg1)) shapeCasts_S16x512_S8192))
          (stage_v56 (shapeCast S8192 (V (Proc.devRef .tc main_arg1)) shapeCasts_S16x512_S8192))
          (stage_v20 (shapeCast S8192 (V (Proc.devRef .tc main_arg1)) shapeCasts_S16x512_S8192)) := by
  rw [out_any, gen_tail_ideal, gen_v10_ideal, gen_v8_ideal, gen_v35_ideal, gen_v56_ideal, gen_v20_ideal]

theorem out_eq_mem (m : (ℓ : Loc nD τ sig) → Buf (Elt Ideal) ℓ) (c : Dev nD) :
    StableHlo.after (ops (F := Ideal)) (fun b => m (c, b)) (Proc.devRef .tc main_v77)
      = refTail (stage_v10 (stage_v8 (m (c, Proc.devRef .tc main_arg0))))
          (stage_v35 (shapeCast S8192 (m (c, Proc.devRef .tc main_arg1)) shapeCasts_S16x512_S8192))
          (stage_v56 (shapeCast S8192 (m (c, Proc.devRef .tc main_arg1)) shapeCasts_S16x512_S8192))
          (stage_v20 (shapeCast S8192 (m (c, Proc.devRef .tc main_arg1)) shapeCasts_S16x512_S8192)) :=
  out_eq _

end Cert.ReferenceIdeal.Hand

end
-- ==== Proof.Final.lean ====
import proofs.«429954_j35948876268191_2_alg».proof.Defs
import proofs.«429954_j35948876268191_2_alg».proof.Proof.Gen.Pre_finite_inputs
import proofs.«429954_j35948876268191_2_alg».proof.Proof.Bridge
import proofs.«429954_j35948876268191_2_alg».proof.Proof.KIPost
import proofs.«429954_j35948876268191_2_alg».proof.Proof.KIValue
import proofs.«429954_j35948876268191_2_alg».proof.Proof.RefOut
import proofs.«429954_j35948876268191_2_alg».proof.Proof.RefTail

noncomputable section

namespace Cert.Final

open Idealize.ShloMosaic Idealize.ShloMosaic.TcCoe Idealize.SL.Sem

def refLoss (x : (⟨Cert.ReferenceIdeal.S16x512x256, .f32⟩ : BufTy).Contents (Elt Ideal))
    (lb : (⟨Cert.ReferenceIdeal.S8192, .i32⟩ : BufTy).Contents (Elt Ideal)) : EReal :=
  Cert.Spec.loss (Ideal.ofBits .f32 0x4E6E6B28#32) (Ideal.ofBits .f32 0xCE6E6B28#32) (Ideal.ofBits .f32 0x3F000000#32)
    (fun i j => Cert.ReferenceIdeal.Hand.stage_v10 (Cert.ReferenceIdeal.Hand.stage_v8 x) (ValueIdx.ix2 i j))
    (fun i => decide (Cert.ReferenceIdeal.Hand.stage_v20 lb (ValueIdx.ix1 i) = 1#1))
    (fun i j => decide (Cert.ReferenceIdeal.Hand.stage_v35 lb (ValueIdx.ix2 i j) = 1#1))
    (fun i j => decide (Cert.ReferenceIdeal.Hand.stage_v56 lb (ValueIdx.ix2 i j) = 1#1))

theorem ref_side (m' : (ℓ : Loc Cert.ReferenceIdeal.nD Cert.ReferenceIdeal.τ Cert.ReferenceIdeal.sig) → Buf (Elt Ideal) ℓ)
    (c : Dev Cert.ReferenceIdeal.nD) :
    (StableHlo.after (Cert.ReferenceIdeal.Hand.ops (F := Ideal)) (fun b => m' (c, b)) (Proc.devRef .tc Cert.ReferenceIdeal.main_v77)
        : Cert.ReferenceIdeal.S_.Idx → EReal) ValueIdx.ix0
      = refLoss (m' (c, Proc.devRef .tc Cert.ReferenceIdeal.main_arg0))
          (shapeCast Cert.ReferenceIdeal.S8192 (m' (c, Proc.devRef .tc Cert.ReferenceIdeal.main_arg1))
            Cert.ReferenceIdeal.Gen.shapeCasts_S16x512_S8192) :=
  (congrFun (Cert.ReferenceIdeal.Hand.out_eq_mem m' c) ValueIdx.ix0).trans (Cert.ReferenceIdeal.Hand.refTail_eq _ _ _ _)

theorem ker_side (m : (ℓ : Loc Cert.KernelIdeal.nD Cert.KernelIdeal.τ Cert.KernelIdeal.sig) → Buf (Elt Ideal) ℓ)
    (c : Dev Cert.KernelIdeal.nD) :
    (Cert.KernelIdeal.Hand.Wend (Cert.KernelIdeal.Hand.V0 m) (Cert.KernelIdeal.Hand.dats m) c
        (Proc.devRef .tc Cert.KernelIdeal.main_v43) : Cert.KernelIdeal.S_.Idx → EReal) ValueIdx.ix0
      = refLoss (m ((c : Thread Cert.KernelIdeal.nD Cert.KernelIdeal.τ).loc Cert.KernelIdeal.main_arg0))
          (Cert.KernelIdeal.Hand.lbOf m c) :=
  (Cert.KernelIdeal.Hand.kernel_value m c (Cert.Bridge.negK_diag m c)).trans (Cert.Bridge.loss_bridge m c)

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (StableHlo.after (Cert.ReferenceIdeal.Hand.ops (F := Ideal)) (fun b => m' (c, b)) (Proc.devRef .tc Cert.ReferenceIdeal.main_v77)
        : Cert.ReferenceIdeal.S_.Idx → EReal)
      = (Cert.KernelIdeal.Hand.Wend (Cert.KernelIdeal.Hand.V0 m) (Cert.KernelIdeal.Hand.dats m) c
          (Proc.devRef .tc Cert.KernelIdeal.main_v43) : Cert.KernelIdeal.S_.Idx → EReal) := by
  funext i
  have hi : i = ValueIdx.ix0 := ValueIdx.eq_ix0 i
  subst hi
  have hx : m' (c, Proc.devRef .tc Cert.ReferenceIdeal.main_arg0)
      = m ((c : Thread Cert.KernelIdeal.nD Cert.KernelIdeal.τ).loc Cert.KernelIdeal.main_arg0) := h0
  have hl : shapeCast Cert.ReferenceIdeal.S8192 (m' (c, Proc.devRef .tc Cert.ReferenceIdeal.main_arg1))
      Cert.ReferenceIdeal.Gen.shapeCasts_S16x512_S8192 = Cert.KernelIdeal.Hand.lbOf m c :=
    (congrArg (fun l : Cert.ReferenceIdeal.S16x512.Idx → BitVec 32 =>
      shapeCast Cert.ReferenceIdeal.S8192 l Cert.ReferenceIdeal.Gen.shapeCasts_S16x512_S8192) h1).trans
      (Cert.Bridge.labels_eq _).symm
  exact (ref_side m' c).trans ((congrArg₂ refLoss hx hl).trans (ker_side m c).symm)

theorem algebraic : Cert.algebraic_KernelIdeal_ReferenceIdeal := by
  intro m ρ m' ρ' _ hagree
  refine ⟨fun c => Cert.KernelIdeal.Hand.Wend (Cert.KernelIdeal.Hand.V0 m) (Cert.KernelIdeal.Hand.dats m) c
    (Proc.devRef .tc Cert.KernelIdeal.main_v43), Cert.KernelIdeal.Hand.run (F := Ideal) m ρ, ?_⟩
  refine (θ_run Cert.ReferenceIdeal.defs _ _).mono (fun r h c => ⟨(h c).1.trans ?_, (h c).2⟩)
    (Cert.ReferenceIdeal.Hand.run (F := Ideal) m' ρ')
  exact result_eq m m' c (hagree c).1 (hagree c).2

end Cert.Final

end
-- ==== Proof.lean ====
/-
  A hard-negative contrastive loss over 8192 rows, computed by whole-array host operations and by an 8 x 8 grid of
  1024 x 1024 tiles that carries, per row block, a running minimum, a running maximum and two flags across the eight
  column tiles.  Over the extended reals the eight running steps of a row are the minimum, maximum and disjunction over
  all 8192 columns, and the class codes decide the same masks as the label comparisons on every row that can
  contribute; so both programs compute the one specification of Proof/Spec.lean.
-/
import proofs.«429954_j35948876268191_2_alg».proof.Defs
import proofs.«429954_j35948876268191_2_alg».proof.Proof.Gen.Kernel
import proofs.«429954_j35948876268191_2_alg».proof.Proof.Gen.KernelIdeal
import proofs.«429954_j35948876268191_2_alg».proof.Proof.Gen.ReferenceIdeal
import proofs.«429954_j35948876268191_2_alg».proof.Proof.Gen.Pre_finite_inputs
import proofs.«429954_j35948876268191_2_alg».proof.Proof.KBPost
import proofs.«429954_j35948876268191_2_alg».proof.Proof.KIPost
import proofs.«429954_j35948876268191_2_alg».proof.Proof.RefRun
import proofs.«429954_j35948876268191_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ =>
  (θ_run (Cert.Kernel.defs (F := Bits)) _ _).mono (fun _ h c => (h c).2) (Cert.Kernel.Hand.run (F := Bits) m ρ)

theorem frame_kernelIdeal : Cert.frame_KernelIdeal := fun m ρ _ =>
  (θ_run (Cert.KernelIdeal.defs (F := Ideal)) _ _).mono (fun _ h c => (h c).2) (Cert.KernelIdeal.Hand.run (F := Ideal) m ρ)

theorem frame_reference : Cert.frame_ReferenceIdeal := fun m ρ _ => Cert.ReferenceIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Final.algebraic⟩

end Cert.Proof

end
